-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v45)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v35)) (v3 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v35) = v2 c
          ∧ r.2.mem ((c.tc : Thread Cert.KernelIdeal.nD Cert.KernelIdeal.τ).loc Cert.KernelIdeal.main_v41) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_v52) = v2 c
          ∧ r.2.mem ((c.tc : Thread Cert.ReferenceIdeal.nD Cert.ReferenceIdeal.τ).loc Cert.ReferenceIdeal.main_v58) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S64x128 : Shape := ⟨2, ![64, 128]⟩
abbrev S64 : Shape := ⟨1, ![64]⟩
abbrev S3200000 : Shape := ⟨1, ![3200000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S3200000 : S_.BroadcastsInDim S3200000 (![] : Fin 0 → Fin S3200000.rank)
  reducesTo_S3200000_S_d0 : S3200000.ReducesTo [0] S_

variable [Facts]

def fn_part2 {F : FTy → Type} [FloatOps F] (main_v30 : IVec S_ 1) (main_v32 : IVec S3200000 1) : IVec S_ 1 :=
  let main_c_13 : IVec S_ 1 := constantI S_ 1 1#1
  let main_v33 : IVec S_ 1 := (fun x v => Host.reduce IntOp.andi x v reducesTo_S3200000_S_d0 h_S_) main_v32 main_c_13
  let main_v34 : IVec S_ 1 := andi main_v30 main_v33
  main_v34

def fn_part1 {F : FTy → Type} [FloatOps F] (main_arg4 : IVec S3200000 32) (main_arg5 : IVec S3200000 32) (main_v13 : IVec S_ 1) (main_v16 : IVec S3200000 1) : IVec S_ 1 :=
  let main_c_5 : IVec S_ 1 := constantI S_ 1 1#1
  let main_v17 : IVec S_ 1 := (fun x v => Host.reduce IntOp.andi x v reducesTo_S3200000_S_d0 h_S_) main_v16 main_c_5
  let main_v18 : IVec S_ 1 := andi main_v13 main_v17
  let main_c_6 : IVec S_ 32 := constantI S_ 32 0#32
  let main_v19 : IVec S3200000 32 := broadcastInDim S3200000 ![] bcast_S_S3200000 main_c_6
  let main_v20 : IVec S3200000 1 := cmpi .sge main_arg4 main_v19
  let main_c_7 : IVec S_ 1 := constantI S_ 1 1#1
  let main_v21 : IVec S_ 1 := (fun x v => Host.reduce IntOp.andi x v reducesTo_S3200000_S_d0 h_S_) main_v20 main_c_7
  let main_v22 : IVec S_ 1 := andi main_v18 main_v21
  let main_c_8 : IVec S_ 32 := constantI S_ 32 100000#32
  let main_v23 : IVec S3200000 32 := broadcastInDim S3200000 ![] bcast_S_S3200000 main_c_8
  let main_v24 : IVec S3200000 1 := cmpi .slt main_arg4 main_v23
  let main_c_9 : IVec S_ 1 := constantI S_ 1 1#1
  let main_v25 : IVec S_ 1 := (fun x v => Host.reduce IntOp.andi x v reducesTo_S3200000_S_d0 h_S_) main_v24 main_c_9
  let main_v26 : IVec S_ 1 := andi main_v22 main_v25
  let main_c_10 : IVec S_ 32 := constantI S_ 32 0#32
  let main_v27 : IVec S3200000 32 := broadcastInDim S3200000 ![] bcast_S_S3200000 main_c_10
  let main_v28 : IVec S3200000 1 := cmpi .sge main_arg5 main_v27
  let main_c_11 : IVec S_ 1 := constantI S_ 1 1#1
  let main_v29 : IVec S_ 1 := (fun x v => Host.reduce IntOp.andi x v reducesTo_S3200000_S_d0 h_S_) main_v28 main_c_11
  let main_v30 : IVec S_ 1 := andi main_v26 main_v29
  let main_c_12 : IVec S_ 32 := constantI S_ 32 100000#32
  let main_v31 : IVec S3200000 32 := broadcastInDim S3200000 ![] bcast_S_S3200000 main_c_12
  let main_v32 : IVec S3200000 1 := cmpi .slt main_arg5 main_v31
  fn_part2 (F := F) main_v30 main_v32

def fn {F : FTy → Type} [FloatOps F] (main_arg0 : FVec F S100000x128 .f32) (main_arg1 : FVec F S64x128 .f32) (main_arg2 : FVec F S64 .f32) (main_arg3 : FVec F S3200000 .f32) (main_arg4 : IVec S3200000 32) (main_arg5 : IVec S3200000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S3200000 .f32 := Host.absf main_arg3
  let main_cst_4 : FVec F S_ .f32 := constant S_ .f32 0x7F800000#32
  let main_v15 : FVec F S3200000 .f32 := broadcastInDim S3200000 ![] bcast_S_S3200000 main_cst_4
  let main_v16 : IVec S3200000 1 := cmpf .olt main_v14 main_v15
  fn_part1 (F := F) main_arg4 main_arg5 main_v13 main_v16
-- ==== Kernel.lean ====
abbrev S100000x128 : Shape := ⟨2, ![100000, 128]⟩
abbrev S64x128 : Shape := ⟨2, ![64, 128]⟩
abbrev S64 : Shape := ⟨1, ![64]⟩
abbrev S3200000 : Shape := ⟨1, ![3200000]⟩
abbrev S1x64 : Shape := ⟨2, ![1, 64]⟩
abbrev S100000x64 : Shape := ⟨2, ![100000, 64]⟩
abbrev S2x1x64 : Shape := ⟨3, ![2, 1, 64]⟩
abbrev S2x64x128 : Shape := ⟨3, ![2, 64, 128]⟩
abbrev S10000x128 : Shape := ⟨2, ![10000, 128]⟩
abbrev S10000x64 : Shape := ⟨2, ![10000, 64]⟩
abbrev S1x1x64 : Shape := ⟨3, ![1, 1, 64]⟩
abbrev S1x64x128 : Shape := ⟨3, ![1, 64, 128]⟩
abbrev S10000 : Shape := ⟨1, ![10000]⟩
abbrev S10000x1 : Shape := ⟨2, ![10000, 1]⟩
abbrev S_ : Shape := ⟨0, ![]⟩
abbrev S3200000x1 : Shape := ⟨2, ![3200000, 1]⟩
abbrev S3200000x64 : Shape := ⟨2, ![3200000, 64]⟩
abbrev S2x64x64 : Shape := ⟨3, ![2, 64, 64]⟩
abbrev S32000x64 : Shape := ⟨2, ![32000, 64]⟩
abbrev S1x64x64 : Shape := ⟨3, ![1, 64, 64]⟩
abbrev S64x64 : Shape := ⟨2, ![64, 64]⟩
abbrev S64x1 : Shape := ⟨2, ![64, 1]⟩

abbrev nBuf : Space → Nat
  | .hbm => 102
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S64x128, .f32⟩
  | .hbm, ⟨2, _⟩ => ⟨S64, .f32⟩
  | .hbm, ⟨3, _⟩ => ⟨S3200000, .f32⟩
  | .hbm, ⟨4, _⟩ => ⟨S3200000, .i32⟩
  | .hbm, ⟨5, _⟩ => ⟨S3200000, .i32⟩
  | .hbm, ⟨6, _⟩ => ⟨S1x64, .f32⟩
  | .hbm, ⟨7, _⟩ => ⟨S100000x64, .f32⟩
  | .hbm, ⟨8, _⟩ => ⟨S100000x64, .bf16⟩
  | .hbm, ⟨9, _⟩ => ⟨S2x1x64, .f32⟩
  | .hbm, ⟨10, _⟩ => ⟨S2x64x128, .f32⟩
  | .hbm, ⟨11, _⟩ => ⟨S_, .f32⟩
  | .hbm, ⟨12, _⟩ => ⟨S1x64, .f32⟩
  | .hbm, ⟨13, _⟩ => ⟨S64, .f32⟩
  | .hbm, ⟨14, _⟩ => ⟨S_, .f32⟩
  | .hbm, ⟨15, _⟩ => ⟨S64x128, .f32⟩
  | .hbm, ⟨16, _⟩ => ⟨S_, .f32⟩
  | .hbm, ⟨17, _⟩ => ⟨S_, .f32⟩
  | .hbm, ⟨18, _⟩ => ⟨S_, .i32⟩
  | .hbm, ⟨19, _⟩ => ⟨S3200000, .i32⟩
  | .hbm, ⟨20, _⟩ => ⟨S3200000, .i1⟩
  | .hbm, ⟨21, _⟩ => ⟨S_, .i32⟩
  | .hbm, ⟨22, _⟩ => ⟨S3200000, .i32⟩
  | .hbm, ⟨23, _⟩ => ⟨S3200000, .i32⟩
  | .hbm, ⟨24, _⟩ => ⟨S3200000, .i32⟩
  | .hbm, ⟨25, _⟩ => ⟨S3200000x1, .i32⟩
  | .hbm, ⟨26, _⟩ => ⟨S3200000x64, .bf16⟩
  | .hbm, ⟨27, _⟩ => ⟨S_, .i32⟩
  | .hbm, ⟨28, _⟩ => ⟨S3200000, .i32⟩
  | .hbm, ⟨29, _⟩ => ⟨S3200000, .i1⟩
  | .hbm, ⟨30, _⟩ => ⟨S_, .i32⟩
  | .hbm, ⟨31, _⟩ => ⟨S3200000, .i32⟩
  | .hbm, ⟨32, _⟩ => ⟨S3200000, .i32⟩
  | .hbm, ⟨33, _⟩ => ⟨S3200000, .i32⟩
  | .hbm, ⟨34, _⟩ => ⟨S3200000x1, .i32⟩
  | .hbm, ⟨35, _⟩ => ⟨S3200000x64, .bf16⟩
  | .hbm, ⟨36, _⟩ => ⟨S3200000x1, .f32⟩
  | .hbm, ⟨37, _⟩ => ⟨S3200000x64, .f32⟩
  | .hbm, ⟨38, _⟩ => ⟨S3200000x64, .f32⟩
  | .hbm, ⟨39, _⟩ => ⟨S3200000x64, .f32⟩
  | .hbm, ⟨40, _⟩ => ⟨S3200000x64, .bf16⟩
  | .hbm, ⟨41, _⟩ => ⟨S2x64x64, .f32⟩
  | .hbm, ⟨42, _⟩ => ⟨S2x1x64, .f32⟩
  | .hbm, ⟨43, _⟩ => ⟨S_, .f32⟩
  | .hbm, ⟨44, _⟩ => ⟨S64x64, .f32⟩
  | .hbm, ⟨45, _⟩ => ⟨S_, .f32⟩
  | .hbm, ⟨46, _⟩ => ⟨S1x64, .f32⟩
  | .hbm, ⟨47, _⟩ => ⟨S_, .f32⟩
  | .hbm, ⟨48, _⟩ => ⟨S_, .f32⟩
  | .hbm, ⟨49, _⟩ => ⟨S64x64, .i32⟩
  | .hbm, ⟨50, _⟩ => ⟨S64x64, .i32⟩
  | .hbm, ⟨51, _⟩ => ⟨S_, .i32⟩
  | .hbm, ⟨52, _⟩ => ⟨S64x64, .i32⟩
  | .hbm, ⟨53, _⟩ => ⟨S64x64, .i32⟩
  | .hbm, ⟨54, _⟩ => ⟨S64x64, .i1⟩
  | .hbm, ⟨55, _⟩ => ⟨S_, .f32⟩
  | .hbm, ⟨56, _⟩ => ⟨S64x64, .f32⟩
  | .hbm, ⟨57, _⟩ => ⟨S64x64, .f32⟩
  | .hbm, ⟨58, _⟩ => ⟨S_, .f32⟩
  | .hbm, ⟨59, _⟩ => ⟨S_, .f32⟩
  | .hbm, ⟨60, _⟩ => ⟨S1x64, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S64, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S64x1, .f32⟩
  | .hbm, ⟨81, _⟩ => ⟨S64x128, .f32⟩
  | .hbm, ⟨82, _⟩ => ⟨S64x128, .f32⟩
  | .hbm, ⟨83, _⟩ => ⟨S_, .f32⟩
  | .hbm, ⟨84, _⟩ => ⟨S_, .f32⟩
  | .hbm, ⟨85, _⟩ => ⟨S64x128, .f32⟩
  | .hbm, ⟨86, _⟩ => ⟨S64x128, .i1⟩
  | .hbm, ⟨87, _⟩ => ⟨S_, .f32⟩
  | .hbm, ⟨88, _⟩ => ⟨S64x128, .f32⟩
  | .hbm, ⟨89, _⟩ => ⟨S64x128, .i1⟩
  | .hbm, ⟨90, _⟩ => ⟨S_, .f32⟩
  | .hbm, ⟨91, _⟩ => ⟨S_, .f32⟩
  | .hbm, ⟨92, _⟩ => ⟨S64x128, .f32⟩
  | .hbm, ⟨93, _⟩ => ⟨S64x128, .f32⟩
  | .hbm, ⟨94, _⟩ => ⟨S64x128, .f32⟩
  | .hbm, ⟨95, _⟩ => ⟨S_, .f32⟩
  | .hbm, ⟨96, _⟩ => ⟨S64x128, .f32⟩
  | .hbm, ⟨97, _⟩ => ⟨S64x128, .f32⟩
  | .hbm, ⟨98, _⟩ => ⟨S64x128, .f32⟩
  | .hbm, ⟨99, _⟩ => ⟨S_, .f32⟩
  | .hbm, ⟨100, _⟩ => ⟨S64x128, .f32⟩
  | .hbm, ⟨101, _⟩ => ⟨S64x128, .f32⟩
  | .local _ .vmem, ⟨0, _⟩ => ⟨S10000x128, .f32⟩
  | .local _ .vmem, ⟨1, _⟩ => ⟨S10000x128, .f32⟩
  | .local _ .vmem, ⟨2, _⟩ => ⟨S64x128, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x64, .bf16⟩
  | .local _ .vmem, ⟨7, _⟩ => ⟨S10000x64, .bf16⟩
  | .local _ .vmem, ⟨8, _⟩ => ⟨S1x1x64, .f32⟩
  | .local _ .vmem, ⟨9, _⟩ => ⟨S1x1x64, .f32⟩
  | .local _ .vmem, ⟨10, _⟩ => ⟨S1x64x128, .f32⟩
  | .local _ .vmem, ⟨11, _⟩ => ⟨S1x64x128, .f32⟩
  | .local _ .vmem, ⟨12, _⟩ => ⟨S1x64, .f32⟩
  | .local _ .vmem, ⟨13, _⟩ => ⟨S64x128, .f32⟩
  | .local _ .vmem, ⟨14, _⟩ => ⟨S32000x64, .bf16⟩
  | .local _ .vmem, ⟨15, _⟩ => ⟨S32000x64, .bf16⟩
  | .local _ .vmem, ⟨16, _⟩ => ⟨S32000x64, .bf16⟩
  | .local _ .vmem, ⟨17, _⟩ => ⟨S32000x64, .bf16⟩
  | .local _ .vmem, ⟨18, _⟩ => ⟨S1x64x64, .f32⟩
  | .local _ .vmem, ⟨19, _⟩ => ⟨S1x64x64, .f32⟩
  | .local _ .vmem, ⟨20, _⟩ => ⟨S1x1x64, .f32⟩
  | .local _ .vmem, ⟨21, _⟩ => ⟨S1x1x64, .f32⟩
  | .local _ .vmem, ⟨22, _⟩ => ⟨S64x64, .f32⟩
  | .local _ .vmem, ⟨23, _⟩ => ⟨S1x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_c_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c_3 : Ref sig .tc := ⟨.hbm, 27, rfl⟩
abbrev main_v13 : Ref sig .tc := ⟨.hbm, 28, rfl⟩
abbrev main_v14 : Ref sig .tc := ⟨.hbm, 29, rfl⟩
abbrev main_c_4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25_0 : Ref sig .tc := ⟨.hbm, 41, rfl⟩
abbrev main_v25_1 : Ref sig .tc := ⟨.hbm, 42, rfl⟩
abbrev main_cst_5 : Ref sig .tc := ⟨.hbm, 43, rfl⟩
abbrev main_v26 : Ref sig .tc := ⟨.hbm, 44, rfl⟩
abbrev main_cst_6 : Ref sig .tc := ⟨.hbm, 45, rfl⟩
abbrev main_v27 : Ref sig .tc := ⟨.hbm, 46, rfl⟩
abbrev main_cst_7 : Ref sig .tc := ⟨.hbm, 47, rfl⟩
abbrev main_v28 : Ref sig .tc := ⟨.hbm, 48, rfl⟩
abbrev main_call0_v0 : Ref sig .tc := ⟨.hbm, 49, rfl⟩
abbrev main_call0_v1 : Ref sig .tc := ⟨.hbm, 50, rfl⟩
abbrev main_call0_c : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_call0_cst : Ref sig .tc := ⟨.hbm, 55, rfl⟩
abbrev main_call0_v5 : Ref sig .tc := ⟨.hbm, 56, rfl⟩
abbrev main_call0_v6 : Ref sig .tc := ⟨.hbm, 57, rfl⟩
abbrev main_call0_cst_0 : Ref sig .tc := ⟨.hbm, 58, rfl⟩
abbrev main_v29 : Ref sig .tc := ⟨.hbm, 59, rfl⟩
abbrev main_v30 : Ref sig .tc := ⟨.hbm, 60, rfl⟩
abbrev main_cst_8 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_call1_v0 : Ref sig .tc := ⟨.hbm, 67, rfl⟩
abbrev main_call1_cst : Ref sig .tc := ⟨.hbm, 68, rfl⟩
abbrev main_call1_v1 : Ref sig .tc := ⟨.hbm, 69, rfl⟩
abbrev main_v36 : Ref sig .tc := ⟨.hbm, 70, rfl⟩
abbrev main_cst_9 : Ref sig .tc := ⟨.hbm, 71, rfl⟩
abbrev main_v37 : Ref sig .tc := ⟨.hbm, 72, rfl⟩
abbrev main_cst_10 : Ref sig .tc := ⟨.hbm, 73, rfl⟩
abbrev main_v38 : Ref sig .tc := ⟨.hbm, 74, rfl⟩
abbrev main_v39 : Ref sig .tc := ⟨.hbm, 75, rfl⟩
abbrev main_cst_11 : Ref sig .tc := ⟨.hbm, 76, rfl⟩
abbrev main_v40 : Ref sig .tc := ⟨.hbm, 77, rfl⟩
abbrev main_cst_12 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_call2_cst : Ref sig .tc := ⟨.hbm, 83, rfl⟩
abbrev main_call2_call0_cst : Ref sig .tc := ⟨.hbm, 84, rfl⟩
abbrev main_call2_call0_v0 : Ref sig .tc := ⟨.hbm, 85, rfl⟩
abbrev main_call2_call0_v1 : Ref sig .tc := ⟨.hbm, 86, rfl⟩
abbrev main_call2_call0_cst_0 : Ref sig .tc := ⟨.hbm, 87, rfl⟩
abbrev main_call2_call0_v2 : Ref sig .tc := ⟨.hbm, 88, rfl⟩
abbrev main_call2_call0_v3 : Ref sig .tc := ⟨.hbm, 89, rfl⟩
abbrev main_call2_call0_cst_1 : Ref sig .tc := ⟨.hbm, 90, rfl⟩
abbrev main_call2_call0_call0_v0 : Ref sig .tc := ⟨.hbm, 91, rfl⟩
abbrev main_call2_call0_call0_v1 : Ref sig .tc := ⟨.hbm, 92, rfl⟩
abbrev main_call2_call0_v4 : Ref sig .tc := ⟨.hbm, 93, rfl⟩
abbrev main_call2_call0_v5 : Ref sig .tc := ⟨.hbm, 94, rfl⟩
abbrev main_call2_call0_v6 : Ref sig .tc := ⟨.hbm, 95, rfl⟩
abbrev main_call2_call0_v7 : Ref sig .tc := ⟨.hbm, 96, rfl⟩
abbrev main_call2_call0_v8 : Ref sig .tc := ⟨.hbm, 97, rfl⟩
abbrev main_call2_v0 : Ref sig .tc := ⟨.hbm, 98, rfl⟩
abbrev main_call2_cst_0 : Ref sig .tc := ⟨.hbm, 99, rfl⟩
abbrev main_call2_v1 : Ref sig .tc := ⟨.hbm, 100, rfl⟩
abbrev main_v45 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_scratch0 : Ref sig .tc := ⟨.vmem, 22, rfl⟩
abbrev cc1_scratch1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨2, ![2, 5], ![false, false]⟩

def k0_cond2 (i : grid0.Coords) : BitVec 1 :=
  let arg1 : BitVec 32 := BitVec.ofNat 32 (i 1).val
  let c4_i32 : BitVec 32 := 4#32
  let v37 : BitVec 1 := Scalar.cmpi .eq arg1 c4_i32
  let v38 : BitVec 32 := Scalar.extui v37
  let c0_i32_22 : BitVec 32 := 0#32
  let v39 : BitVec 1 := Scalar.cmpi .ne v38 c0_i32_22
  v39

def cc0_transform_0 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S10000x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![2, 50], ![false, false]⟩

def k1_cond2 (i : grid1.Coords) : BitVec 1 :=
  let arg1 : BitVec 32 := BitVec.ofNat 32 (i 1).val
  let c49_i32 : BitVec 32 := 49#32
  let v21 : BitVec 1 := Scalar.cmpi .eq arg1 c49_i32
  let v22 : BitVec 32 := Scalar.extui v21
  let c0_i32_13 : BitVec 32 := 0#32
  let v23 : BitVec 1 := Scalar.cmpi .ne v22 c0_i32_13
  v23

def cc1_transform_0 (i : grid1.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S32000x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S32000x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x64x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  broadcasts_S1x64_S10000x64 : S1x64.Broadcasts S10000x64
  reduces_S10000x64_S10000 : S10000x64.Reduces [1] S10000
  shapeCasts_S10000_S10000x1 : S10000.ShapeCasts S10000x1
  broadcasts_S10000x1_S10000x64 : S10000x1.Broadcasts S10000x64
  inb_S10000x64_S10000x64_0_0 : ∀ a, (![0, 0] : Fin 2 → Nat) a + S10000x64.size a ≤ S10000x64.size a
  h_S10000x64 : 0 < S10000x64.numel
  packedbf16_S10000x64_S10000x64_0_0 : (Rect.unit (s := S10000x64) ![0, 0] S10000x64.size inb_S10000x64_S10000x64_0_0).PackedRows (EltTy.packing .bf16)
  reduces_S10000x64_S64 : S10000x64.Reduces [0] S64
  inb_S1x1x64_S1x1x64_0_0_0 : ∀ a, (![0, 0, 0] : Fin 3 → Nat) a + S1x1x64.size a ≤ S1x1x64.size a
  h_S1x1x64 : 0 < S1x1x64.numel
  shapeCasts_S1x1x64_S1x64 : S1x1x64.ShapeCasts S1x64
  shapeCasts_S1x64_S1x1x64 : S1x64.ShapeCasts S1x1x64
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  shapeCasts_S64x128_S1x64x128 : S64x128.ShapeCasts S1x64x128
  reducesTo_S2x1x64_S1x64_d0 : S2x1x64.ReducesTo [0] S1x64
  h_S_ : 0 < S_.numel
  shapeCasts_S1x64_S64 : S1x64.ShapeCasts S64
  reducesTo_S2x64x128_S64x128_d0 : S2x64x128.ReducesTo [0] S64x128
  reducesTo_S3200000_S_d0 : S3200000.ReducesTo [0] S_
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x64_0_1 : S3200000x1.BroadcastsInDim S3200000x64 (![0, 1] : Fin 2 → Fin S3200000x64.rank)
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S32000x64_S32000x64_0_0 : ∀ a, (![0, 0] : Fin 2 → Nat) a + S32000x64.size a ≤ S32000x64.size a
  h_S32000x64 : 0 < S32000x64.numel
  shapeCasts_S32000x64_S32000x64 : S32000x64.ShapeCasts S32000x64
  reduces_S32000x64_S64 : S32000x64.Reduces [0] S64
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S64x64_S1x64x64 : S64x64.ShapeCasts S1x64x64
  reducesTo_S2x64x64_S64x64_d0 : S2x64x64.ReducesTo [0] S64x64
  bcast_S_S64x64 : S_.BroadcastsInDim S64x64 (![] : Fin 0 → Fin S64x64.rank)
  reducesTo_S64x64_S_d0_1 : S64x64.ReducesTo [0, 1] S_
  reducesTo_S1x64_S_d0_1 : S1x64.ReducesTo [0, 1] S_
  reducesTo_S64_S_d0 : S64.ReducesTo [0] S_
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S_S64x128 : S_.BroadcastsInDim S64x128 (![] : Fin 0 → Fin S64x128.rank)
  dot_S10000x128_S64x128_S10000x64_1_1_0_0_n_n_wf : DotDims.WF S10000x128 S64x128 S10000x64 [1] [1] [0] [0] [] []
  dot_S10000x64_S10000x128_S64x128_0_0_1_1_n_n_wf : DotDims.WF S10000x64 S10000x128 S64x128 [0] [0] [1] [1] [] []
  gather_S100000x64_S3200000x1_S3200000x64_1_0_n_n_0_1_164_wf : GatherDims.WF S100000x64 S3200000x1 S3200000x64 [1] [0] [] [0] [] 1 ![1, 64]
  dot_S32000x64_S32000x64_S64x64_0_0_1_1_n_n_wf : DotDims.WF S32000x64 S32000x64 S64x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x64.size a ≤ S100000x64.size a
  hwx0_4 : ∀ i : grid0.Coords, EltTy.bits .bf16 = 32 ∨ (Rect.block (s := S100000x64) S10000x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x64.size a ≤ S2x1x64.size a
  hwx0_5 : ∀ i : grid0.Coords, EltTy.bits .f32 = 32 ∨ (Rect.block (s := S2x1x64) S1x1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x64x128.size a ≤ S2x64x128.size a
  hwx0_6 : ∀ i : grid0.Coords, EltTy.bits .f32 = 32 ∨ (Rect.block (s := S2x64x128) S1x64x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32000x64.size a ≤ S3200000x64.size a
  hwx1_0 : ∀ i : grid1.Coords, EltTy.bits .bf16 = 32 ∨ (Rect.block (s := S3200000x64) S32000x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32000x64.size a ≤ S3200000x64.size a
  hwx1_1 : ∀ i : grid1.Coords, EltTy.bits .bf16 = 32 ∨ (Rect.block (s := S3200000x64) S32000x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x64x64.size a ≤ S2x64x64.size a
  hwx1_2 : ∀ i : grid1.Coords, EltTy.bits .f32 = 32 ∨ (Rect.block (s := S2x64x64) S1x64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x64.size a ≤ S2x1x64.size a
  hwx1_3 : ∀ i : grid1.Coords, EltTy.bits .f32 = 32 ∨ (Rect.block (s := S2x1x64) S1x1x64.size (cc1_transform_3 i) (hinb1_3 i)).WholeWords (EltTy.packing .f32)

variable [Facts₀]

def dot_S10000x128_S64x128_S10000x64_1_1_0_0_n_n : DotDims S10000x128 S64x128 S10000x64 where
  lhsContracting := [1]
  rhsContracting := [1]
  lhsNonContracting := [0]
  rhsNonContracting := [0]
  lhsBatch := []
  rhsBatch := []
  wf := dot_S10000x128_S64x128_S10000x64_1_1_0_0_n_n_wf
def dot_S10000x64_S10000x128_S64x128_0_0_1_1_n_n : DotDims S10000x64 S10000x128 S64x128 where
  lhsContracting := [0]
  rhsContracting := [0]
  lhsNonContracting := [1]
  rhsNonContracting := [1]
  lhsBatch := []
  rhsBatch := []
  wf := dot_S10000x64_S10000x128_S64x128_0_0_1_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def dot_S32000x64_S32000x64_S64x64_0_0_1_1_n_n : DotDims S32000x64 S32000x64 S64x64 where
  lhsContracting := [0]
  rhsContracting := [0]
  lhsNonContracting := [1]
  rhsNonContracting := [1]
  lhsBatch := []
  rhsBatch := []
  wf := dot_S32000x64_S32000x64_S64x64_0_0_1_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S10000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S10000x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_2) S1x1x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_3) S1x64x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v24) S32000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S32000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25_0) S1x64x64.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v25_1) S1x1x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun i => !(k1_cond2 i == 1#1) | 3 => fun i => !(k1_cond2 i == 1#1) | ⟨_ + 4, h⟩ => absurd h (Nat.not_lt.2 (Nat.le_add_left _ _))

class Facts : Prop extends Facts₀ where

variable [Facts]
-- ==== ReferenceIdeal.lean ====
abbrev S100000x128 : Shape := ⟨2, ![100000, 128]⟩
abbrev S64x128 : Shape := ⟨2, ![64, 128]⟩
abbrev S64 : Shape := ⟨1, ![64]⟩
abbrev S3200000 : Shape := ⟨1, ![3200000]⟩
abbrev S128x64 : Shape := ⟨2, ![128, 64]⟩
abbrev S100000x64 : Shape := ⟨2, ![100000, 64]⟩
abbrev S1x64 : Shape := ⟨2, ![1, 64]⟩
abbrev S_ : Shape := ⟨0, ![]⟩
abbrev S100000 : Shape := ⟨1, ![100000]⟩
abbrev S100000x1 : Shape := ⟨2, ![100000, 1]⟩
abbrev S3200000x1 : Shape := ⟨2, ![3200000, 1]⟩
abbrev S3200000x64 : Shape := ⟨2, ![3200000, 64]⟩
abbrev S64x100000 : Shape := ⟨2, ![64, 100000]⟩
abbrev S64x64 : Shape := ⟨2, ![64, 64]⟩
abbrev S64x1 : Shape := ⟨2, ![64, 1]⟩
abbrev S1x100000 : Shape := ⟨2, ![1, 100000]⟩

abbrev nBuf : Space → Nat
  | .hbm => 114
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S64x128, .f32⟩
  | .hbm, ⟨2, _⟩ => ⟨S64, .f32⟩
  | .hbm, ⟨3, _⟩ => ⟨S3200000, .f32⟩
  | .hbm, ⟨4, _⟩ => ⟨S3200000, .i32⟩
  | .hbm, ⟨5, _⟩ => ⟨S3200000, .i32⟩
  | .hbm, ⟨6, _⟩ => ⟨S128x64, .f32⟩
  | .hbm, ⟨7, _⟩ => ⟨S100000x64, .f32⟩
  | .hbm, ⟨8, _⟩ => ⟨S1x64, .f32⟩
  | .hbm, ⟨9, _⟩ => ⟨S100000x64, .f32⟩
  | .hbm, ⟨10, _⟩ => ⟨S100000x64, .f32⟩
  | .hbm, ⟨11, _⟩ => ⟨S_, .f32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S100000x1, .f32⟩
  | .hbm, ⟨17, _⟩ => ⟨S100000x64, .f32⟩
  | .hbm, ⟨18, _⟩ => ⟨S100000x64, .f32⟩
  | .hbm, ⟨19, _⟩ => ⟨S100000x64, .f32⟩
  | .hbm, ⟨20, _⟩ => ⟨S_, .f32⟩
  | .hbm, ⟨21, _⟩ => ⟨S100000, .f32⟩
  | .hbm, ⟨22, _⟩ => ⟨S100000x1, .f32⟩
  | .hbm, ⟨23, _⟩ => ⟨S100000x64, .f32⟩
  | .hbm, ⟨24, _⟩ => ⟨S100000x64, .f32⟩
  | .hbm, ⟨25, _⟩ => ⟨S_, .f32⟩
  | .hbm, ⟨26, _⟩ => ⟨S64, .f32⟩
  | .hbm, ⟨27, _⟩ => ⟨S1x64, .f32⟩
  | .hbm, ⟨28, _⟩ => ⟨S100000x64, .f32⟩
  | .hbm, ⟨29, _⟩ => ⟨S100000x64, .f32⟩
  | .hbm, ⟨30, _⟩ => ⟨S_, .f32⟩
  | .hbm, ⟨31, _⟩ => ⟨S100000, .f32⟩
  | .hbm, ⟨32, _⟩ => ⟨S3200000x1, .i32⟩
  | .hbm, ⟨33, _⟩ => ⟨S100000, .f32⟩
  | .hbm, ⟨34, _⟩ => ⟨S100000x1, .f32⟩
  | .hbm, ⟨35, _⟩ => ⟨S_, .f32⟩
  | .hbm, ⟨36, _⟩ => ⟨S_, .f32⟩
  | .hbm, ⟨37, _⟩ => ⟨S3200000x1, .f32⟩
  | .hbm, ⟨38, _⟩ => ⟨S_, .i32⟩
  | .hbm, ⟨39, _⟩ => ⟨S3200000, .i32⟩
  | .hbm, ⟨40, _⟩ => ⟨S3200000, .i1⟩
  | .hbm, ⟨41, _⟩ => ⟨S_, .i32⟩
  | .hbm, ⟨42, _⟩ => ⟨S3200000, .i32⟩
  | .hbm, ⟨43, _⟩ => ⟨S3200000, .i32⟩
  | .hbm, ⟨44, _⟩ => ⟨S3200000, .i32⟩
  | .hbm, ⟨45, _⟩ => ⟨S3200000x1, .i32⟩
  | .hbm, ⟨46, _⟩ => ⟨S3200000x64, .f32⟩
  | .hbm, ⟨47, _⟩ => ⟨S3200000x64, .f32⟩
  | .hbm, ⟨48, _⟩ => ⟨S3200000x64, .f32⟩
  | .hbm, ⟨49, _⟩ => ⟨S_, .f32⟩
  | .hbm, ⟨50, _⟩ => ⟨S100000x64, .f32⟩
  | .hbm, ⟨51, _⟩ => ⟨S3200000x1, .i32⟩
  | .hbm, ⟨52, _⟩ => ⟨S100000x64, .f32⟩
  | .hbm, ⟨53, _⟩ => ⟨S64x100000, .f32⟩
  | .hbm, ⟨54, _⟩ => ⟨S64x64, .f32⟩
  | .hbm, ⟨55, _⟩ => ⟨S64x100000, .f32⟩
  | .hbm, ⟨56, _⟩ => ⟨S64x1, .f32⟩
  | .hbm, ⟨57, _⟩ => ⟨S1x100000, .f32⟩
  | .hbm, ⟨58, _⟩ => ⟨S1x64, .f32⟩
  | .hbm, ⟨59, _⟩ => ⟨S64x64, .f32⟩
  | .hbm, ⟨60, _⟩ => ⟨S_, .f32⟩
  | .hbm, ⟨61, _⟩ => ⟨S_, .f32⟩
  | .hbm, ⟨62, _⟩ => ⟨S64x64, .f32⟩
  | .hbm, ⟨63, _⟩ => ⟨S64x64, .f32⟩
  | .hbm, ⟨64, _⟩ => ⟨S64x64, .f32⟩
  | .hbm, ⟨65, _⟩ => ⟨S64x64, .i32⟩
  | .hbm, ⟨66, _⟩ => ⟨S64x64, .i32⟩
  | .hbm, ⟨67, _⟩ => ⟨S_, .i32⟩
  | .hbm, ⟨68, _⟩ => ⟨S64x64, .i32⟩
  | .hbm, ⟨69, _⟩ => ⟨S64x64, .i32⟩
  | .hbm, ⟨70, _⟩ => ⟨S64x64, .i1⟩
  | .hbm, ⟨71, _⟩ => ⟨S_, .f32⟩
  | .hbm, ⟨72, _⟩ => ⟨S64x64, .f32⟩
  | .hbm, ⟨73, _⟩ => ⟨S64x64, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S64, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S64x100000, .f32⟩
  | .hbm, ⟨94, _⟩ => ⟨S64x128, .f32⟩
  | .hbm, ⟨95, _⟩ => ⟨S_, .f32⟩
  | .hbm, ⟨96, _⟩ => ⟨S_, .f32⟩
  | .hbm, ⟨97, _⟩ => ⟨S64x128, .f32⟩
  | .hbm, ⟨98, _⟩ => ⟨S64x128, .i1⟩
  | .hbm, ⟨99, _⟩ => ⟨S_, .f32⟩
  | .hbm, ⟨100, _⟩ => ⟨S64x128, .f32⟩
  | .hbm, ⟨101, _⟩ => ⟨S64x128, .i1⟩
  | .hbm, ⟨102, _⟩ => ⟨S_, .f32⟩
  | .hbm, ⟨103, _⟩ => ⟨S_, .f32⟩
  | .hbm, ⟨104, _⟩ => ⟨S64x128, .f32⟩
  | .hbm, ⟨105, _⟩ => ⟨S64x128, .f32⟩
  | .hbm, ⟨106, _⟩ => ⟨S64x128, .f32⟩
  | .hbm, ⟨107, _⟩ => ⟨S_, .f32⟩
  | .hbm, ⟨108, _⟩ => ⟨S64x128, .f32⟩
  | .hbm, ⟨109, _⟩ => ⟨S64x128, .f32⟩
  | .hbm, ⟨110, _⟩ => ⟨S64x128, .f32⟩
  | .hbm, ⟨111, _⟩ => ⟨S_, .f32⟩
  | .hbm, ⟨112, _⟩ => ⟨S64x128, .f32⟩
  | .hbm, ⟨113, _⟩ => ⟨S64x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_c : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_7 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_call0_v0 : Ref sig .tc := ⟨.hbm, 65, rfl⟩
abbrev main_call0_v1 : Ref sig .tc := ⟨.hbm, 66, rfl⟩
abbrev main_call0_c : Ref sig .tc := ⟨.hbm, 67, rfl⟩
abbrev main_call0_v2 : Ref sig .tc := ⟨.hbm, 68, rfl⟩
abbrev main_call0_v3 : Ref sig .tc := ⟨.hbm, 69, rfl⟩
abbrev main_call0_v4 : Ref sig .tc := ⟨.hbm, 70, rfl⟩
abbrev main_call0_cst : Ref sig .tc := ⟨.hbm, 71, rfl⟩
abbrev main_call0_v5 : Ref sig .tc := ⟨.hbm, 72, rfl⟩
abbrev main_call0_v6 : Ref sig .tc := ⟨.hbm, 73, rfl⟩
abbrev main_call0_cst_0 : Ref sig .tc := ⟨.hbm, 74, rfl⟩
abbrev main_v49 : Ref sig .tc := ⟨.hbm, 75, rfl⟩
abbrev main_v50 : Ref sig .tc := ⟨.hbm, 76, rfl⟩
abbrev main_cst_8 : Ref sig .tc := ⟨.hbm, 77, rfl⟩
abbrev main_v51 : Ref sig .tc := ⟨.hbm, 78, rfl⟩
abbrev main_v52 : Ref sig .tc := ⟨.hbm, 79, rfl⟩
abbrev main_call1_v0 : Ref sig .tc := ⟨.hbm, 80, rfl⟩
abbrev main_call1_cst : Ref sig .tc := ⟨.hbm, 81, rfl⟩
abbrev main_call1_v1 : Ref sig .tc := ⟨.hbm, 82, rfl⟩
abbrev main_v53 : Ref sig .tc := ⟨.hbm, 83, rfl⟩
abbrev main_cst_9 : Ref sig .tc := ⟨.hbm, 84, rfl⟩
abbrev main_v54 : Ref sig .tc := ⟨.hbm, 85, rfl⟩
abbrev main_cst_10 : Ref sig .tc := ⟨.hbm, 86, rfl⟩
abbrev main_v55 : Ref sig .tc := ⟨.hbm, 87, rfl⟩
abbrev main_v56 : Ref sig .tc := ⟨.hbm, 88, rfl⟩
abbrev main_cst_11 : Ref sig .tc := ⟨.hbm, 89, rfl⟩
abbrev main_v57 : Ref sig .tc := ⟨.hbm, 90, rfl⟩
abbrev main_cst_12 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_call2_cst : Ref sig .tc := ⟨.hbm, 95, rfl⟩
abbrev main_call2_call0_cst : Ref sig .tc := ⟨.hbm, 96, rfl⟩
abbrev main_call2_call0_v0 : Ref sig .tc := ⟨.hbm, 97, rfl⟩
abbrev main_call2_call0_v1 : Ref sig .tc := ⟨.hbm, 98, rfl⟩
abbrev main_call2_call0_cst_0 : Ref sig .tc := ⟨.hbm, 99, rfl⟩
abbrev main_call2_call0_v2 : Ref sig .tc := ⟨.hbm, 100, rfl⟩
abbrev main_call2_call0_v3 : Ref sig .tc := ⟨.hbm, 101, rfl⟩
abbrev main_call2_call0_cst_1 : Ref sig .tc := ⟨.hbm, 102, rfl⟩
abbrev main_call2_call0_call0_v0 : Ref sig .tc := ⟨.hbm, 103, rfl⟩
abbrev main_call2_call0_call0_v1 : Ref sig .tc := ⟨.hbm, 104, rfl⟩
abbrev main_call2_call0_v4 : Ref sig .tc := ⟨.hbm, 105, rfl⟩
abbrev main_call2_call0_v5 : Ref sig .tc := ⟨.hbm, 106, rfl⟩
abbrev main_call2_call0_v6 : Ref sig .tc := ⟨.hbm, 107, rfl⟩
abbrev main_call2_call0_v7 : Ref sig .tc := ⟨.hbm, 108, rfl⟩
abbrev main_call2_call0_v8 : Ref sig .tc := ⟨.hbm, 109, rfl⟩
abbrev main_call2_v0 : Ref sig .tc := ⟨.hbm, 110, rfl⟩
abbrev main_call2_cst_0 : Ref sig .tc := ⟨.hbm, 111, rfl⟩
abbrev main_call2_v1 : Ref sig .tc := ⟨.hbm, 112, rfl⟩
abbrev main_v61 : Ref sig .tc := ⟨.hbm, 113, rfl⟩

abbrev nD : Nat := 1
abbrev τ : Topo := Topo.v7x

variable {F : FTy → Type} [FloatOps F]

class Facts₀ : Prop where
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  reducesTo_S100000x64_S64_d0 : S100000x64.ReducesTo [0] S64
  bcast_S3200000_S3200000x1_0 : S3200000.BroadcastsInDim S3200000x1 (![0] : Fin 1 → Fin S3200000x1.rank)
  reducesTo_S100000x1_S_d0_1 : S100000x1.ReducesTo [0, 1] S_
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  transposes_S100000x64_S64x100000_1_0 : S100000x64.Transposes [1, 0] S64x100000
  transposes_S100000x1_S1x100000_1_0 : S100000x1.Transposes [1, 0] S1x100000
  bcast_S_S64x64 : S_.BroadcastsInDim S64x64 (![] : Fin 0 → Fin S64x64.rank)
  reducesTo_S64x64_S_d0_1 : S64x64.ReducesTo [0, 1] S_
  reducesTo_S64_S_d0 : S64.ReducesTo [0] S_
  bcast_S_S64x128 : S_.BroadcastsInDim S64x128 (![] : Fin 0 → Fin S64x128.rank)
  dot_S100000x128_S128x64_S100000x64_1_0_0_1_n_n_wf : DotDims.WF S100000x128 S128x64 S100000x64 [1] [0] [0] [1] [] []
  scatter_S100000_S3200000x1_S3200000_n_0_0_1_wf : ScatterDims.WF S100000 S3200000x1 S3200000 [] [0] [0] 1
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S64x100000_S100000x64_S64x64_1_0_0_1_n_n_wf : DotDims.WF S64x100000 S100000x64 S64x64 [1] [0] [0] [1] [] []
  dot_S64x100000_S100000x1_S64x1_1_0_0_1_n_n_wf : DotDims.WF S64x100000 S100000x1 S64x1 [1] [0] [0] [1] [] []
  dot_S1x100000_S100000x64_S1x64_1_0_0_1_n_n_wf : DotDims.WF S1x100000 S100000x64 S1x64 [1] [0] [0] [1] [] []
  dot_S64x1_S1x64_S64x64_1_0_0_1_n_n_wf : DotDims.WF S64x1 S1x64 S64x64 [1] [0] [0] [1] [] []
  dot_S64x100000_S100000x128_S64x128_1_0_0_1_n_n_wf : DotDims.WF S64x100000 S100000x128 S64x128 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S64x100000_S100000x64_S64x64_1_0_0_1_n_n : DotDims S64x100000 S100000x64 S64x64 where
  lhsContracting := [1]
  rhsContracting := [0]
  lhsNonContracting := [0]
  rhsNonContracting := [1]
  lhsBatch := []
  rhsBatch := []
  wf := dot_S64x100000_S100000x64_S64x64_1_0_0_1_n_n_wf
def dot_S64x100000_S100000x1_S64x1_1_0_0_1_n_n : DotDims S64x100000 S100000x1 S64x1 where
  lhsContracting := [1]
  rhsContracting := [0]
  lhsNonContracting := [0]
  rhsNonContracting := [1]
  lhsBatch := []
  rhsBatch := []
  wf := dot_S64x100000_S100000x1_S64x1_1_0_0_1_n_n_wf
def dot_S1x100000_S100000x64_S1x64_1_0_0_1_n_n : DotDims S1x100000 S100000x64 S1x64 where
  lhsContracting := [1]
  rhsContracting := [0]
  lhsNonContracting := [0]
  rhsNonContracting := [1]
  lhsBatch := []
  rhsBatch := []
  wf := dot_S1x100000_S100000x64_S1x64_1_0_0_1_n_n_wf
def dot_S64x1_S1x64_S64x64_1_0_0_1_n_n : DotDims S64x1 S1x64 S64x64 where
  lhsContracting := [1]
  rhsContracting := [0]
  lhsNonContracting := [0]
  rhsNonContracting := [1]
  lhsBatch := []
  rhsBatch := []
  wf := dot_S64x1_S1x64_S64x64_1_0_0_1_n_n_wf
def dot_S64x100000_S100000x128_S64x128_1_0_0_1_n_n : DotDims S64x100000 S100000x128 S64x128 where
  lhsContracting := [1]
  rhsContracting := [0]
  lhsNonContracting := [0]
  rhsNonContracting := [1]
  lhsBatch := []
  rhsBatch := []
  wf := dot_S64x100000_S100000x128_S64x128_1_0_0_1_n_n_wf

class Facts : Prop extends Facts₀ where

variable [Facts]
-- ==== Proof.K.R0Base.lean ====
import proofs.«403249_j11562051960853_3_alg».proof.Proof.Gen.Kernel.Launch
import proofs.«403249_j11562051960853_3_alg».proof.Proof.Gen.Kernel.Skeleton
import proofs.«403249_j11562051960853_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 5 = 0 :=
  (by decide +kernel : ∀ t : Fin grid0.N, cond0_0 (grid0.coords t) ↔ t.val % 5 = 0)

abbrev cond0_1 (i : grid0.Coords) : Prop := k0_cond2 i = 1#1

theorem hcond0_1 : ∀ t : Fin cfg0.N, cond0_1 (grid0.coords t) ↔ t.val % 5 = 4 :=
  (by decide +kernel : ∀ t : Fin grid0.N, cond0_1 (grid0.coords t) ↔ t.val % 5 = 4)

theorem liveAt0_0 : ∀ t : Fin cfg0.N, cfg0.idle 0 (grid0.coords t) = false := by decide +kernel

theorem liveAt0_1 : ∀ t : Fin cfg0.N, cfg0.idle 1 (grid0.coords t) = false := by decide +kernel

theorem liveAt0_2 : ∀ t : Fin cfg0.N, cfg0.idle 2 (grid0.coords t) = false := by decide +kernel

theorem liveAt0_3 : ∀ t : Fin cfg0.N, cfg0.idle 3 (grid0.coords t) = false := by decide +kernel

theorem liveAt0_4 : ∀ t : Fin cfg0.N, cfg0.idle 4 (grid0.coords t) = false := by decide +kernel

theorem idleAt0_5_A : ∀ t : Fin cfg0.N, cond0_0 (grid0.coords t) → ¬cond0_1 (grid0.coords t) → cfg0.idle 5 (grid0.coords t) = true := by decide +kernel

theorem noFlush0_5_A : ∀ t : Fin cfg0.N, cond0_0 (grid0.coords t) → ¬cond0_1 (grid0.coords t) → (cfg0.win 5).flush t = false := by decide +kernel

theorem idleAt0_5_B : ∀ t : Fin cfg0.N, ¬cond0_0 (grid0.coords t) → ¬cond0_1 (grid0.coords t) → cfg0.idle 5 (grid0.coords t) = true := by decide +kernel

theorem noFlush0_5_B : ∀ t : Fin cfg0.N, ¬cond0_0 (grid0.coords t) → ¬cond0_1 (grid0.coords t) → (cfg0.win 5).flush t = false := by decide +kernel

theorem liveAt0_5_C : ∀ t : Fin cfg0.N, ¬cond0_0 (grid0.coords t) → cond0_1 (grid0.coords t) → cfg0.idle 5 (grid0.coords t) = false := by decide +kernel

theorem idleAt0_6_A : ∀ t : Fin cfg0.N, cond0_0 (grid0.coords t) → ¬cond0_1 (grid0.coords t) → cfg0.idle 6 (grid0.coords t) = true := by decide +kernel

theorem noFlush0_6_A : ∀ t : Fin cfg0.N, cond0_0 (grid0.coords t) → ¬cond0_1 (grid0.coords t) → (cfg0.win 6).flush t = false := by decide +kernel

theorem idleAt0_6_B : ∀ t : Fin cfg0.N, ¬cond0_0 (grid0.coords t) → ¬cond0_1 (grid0.coords t) → cfg0.idle 6 (grid0.coords t) = true := by decide +kernel

theorem noFlush0_6_B : ∀ t : Fin cfg0.N, ¬cond0_0 (grid0.coords t) → ¬cond0_1 (grid0.coords t) → (cfg0.win 6).flush t = false := by decide +kernel

theorem liveAt0_6_C : ∀ t : Fin cfg0.N, ¬cond0_0 (grid0.coords t) → cond0_1 (grid0.coords t) → cfg0.idle 6 (grid0.coords t) = false := by decide +kernel

abbrev VO0_3 : View sig .tc .vmem S10000x64 .f32 := (Memref.whole cc0_stg3_0 : Memref sig .tc .vmem S10000x64 .f32).view

abbrev VO0_4 : View sig .tc .vmem S10000x64 .bf16 := (Memref.whole cc0_stg4_0 : Memref sig .tc .vmem S10000x64 .bf16).view

abbrev VO0_5 : View sig .tc .vmem S1x1x64 .f32 := (Memref.whole cc0_stg5_0 : Memref sig .tc .vmem S1x1x64 .f32).view

abbrev VO0_6 : View sig .tc .vmem S1x64x128 .f32 := (Memref.whole cc0_stg6_0 : Memref sig .tc .vmem S1x64x128 .f32).view

abbrev ms0_0 (t : Fin cfg0.N) : Memref sig .tc .vmem S10000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S10000x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S10000x64 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x64x128 .f32 := win0_6.stage (cfg0.slots t 6)
abbrev hs0_6 (t : Fin cfg0.N) : (ms0_6 t).IsWhole := hstage0_6 ((cfg0.slots t 6).cast nbuf0_6)

abbrev scM0_0 : Memref sig .tc .vmem S1x64 .f32 := Memref.whole cc0_scratch0
abbrev scM0_1 : Memref sig .tc .vmem S64x128 .f32 := Memref.whole cc0_scratch1

abbrev VS0_0 : View sig .tc .vmem S1x64 .f32 := scM0_0.view
abbrev VS0_1 : View sig .tc .vmem S64x128 .f32 := scM0_1.view

def otherScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ otherScoped0 c) ∗ (∃ r, prngReg c r)) := by
  unfold Pipeline.ΦA; rw [scopedRest0_eq]; simp only [scM0_0, scM0_1, owns_whole]; unfold otherScoped0; try rfl

end Cert.Kernel.Hand

end
-- ==== Proof.K.R0RunA.lean ====
import proofs.«403249_j11562051960853_3_alg».proof.Proof.K.R0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in

noncomputable def kernelRun0_A (c : Dev nD) (i : grid0.Coords) (arg2 : Memref sig .tc .vmem S10000x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x64x128 .f32) (harg8 : arg8.IsWhole) (arg9 : Memref sig .tc .vmem S1x64 .f32) (harg9 : arg9.IsWhole) (arg10 : Memref sig .tc .vmem S64x128 .f32) (harg10 : arg10.IsWhole) (hc0 : cond0_0 i) (hc1 : ¬cond0_1 i)
    (x0 : Vec F S10000x128 .f32) (x1 : Vec F S64x128 .f32) (x2 : Vec F S1x64 .f32) :
    Σ' (L3 : List (View.Piece (Elt F) S10000x64 .f32)) (L4 : List (View.Piece (Elt F) S10000x64 .bf16)) (L5 : List (View.Piece (Elt F) S1x1x64 .f32)) (L6 : List (View.Piece (Elt F) S1x64x128 .f32)) (LS0 : List (View.Piece (Elt F) S1x64 .f32)), { LS1 : List (View.Piece (Elt F) S64x128 .f32) //
      ∀ (xi5 : Vec F S1x1x64 .f32) (xi6 : Vec F S1x64x128 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xi5 ∗ owns (c : Thread nD τ) arg8 fullShare xi6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__assign_kernel i arg2 harg2 arg3 harg3 arg4 harg4 arg5 harg5 arg6 harg6 arg7 harg7 arg8 harg8 arg9 harg9 arg10 harg10) K } := by
  refine ⟨?_, ?_, [], [], ?_, ?_, fun xi5 xi6 E K => ?run⟩
  case run =>
    simp only [cc0__assign_kernel_eq_skeleton]; unfold cc0__assign_kernel_skel
    unfold owns
    iintro ⟨⟨%f0, %hf0, H0⟩, ⟨%f1, %hf1, H1⟩, ⟨%f2, %hf2, H2⟩, ⟨%d3, %f3, -, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.Kernel.Hand

end
-- ==== Proof.K.R0RunB.lean ====
import proofs.«403249_j11562051960853_3_alg».proof.Proof.K.R0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in

noncomputable def kernelRun0_B (c : Dev nD) (i : grid0.Coords) (arg2 : Memref sig .tc .vmem S10000x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x64x128 .f32) (harg8 : arg8.IsWhole) (arg9 : Memref sig .tc .vmem S1x64 .f32) (harg9 : arg9.IsWhole) (arg10 : Memref sig .tc .vmem S64x128 .f32) (harg10 : arg10.IsWhole) (hc0 : ¬cond0_0 i) (hc1 : ¬cond0_1 i)
    (x0 : Vec F S10000x128 .f32) (x1 : Vec F S64x128 .f32) (x2 : Vec F S1x64 .f32) (xs0 : Vec F S1x64 .f32) (xs1 : Vec F S64x128 .f32) :
    Σ' (L3 : List (View.Piece (Elt F) S10000x64 .f32)) (L4 : List (View.Piece (Elt F) S10000x64 .bf16)) (L5 : List (View.Piece (Elt F) S1x1x64 .f32)) (L6 : List (View.Piece (Elt F) S1x64x128 .f32)) (LS0 : List (View.Piece (Elt F) S1x64 .f32)), { LS1 : List (View.Piece (Elt F) S64x128 .f32) //
      ∀ (xi5 : Vec F S1x1x64 .f32) (xi6 : Vec F S1x64x128 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xi5 ∗ owns (c : Thread nD τ) arg8 fullShare xi6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__assign_kernel i arg2 harg2 arg3 harg3 arg4 harg4 arg5 harg5 arg6 harg6 arg7 harg7 arg8 harg8 arg9 harg9 arg10 harg10) K } := by
  refine ⟨?_, ?_, [], [], ?_, ?_, fun xi5 xi6 E K => ?run⟩
  case run =>
    simp only [cc0__assign_kernel_eq_skeleton]; unfold cc0__assign_kernel_skel
    unfold owns
    iintro ⟨⟨%f0, %hf0, H0⟩, ⟨%f1, %hf1, H1⟩, ⟨%f2, %hf2, H2⟩, ⟨%d3, %f3, -, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg7.eq_unread hf5; obtain rfl := harg8.eq_unread hf6; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.Kernel.Hand

end
-- ==== Proof.K.R0RunC.lean ====
import proofs.«403249_j11562051960853_3_alg».proof.Proof.K.R0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in

noncomputable def kernelRun0_C (c : Dev nD) (i : grid0.Coords) (arg2 : Memref sig .tc .vmem S10000x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x64x128 .f32) (harg8 : arg8.IsWhole) (arg9 : Memref sig .tc .vmem S1x64 .f32) (harg9 : arg9.IsWhole) (arg10 : Memref sig .tc .vmem S64x128 .f32) (harg10 : arg10.IsWhole) (hc0 : ¬cond0_0 i) (hc1 : cond0_1 i)
    (x0 : Vec F S10000x128 .f32) (x1 : Vec F S64x128 .f32) (x2 : Vec F S1x64 .f32) (xs0 : Vec F S1x64 .f32) (xs1 : Vec F S64x128 .f32) :
    Σ' (L3 : List (View.Piece (Elt F) S10000x64 .f32)) (L4 : List (View.Piece (Elt F) S10000x64 .bf16)) (L5 : List (View.Piece (Elt F) S1x1x64 .f32)) (L6 : List (View.Piece (Elt F) S1x64x128 .f32)) (LS0 : List (View.Piece (Elt F) S1x64 .f32)), { LS1 : List (View.Piece (Elt F) S64x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__assign_kernel i arg2 harg2 arg3 harg3 arg4 harg4 arg5 harg5 arg6 harg6 arg7 harg7 arg8 harg8 arg9 harg9 arg10 harg10) K } := by
  refine ⟨?_, ?_, ?_, ?_, ?_, ?_, fun E K => ?run⟩
  case run =>
    simp only [cc0__assign_kernel_eq_skeleton]; unfold cc0__assign_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [H6]; · iexists _; iexact H6
    isplitl [HS0]; · iexists _; iexact HS0
    iexists _; iexact HS1

end Cert.Kernel.Hand

end
-- ==== Proof.K.R0.lean ====
import proofs.«403249_j11562051960853_3_alg».proof.Proof.K.R0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid0.Coords) (arg2 : Memref sig .tc .vmem S10000x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x64x128 .f32) (harg8 : arg8.IsWhole) (arg9 : Memref sig .tc .vmem S1x64 .f32) (harg9 : arg9.IsWhole) (arg10 : Memref sig .tc .vmem S64x128 .f32) (harg10 : arg10.IsWhole)

section
variable (hc0 : cond0_0 i) (hc1 : ¬cond0_1 i) (x0 : Vec F S10000x128 .f32) (x1 : Vec F S64x128 .f32) (x2 : Vec F S1x64 .f32)

theorem cover0_A_3 (y : S10000x64.Idx) :
    ∃ pc ∈ (kernelRun0_A c i arg2 harg2 arg3 harg3 arg4 harg4 arg5 harg5 arg6 harg6 arg7 harg7 arg8 harg8 arg9 harg9 arg10 harg10 hc0 hc1 x0 x1 x2).1, y ∈ pc.1.set :=
  View.cover_of_tiledL _ S10000x64.size (by sl_kernel_rfl) y

theorem cover0_A_4 (y : S10000x64.Idx) :
    ∃ pc ∈ (kernelRun0_A c i arg2 harg2 arg3 harg3 arg4 harg4 arg5 harg5 arg6 harg6 arg7 harg7 arg8 harg8 arg9 harg9 arg10 harg10 hc0 hc1 x0 x1 x2).2.1, y ∈ pc.1.set :=
  View.cover_of_tiledL _ S10000x64.size (by sl_kernel_rfl) y

theorem scover0_A_0 (y : S1x64.Idx) :
    ∃ pc ∈ (kernelRun0_A c i arg2 harg2 arg3 harg3 arg4 harg4 arg5 harg5 arg6 harg6 arg7 harg7 arg8 harg8 arg9 harg9 arg10 harg10 hc0 hc1 x0 x1 x2).2.2.2.2.1, y ∈ pc.1.set :=
  View.cover_of_tiledL _ S1x64.size (by sl_kernel_rfl) y

theorem scover0_A_1 (y : S64x128.Idx) :
    ∃ pc ∈ (kernelRun0_A c i arg2 harg2 arg3 harg3 arg4 harg4 arg5 harg5 arg6 harg6 arg7 harg7 arg8 harg8 arg9 harg9 arg10 harg10 hc0 hc1 x0 x1 x2).2.2.2.2.2.1, y ∈ pc.1.set :=
  View.cover_of_tiledL _ S64x128.size (by sl_kernel_rfl) y

end

section
variable (hc0 : ¬cond0_0 i) (hc1 : ¬cond0_1 i) (x0 : Vec F S10000x128 .f32) (x1 : Vec F S64x128 .f32) (x2 : Vec F S1x64 .f32) (xs0 : Vec F S1x64 .f32) (xs1 : Vec F S64x128 .f32)

theorem cover0_B_3 (y : S10000x64.Idx) :
    ∃ pc ∈ (kernelRun0_B c i arg2 harg2 arg3 harg3 arg4 harg4 arg5 harg5 arg6 harg6 arg7 harg7 arg8 harg8 arg9 harg9 arg10 harg10 hc0 hc1 x0 x1 x2 xs0 xs1).1, y ∈ pc.1.set :=
  View.cover_of_tiledL _ S10000x64.size (by sl_kernel_rfl) y

theorem cover0_B_4 (y : S10000x64.Idx) :
    ∃ pc ∈ (kernelRun0_B c i arg2 harg2 arg3 harg3 arg4 harg4 arg5 harg5 arg6 harg6 arg7 harg7 arg8 harg8 arg9 harg9 arg10 harg10 hc0 hc1 x0 x1 x2 xs0 xs1).2.1, y ∈ pc.1.set :=
  View.cover_of_tiledL _ S10000x64.size (by sl_kernel_rfl) y

theorem scover0_B_0 (y : S1x64.Idx) :
    ∃ pc ∈ (kernelRun0_B c i arg2 harg2 arg3 harg3 arg4 harg4 arg5 harg5 arg6 harg6 arg7 harg7 arg8 harg8 arg9 harg9 arg10 harg10 hc0 hc1 x0 x1 x2 xs0 xs1).2.2.2.2.1, y ∈ pc.1.set :=
  View.cover_of_tiledL _ S1x64.size (by sl_kernel_rfl) y

theorem scover0_B_1 (y : S64x128.Idx) :
    ∃ pc ∈ (kernelRun0_B c i arg2 harg2 arg3 harg3 arg4 harg4 arg5 harg5 arg6 harg6 arg7 harg7 arg8 harg8 arg9 harg9 arg10 harg10 hc0 hc1 x0 x1 x2 xs0 xs1).2.2.2.2.2.1, y ∈ pc.1.set :=
  View.cover_of_tiledL _ S64x128.size (by sl_kernel_rfl) y

end

section
variable (hc0 : ¬cond0_0 i) (hc1 : cond0_1 i) (x0 : Vec F S10000x128 .f32) (x1 : Vec F S64x128 .f32) (x2 : Vec F S1x64 .f32) (xs0 : Vec F S1x64 .f32) (xs1 : Vec F S64x128 .f32)

theorem cover0_C_3 (y : S10000x64.Idx) :
    ∃ pc ∈ (kernelRun0_C c i arg2 harg2 arg3 harg3 arg4 harg4 arg5 harg5 arg6 harg6 arg7 harg7 arg8 harg8 arg9 harg9 arg10 harg10 hc0 hc1 x0 x1 x2 xs0 xs1).1, y ∈ pc.1.set :=
  View.cover_of_tiledL _ S10000x64.size (by sl_kernel_rfl) y

theorem cover0_C_4 (y : S10000x64.Idx) :
    ∃ pc ∈ (kernelRun0_C c i arg2 harg2 arg3 harg3 arg4 harg4 arg5 harg5 arg6 harg6 arg7 harg7 arg8 harg8 arg9 harg9 arg10 harg10 hc0 hc1 x0 x1 x2 xs0 xs1).2.1, y ∈ pc.1.set :=
  View.cover_of_tiledL _ S10000x64.size (by sl_kernel_rfl) y

theorem cover0_C_5 (y : S1x1x64.Idx) :
    ∃ pc ∈ (kernelRun0_C c i arg2 harg2 arg3 harg3 arg4 harg4 arg5 harg5 arg6 harg6 arg7 harg7 arg8 harg8 arg9 harg9 arg10 harg10 hc0 hc1 x0 x1 x2 xs0 xs1).2.2.1, y ∈ pc.1.set :=
  View.cover_of_tiledL _ S1x1x64.size (by sl_kernel_rfl) y

theorem cover0_C_6 (y : S1x64x128.Idx) :
    ∃ pc ∈ (kernelRun0_C c i arg2 harg2 arg3 harg3 arg4 harg4 arg5 harg5 arg6 harg6 arg7 harg7 arg8 harg8 arg9 harg9 arg10 harg10 hc0 hc1 x0 x1 x2 xs0 xs1).2.2.2.1, y ∈ pc.1.set :=
  View.cover_of_tiledL _ S1x64x128.size (by sl_kernel_rfl) y

theorem scover0_C_0 (y : S1x64.Idx) :
    ∃ pc ∈ (kernelRun0_C c i arg2 harg2 arg3 harg3 arg4 harg4 arg5 harg5 arg6 harg6 arg7 harg7 arg8 harg8 arg9 harg9 arg10 harg10 hc0 hc1 x0 x1 x2 xs0 xs1).2.2.2.2.1, y ∈ pc.1.set :=
  View.cover_of_tiledL _ S1x64.size (by sl_kernel_rfl) y

theorem scover0_C_1 (y : S64x128.Idx) :
    ∃ pc ∈ (kernelRun0_C c i arg2 harg2 arg3 harg3 arg4 harg4 arg5 harg5 arg6 harg6 arg7 harg7 arg8 harg8 arg9 harg9 arg10 harg10 hc0 hc1 x0 x1 x2 xs0 xs1).2.2.2.2.2.1, y ∈ pc.1.set :=
  View.cover_of_tiledL _ S64x128.size (by sl_kernel_rfl) y

end

end

abbrev Outs0 : Type := Vec F S10000x64 .f32 × Vec F S10000x64 .bf16 × Vec F S1x1x64 .f32 × Vec F S1x64x128 .f32 × Vec F S1x64 .f32 × Vec F S64x128 .f32

-- The outputs' and the running sums' buffers read back over the pieces a run of the body wrote.
def readBack0 (L0 : List (View.Piece (Elt F) S10000x64 .f32)) (L1 : List (View.Piece (Elt F) S10000x64 .bf16)) (L2 : List (View.Piece (Elt F) S1x1x64 .f32)) (L3 : List (View.Piece (Elt F) S1x64x128 .f32)) (L4 : List (View.Piece (Elt F) S1x64 .f32)) (L5 : List (View.Piece (Elt F) S64x128 .f32)) : Outs0 (F := F) :=
  (VO0_3.read (Elt F) (VO0_3.writes (Elt F) VO0_3.junk L0),
    VO0_4.read (Elt F) (VO0_4.writes (Elt F) VO0_4.junk L1),
    VO0_5.read (Elt F) (VO0_5.writes (Elt F) VO0_5.junk L2),
    VO0_6.read (Elt F) (VO0_6.writes (Elt F) VO0_6.junk L3),
    VS0_0.read (Elt F) (VS0_0.writes (Elt F) VS0_0.junk L4),
    VS0_1.read (Elt F) (VS0_1.writes (Elt F) VS0_1.junk L5))

-- The first block of a core's sweep: the two running sums are reset, nothing is copied out.
def caseA0 (c : Dev nD) (t : Fin cfg0.N) (h0 : t.val % 5 = 0) (h1 : ¬t.val % 5 = 4) : Outs0 (F := F) :=
  let r := kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t)
  readBack0 r.1 r.2.1 r.2.2.1 r.2.2.2.1 r.2.2.2.2.1 r.2.2.2.2.2.1

-- A middle block: the running sums s0, s1 left by the block before are added to.
def caseB0 (c : Dev nD) (t : Fin cfg0.N) (h0 : ¬t.val % 5 = 0) (h1 : ¬t.val % 5 = 4) (s0 : Vec F S1x64 .f32) (s1 : Vec F S64x128 .f32) : Outs0 (F := F) :=
  let r := kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) s0 s1
  readBack0 r.1 r.2.1 r.2.2.1 r.2.2.2.1 r.2.2.2.2.1 r.2.2.2.2.2.1

-- The last block of a sweep: as a middle block, then the sums are copied to their outputs.
def caseC0 (c : Dev nD) (t : Fin cfg0.N) (h0 : ¬t.val % 5 = 0) (h1 : t.val % 5 = 4) (s0 : Vec F S1x64 .f32) (s1 : Vec F S64x128 .f32) : Outs0 (F := F) :=
  let r := kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) s0 s1
  readBack0 r.1 r.2.1 r.2.2.1 r.2.2.2.1 r.2.2.2.2.1 r.2.2.2.2.2.1

-- What every output and running sum holds after block n, by recursion on n (a sweep is 5 blocks).
def outsAt0 (c : Dev nD) : (n : ℕ) → n < cfg0.N → Outs0 (F := F)
  | 0, hn => caseA0 V c ⟨0, hn⟩ (Nat.zero_mod _) (by show ¬(0 : ℕ) % 5 = 4; decide)
  | n + 1, hn =>
    if h0 : (n + 1) % 5 = 0 then
      if h1 : (n + 1) % 5 = 4 then False.elim (by omega)
      else caseA0 V c ⟨n + 1, hn⟩ h0 h1
    else
      if h1 : (n + 1) % 5 = 4 then caseC0 V c ⟨n + 1, hn⟩ h0 h1 (outsAt0 c n (Nat.lt_of_succ_lt hn)).2.2.2.2.1 (outsAt0 c n (Nat.lt_of_succ_lt hn)).2.2.2.2.2
      else caseB0 V c ⟨n + 1, hn⟩ h0 h1 (outsAt0 c n (Nat.lt_of_succ_lt hn)).2.2.2.2.1 (outsAt0 c n (Nat.lt_of_succ_lt hn)).2.2.2.2.2

theorem outsAt0_A (c : Dev nD) (t : Fin cfg0.N) (h0 : t.val % 5 = 0) (h1 : ¬t.val % 5 = 4) :
    outsAt0 V c t.val t.isLt = caseA0 V c t h0 h1 := by
  obtain ⟨n, hn⟩ := t
  cases n with
  | zero => exact rfl
  | succ n => exact (dif_pos h0).trans ((dif_neg h1).trans rfl)

theorem outsAt0_B (c : Dev nD) (t : Fin cfg0.N) (h0 : ¬t.val % 5 = 0) (h1 : ¬t.val % 5 = 4) :
    outsAt0 V c t.val t.isLt = caseB0 V c t h0 h1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 5 = 0) (h1 : t.val % 5 = 4) :
    outsAt0 V c t.val t.isLt = caseC0 V c t h0 h1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2 := by
  obtain ⟨n, hn⟩ := t
  cases n with
  | zero => exact (by exfalso; (try dsimp only at h0); exact absurd (Nat.zero_mod _) h0)
  | succ n => exact (dif_neg h0).trans ((dif_pos h1).trans rfl)

def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2.2.2.1) ∗ owns (c : Thread nD τ) scM0_1 fullShare ((outsAt0 V c n hn).2.2.2.2.2) ∗ otherScoped0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2.2.2.2.1) ∗ owns (c : Thread nD τ) scM0_1 fullShare ((outsAt0 V c n hn).2.2.2.2.2) ∗ otherScoped0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2.2.2.1) ∗ owns (c : Thread nD τ) scM0_1 fullShare ((outsAt0 V c (n - 1) (by omega)).2.2.2.2.2) ∗ otherScoped0 c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
    | ⟨5, _⟩ => (outsAt0 V c t.val t.isLt).2.2.1
    | ⟨6, _⟩ => (outsAt0 V c t.val t.isLt).2.2.2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]
theorem after0_5 (c : Dev nD) (t : Fin cfg0.N) : (dat0 V c).after 5 t = (outsAt0 V c t.val t.isLt).2.2.1 := by dsimp only [dat0]
theorem after0_6 (c : Dev nD) (t : Fin cfg0.N) : (dat0 V c).after 6 t = (outsAt0 V c t.val t.isLt).2.2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

-- At any block the invariant yields the running sums at SOME contents: all that a resetting block needs.
theorem Phi_loose0 (c : Dev nD) (t : Fin (cfg0.N + 1)) : (dat0 V c).Φ t ⊢ Pipeline.ΦA spec0 c := by
  by_cases ht : t.val = 0
  · rw [show (dat0 V c).Φ t = PhiS0 V c t.val (Nat.le_of_lt_succ t.isLt) from rfl, PhiS0_zero V c _ _ ht]
  · exact Phi_out0 V c t ht

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

-- One block's body meets its obligation, by the three cases of its two conditionals.
set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 10 := lt_of_lt_of_eq t.isLt (show cfg0.N = 10 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  by_cases h0 : t.val % 5 = 0
  · by_cases h1 : t.val % 5 = 4
    · exfalso; omega
    · rw [Dat.leavesExact_idle (dat0 V c) 5 t (idleAt0_5_A t ((hcond0_0 t).mpr h0) (fun h => h1 ((hcond0_1 t).mp h))) (noFlush0_5_A t ((hcond0_0 t).mpr h0) (fun h => h1 ((hcond0_1 t).mp h)))]
      rw [Dat.leavesExact_idle (dat0 V c) 6 t (idleAt0_6_A t ((hcond0_0 t).mpr h0) (fun h => h1 ((hcond0_1 t).mp h))) (noFlush0_6_A t ((hcond0_0 t).mpr h0) (fun h => h1 ((hcond0_1 t).mp h)))]
      rw [outsAt0_A V c t h0 h1]
      unfold caseA0 readBack0; (try dsimp only)
      refine (sep_mono_left (Phi_loose0 V c t.castSucc)).trans ?_
      rw [PhiA0_eq]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t)).2.2.2.2.2.2 _ _ Set.univ _)
      isplitl [H0]; · iexact H0
      isplitl [H1]; · iexact H1
      isplitl [H2]; · iexact H2
      isplitl [H3]; · iexists _; iexact H3
      isplitl [H4]; · iexists _; iexact H4
      isplitl [H5]; · iexact H5
      isplitl [H6]; · iexact H6
      isplitl [HS0]; · iexact HS0
      isplitl [HS1]; · iexact HS1
      iintro ⟨H0, H1, H2, ⟨%e3, H3⟩, ⟨%e4, H4⟩, H5, H6, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_A_3 c _ _ _ _ _ _ _ _ _ _ _ _ _ _ _ _ _ _ _ _ _ _ _ _)
      isplitl [H4]
      · unfold owns; iexists _; isplitr
        swap; · iexact H4
        ipureintro; exact View.read_writes_of_cover _ _ _ _ _ (cover0_A_4 c _ _ _ _ _ _ _ _ _ _ _ _ _ _ _ _ _ _ _ _ _ _ _ _)
      isplitl [H5]; · iexists _; iexact H5
      iexists _; iexact H6
  · by_cases h1 : t.val % 5 = 4
    · rw [show (dat0 V c).leavesExact 5 t = owns (c : Thread nD τ) (ms0_5 t) fullShare ((dat0 V c).after 5 t) from by
        unfold Dat.leavesExact; rw [liveAt0_5_C t (fun h => h0 ((hcond0_0 t).mp h)) ((hcond0_1 t).mpr h1)], after0_5]
      rw [show (dat0 V c).leavesExact 6 t = owns (c : Thread nD τ) (ms0_6 t) fullShare ((dat0 V c).after 6 t) from by
        unfold Dat.leavesExact; rw [liveAt0_6_C t (fun h => h0 ((hcond0_0 t).mp h)) ((hcond0_1 t).mpr h1)], after0_6]
      rw [outsAt0_C V c t h0 h1]
      unfold caseC0 readBack0; (try dsimp only)
      by_cases hz : t.val = 0
      · exfalso; omega
      · rw [PhiS0_castSucc V c t, PhiS0_pos V c _ _ hz]
        iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_C c (grid0.coords t) _ _ _ _ _ _ _ _ _ _ _ _ _ _ _ _ _ _ (fun h => h0 ((hcond0_0 t).mp h)) ((hcond0_1 t).mpr h1) (iblk0 V c 0 t) (iblk0 V c 1 t) (iblk0 V c 2 t) _ _).2.2.2.2.2.2 Set.univ _)
        isplitl [H0]; · iexact H0
        isplitl [H1]; · iexact H1
        isplitl [H2]; · iexact H2
        isplitl [H3]; · iexists _; iexact H3
        isplitl [H4]; · iexists _; iexact H4
        isplitl [H5]; · iexists _; iexact H5
        isplitl [H6]; · iexists _; iexact H6
        isplitl [HS0]; · iexact HS0
        isplitl [HS1]; · iexact HS1
        iintro ⟨H0, H1, H2, ⟨%e3, H3⟩, ⟨%e4, H4⟩, ⟨%e5, H5⟩, ⟨%e6, H6⟩, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_C_3 c _ _ _ _ _ _ _ _ _ _ _ _ _ _ _ _ _ _ _ _ _ _ _ _ _ _)
        isplitl [H4]
        · unfold owns; iexists _; isplitr
          swap; · iexact H4
          ipureintro; exact View.read_writes_of_cover _ _ _ _ _ (cover0_C_4 c _ _ _ _ _ _ _ _ _ _ _ _ _ _ _ _ _ _ _ _ _ _ _ _ _ _)
        isplitl [H5]
        · unfold owns; iexists _; isplitr
          swap; · iexact H5
          ipureintro; exact View.read_writes_of_cover _ _ _ _ _ (cover0_C_5 c _ _ _ _ _ _ _ _ _ _ _ _ _ _ _ _ _ _ _ _ _ _ _ _ _ _)
        unfold owns; iexists _; isplitr
        swap; · iexact H6
        ipureintro; exact View.read_writes_of_cover _ _ _ _ _ (cover0_C_6 c _ _ _ _ _ _ _ _ _ _ _ _ _ _ _ _ _ _ _ _ _ _ _ _ _ _)

    · rw [Dat.leavesExact_idle (dat0 V c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [Dat.leavesExact_idle (dat0 V c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [outsAt0_B V c t h0 h1]
      unfold caseB0 readBack0; (try dsimp only)
      by_cases hz : t.val = 0
      · exfalso; omega
      · rw [PhiS0_castSucc V c t, PhiS0_pos V c _ _ hz]
        iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_B c (grid0.coords t) _ _ _ _ _ _ _ _ _ _ _ _ _ _ _ _ _ _ (fun h => h0 ((hcond0_0 t).mp h)) (fun h => h1 ((hcond0_1 t).mp h)) (iblk0 V c 0 t) (iblk0 V c 1 t) (iblk0 V c 2 t) _ _).2.2.2.2.2.2 _ _ Set.univ _)
        isplitl [H0]; · iexact H0
        isplitl [H1]; · iexact H1
        isplitl [H2]; · iexact H2
        isplitl [H3]; · iexists _; iexact H3
        isplitl [H4]; · iexists _; iexact H4
        isplitl [H5]; · iexact H5
        isplitl [H6]; · iexact H6
        isplitl [HS0]; · iexact HS0
        isplitl [HS1]; · iexact HS1
        iintro ⟨H0, H1, H2, ⟨%e3, H3⟩, ⟨%e4, H4⟩, H5, H6, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_B_3 c _ _ _ _ _ _ _ _ _ _ _ _ _ _ _ _ _ _ _ _ _ _ _ _ _ _)
        isplitl [H4]
        · unfold owns; iexists _; isplitr
          swap; · iexact H4
          ipureintro; exact View.read_writes_of_cover _ _ _ _ _ (cover0_B_4 c _ _ _ _ _ _ _ _ _ _ _ _ _ _ _ _ _ _ _ _ _ _ _ _ _ _)
        isplitl [H5]; · iexists _; iexact H5
        iexists _; iexact H6

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem hout0 (c : Dev nD) : (dat0 V c).Φ (Fin.last cfg0.N) ⊢ Pipeline.ΦA spec0 c :=
  Phi_out0 V c _ (by rw [Fin.val_last]; have : cfg0.N = 10 := N_0; omega)

end Cert.Kernel.Hand

end
-- ==== Proof.K.R1Base.lean ====
import proofs.«403249_j11562051960853_3_alg».proof.Proof.Gen.Kernel.Launch
import proofs.«403249_j11562051960853_3_alg».proof.Proof.Gen.Kernel.Skeleton
import proofs.«403249_j11562051960853_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Regions

abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 50 = 0 :=
  (by decide +kernel : ∀ t : Fin grid1.N, cond1_0 (grid1.coords t) ↔ t.val % 50 = 0)

abbrev cond1_1 (i : grid1.Coords) : Prop := k1_cond2 i = 1#1

theorem hcond1_1 : ∀ t : Fin cfg1.N, cond1_1 (grid1.coords t) ↔ t.val % 50 = 49 :=
  (by decide +kernel : ∀ t : Fin grid1.N, cond1_1 (grid1.coords t) ↔ t.val % 50 = 49)

theorem liveAt1_0 : ∀ t : Fin cfg1.N, cfg1.idle 0 (grid1.coords t) = false := by decide +kernel

theorem liveAt1_1 : ∀ t : Fin cfg1.N, cfg1.idle 1 (grid1.coords t) = false := by decide +kernel

theorem idleAt1_2_A : ∀ t : Fin cfg1.N, cond1_0 (grid1.coords t) → ¬cond1_1 (grid1.coords t) → cfg1.idle 2 (grid1.coords t) = true := by decide +kernel

theorem noFlush1_2_A : ∀ t : Fin cfg1.N, cond1_0 (grid1.coords t) → ¬cond1_1 (grid1.coords t) → (cfg1.win 2).flush t = false := by decide +kernel

theorem idleAt1_2_B : ∀ t : Fin cfg1.N, ¬cond1_0 (grid1.coords t) → ¬cond1_1 (grid1.coords t) → cfg1.idle 2 (grid1.coords t) = true := by decide +kernel

theorem noFlush1_2_B : ∀ t : Fin cfg1.N, ¬cond1_0 (grid1.coords t) → ¬cond1_1 (grid1.coords t) → (cfg1.win 2).flush t = false := by decide +kernel

theorem liveAt1_2_C : ∀ t : Fin cfg1.N, ¬cond1_0 (grid1.coords t) → cond1_1 (grid1.coords t) → cfg1.idle 2 (grid1.coords t) = false := by decide +kernel

theorem idleAt1_3_A : ∀ t : Fin cfg1.N, cond1_0 (grid1.coords t) → ¬cond1_1 (grid1.coords t) → cfg1.idle 3 (grid1.coords t) = true := by decide +kernel

theorem noFlush1_3_A : ∀ t : Fin cfg1.N, cond1_0 (grid1.coords t) → ¬cond1_1 (grid1.coords t) → (cfg1.win 3).flush t = false := by decide +kernel

theorem idleAt1_3_B : ∀ t : Fin cfg1.N, ¬cond1_0 (grid1.coords t) → ¬cond1_1 (grid1.coords t) → cfg1.idle 3 (grid1.coords t) = true := by decide +kernel

theorem noFlush1_3_B : ∀ t : Fin cfg1.N, ¬cond1_0 (grid1.coords t) → ¬cond1_1 (grid1.coords t) → (cfg1.win 3).flush t = false := by decide +kernel

theorem liveAt1_3_C : ∀ t : Fin cfg1.N, ¬cond1_0 (grid1.coords t) → cond1_1 (grid1.coords t) → cfg1.idle 3 (grid1.coords t) = false := by decide +kernel

abbrev VO1_2 : View sig .tc .vmem S1x64x64 .f32 := (Memref.whole cc1_stg2_0 : Memref sig .tc .vmem S1x64x64 .f32).view
abbrev VO1_3 : View sig .tc .vmem S1x1x64 .f32 := (Memref.whole cc1_stg3_0 : Memref sig .tc .vmem S1x1x64 .f32).view

abbrev ms1_0 (t : Fin cfg1.N) : Memref sig .tc .vmem S32000x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S32000x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x64 .f32 := win1_3.stage (cfg1.slots t 3)
abbrev hs1_3 (t : Fin cfg1.N) : (ms1_3 t).IsWhole := hstage1_3 ((cfg1.slots t 3).cast nbuf1_3)

abbrev scM1_0 : Memref sig .tc .vmem S64x64 .f32 := Memref.whole cc1_scratch0
abbrev scM1_1 : Memref sig .tc .vmem S1x64 .f32 := Memref.whole cc1_scratch1

abbrev VS1_0 : View sig .tc .vmem S64x64 .f32 := scM1_0.view
abbrev VS1_1 : View sig .tc .vmem S1x64 .f32 := scM1_1.view

theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

end Cert.Kernel.Hand

end
-- ==== Proof.K.R1RunA.lean ====
import proofs.«403249_j11562051960853_3_alg».proof.Proof.K.R1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

noncomputable def kernelRun1_A (c : Dev nD) (i : grid1.Coords) (arg2 : Memref sig .tc .vmem S32000x64 .bf16) (harg2 : arg2.IsWhole) (arg3 : Memref sig .tc .vmem S32000x64 .bf16) (harg3 : arg3.IsWhole) (arg4 : Memref sig .tc .vmem S1x64x64 .f32) (harg4 : arg4.IsWhole) (arg5 : Memref sig .tc .vmem S1x1x64 .f32) (harg5 : arg5.IsWhole) (arg6 : Memref sig .tc .vmem S64x64 .f32) (harg6 : arg6.IsWhole) (arg7 : Memref sig .tc .vmem S1x64 .f32) (harg7 : arg7.IsWhole) (hc0 : cond1_0 i) (hc1 : ¬cond1_1 i)
    (x0 : Vec F S32000x64 .bf16) (x1 : Vec F S32000x64 .bf16) :
    Σ' (L2 : List (View.Piece (Elt F) S1x64x64 .f32)) (L3 : List (View.Piece (Elt F) S1x1x64 .f32)) (LS0 : List (View.Piece (Elt F) S64x64 .f32)), { LS1 : List (View.Piece (Elt F) S1x64 .f32) //
      ∀ (xi2 : Vec F S1x64x64 .f32) (xi3 : Vec F S1x1x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__edge_pool_kernel i arg2 harg2 arg3 harg3 arg4 harg4 arg5 harg5 arg6 harg6 arg7 harg7) K } := by
  refine ⟨[], [], ?_, ?_, fun xi2 xi3 E K => ?run⟩
  case run =>
    simp only [cc1__edge_pool_kernel_eq_skeleton]; unfold cc1__edge_pool_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Hand

end
-- ==== Proof.K.R1RunB.lean ====
import proofs.«403249_j11562051960853_3_alg».proof.Proof.K.R1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

noncomputable def kernelRun1_B (c : Dev nD) (i : grid1.Coords) (arg2 : Memref sig .tc .vmem S32000x64 .bf16) (harg2 : arg2.IsWhole) (arg3 : Memref sig .tc .vmem S32000x64 .bf16) (harg3 : arg3.IsWhole) (arg4 : Memref sig .tc .vmem S1x64x64 .f32) (harg4 : arg4.IsWhole) (arg5 : Memref sig .tc .vmem S1x1x64 .f32) (harg5 : arg5.IsWhole) (arg6 : Memref sig .tc .vmem S64x64 .f32) (harg6 : arg6.IsWhole) (arg7 : Memref sig .tc .vmem S1x64 .f32) (harg7 : arg7.IsWhole) (hc0 : ¬cond1_0 i) (hc1 : ¬cond1_1 i)
    (x0 : Vec F S32000x64 .bf16) (x1 : Vec F S32000x64 .bf16) (xs0 : Vec F S64x64 .f32) (xs1 : Vec F S1x64 .f32) :
    Σ' (L2 : List (View.Piece (Elt F) S1x64x64 .f32)) (L3 : List (View.Piece (Elt F) S1x1x64 .f32)) (LS0 : List (View.Piece (Elt F) S64x64 .f32)), { LS1 : List (View.Piece (Elt F) S1x64 .f32) //
      ∀ (xi2 : Vec F S1x64x64 .f32) (xi3 : Vec F S1x1x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__edge_pool_kernel i arg2 harg2 arg3 harg3 arg4 harg4 arg5 harg5 arg6 harg6 arg7 harg7) K } := by
  refine ⟨[], [], ?_, ?_, fun xi2 xi3 E K => ?run⟩
  case run =>
    simp only [cc1__edge_pool_kernel_eq_skeleton]; unfold cc1__edge_pool_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Hand

end
-- ==== Proof.K.R1RunC.lean ====
import proofs.«403249_j11562051960853_3_alg».proof.Proof.K.R1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

noncomputable def kernelRun1_C (c : Dev nD) (i : grid1.Coords) (arg2 : Memref sig .tc .vmem S32000x64 .bf16) (harg2 : arg2.IsWhole) (arg3 : Memref sig .tc .vmem S32000x64 .bf16) (harg3 : arg3.IsWhole) (arg4 : Memref sig .tc .vmem S1x64x64 .f32) (harg4 : arg4.IsWhole) (arg5 : Memref sig .tc .vmem S1x1x64 .f32) (harg5 : arg5.IsWhole) (arg6 : Memref sig .tc .vmem S64x64 .f32) (harg6 : arg6.IsWhole) (arg7 : Memref sig .tc .vmem S1x64 .f32) (harg7 : arg7.IsWhole) (hc0 : ¬cond1_0 i) (hc1 : cond1_1 i)
    (x0 : Vec F S32000x64 .bf16) (x1 : Vec F S32000x64 .bf16) (xs0 : Vec F S64x64 .f32) (xs1 : Vec F S1x64 .f32) :
    Σ' (L2 : List (View.Piece (Elt F) S1x64x64 .f32)) (L3 : List (View.Piece (Elt F) S1x1x64 .f32)) (LS0 : List (View.Piece (Elt F) S64x64 .f32)), { LS1 : List (View.Piece (Elt F) S1x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__edge_pool_kernel i arg2 harg2 arg3 harg3 arg4 harg4 arg5 harg5 arg6 harg6 arg7 harg7) K } := by
  refine ⟨?_, ?_, ?_, ?_, fun E K => ?run⟩
  case run =>
    simp only [cc1__edge_pool_kernel_eq_skeleton]; unfold cc1__edge_pool_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    iexists _; iexact HS1

end Cert.Kernel.Hand

end
-- ==== Proof.K.R1.lean ====
import proofs.«403249_j11562051960853_3_alg».proof.Proof.K.R1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

section
variable (c : Dev nD) (i : grid1.Coords) (arg2 : Memref sig .tc .vmem S32000x64 .bf16) (harg2 : arg2.IsWhole) (arg3 : Memref sig .tc .vmem S32000x64 .bf16) (harg3 : arg3.IsWhole) (arg4 : Memref sig .tc .vmem S1x64x64 .f32) (harg4 : arg4.IsWhole) (arg5 : Memref sig .tc .vmem S1x1x64 .f32) (harg5 : arg5.IsWhole) (arg6 : Memref sig .tc .vmem S64x64 .f32) (harg6 : arg6.IsWhole) (arg7 : Memref sig .tc .vmem S1x64 .f32) (harg7 : arg7.IsWhole)

section
variable (hc0 : cond1_0 i) (hc1 : ¬cond1_1 i) (x0 : Vec F S32000x64 .bf16) (x1 : Vec F S32000x64 .bf16)

theorem scover1_A_0 (y : S64x64.Idx) :
    ∃ pc ∈ (kernelRun1_A c i arg2 harg2 arg3 harg3 arg4 harg4 arg5 harg5 arg6 harg6 arg7 harg7 hc0 hc1 x0 x1).2.2.1, y ∈ pc.1.set :=
  View.cover_of_tiledL _ S64x64.size (by sl_kernel_rfl) y

theorem scover1_A_1 (y : S1x64.Idx) :
    ∃ pc ∈ (kernelRun1_A c i arg2 harg2 arg3 harg3 arg4 harg4 arg5 harg5 arg6 harg6 arg7 harg7 hc0 hc1 x0 x1).2.2.2.1, y ∈ pc.1.set :=
  View.cover_of_tiledL _ S1x64.size (by sl_kernel_rfl) y

end

section
variable (hc0 : ¬cond1_0 i) (hc1 : ¬cond1_1 i) (x0 : Vec F S32000x64 .bf16) (x1 : Vec F S32000x64 .bf16) (xs0 : Vec F S64x64 .f32) (xs1 : Vec F S1x64 .f32)

theorem scover1_B_0 (y : S64x64.Idx) :
    ∃ pc ∈ (kernelRun1_B c i arg2 harg2 arg3 harg3 arg4 harg4 arg5 harg5 arg6 harg6 arg7 harg7 hc0 hc1 x0 x1 xs0 xs1).2.2.1, y ∈ pc.1.set :=
  View.cover_of_tiledL _ S64x64.size (by sl_kernel_rfl) y

theorem scover1_B_1 (y : S1x64.Idx) :
    ∃ pc ∈ (kernelRun1_B c i arg2 harg2 arg3 harg3 arg4 harg4 arg5 harg5 arg6 harg6 arg7 harg7 hc0 hc1 x0 x1 xs0 xs1).2.2.2.1, y ∈ pc.1.set :=
  View.cover_of_tiledL _ S1x64.size (by sl_kernel_rfl) y

end

section
variable (hc0 : ¬cond1_0 i) (hc1 : cond1_1 i) (x0 : Vec F S32000x64 .bf16) (x1 : Vec F S32000x64 .bf16) (xs0 : Vec F S64x64 .f32) (xs1 : Vec F S1x64 .f32)

theorem cover1_C_2 (y : S1x64x64.Idx) :
    ∃ pc ∈ (kernelRun1_C c i arg2 harg2 arg3 harg3 arg4 harg4 arg5 harg5 arg6 harg6 arg7 harg7 hc0 hc1 x0 x1 xs0 xs1).1, y ∈ pc.1.set :=
  View.cover_of_tiledL _ S1x64x64.size (by sl_kernel_rfl) y

theorem cover1_C_3 (y : S1x1x64.Idx) :
    ∃ pc ∈ (kernelRun1_C c i arg2 harg2 arg3 harg3 arg4 harg4 arg5 harg5 arg6 harg6 arg7 harg7 hc0 hc1 x0 x1 xs0 xs1).2.1, y ∈ pc.1.set :=
  View.cover_of_tiledL _ S1x1x64.size (by sl_kernel_rfl) y

theorem scover1_C_0 (y : S64x64.Idx) :
    ∃ pc ∈ (kernelRun1_C c i arg2 harg2 arg3 harg3 arg4 harg4 arg5 harg5 arg6 harg6 arg7 harg7 hc0 hc1 x0 x1 xs0 xs1).2.2.1, y ∈ pc.1.set :=
  View.cover_of_tiledL _ S64x64.size (by sl_kernel_rfl) y

theorem scover1_C_1 (y : S1x64.Idx) :
    ∃ pc ∈ (kernelRun1_C c i arg2 harg2 arg3 harg3 arg4 harg4 arg5 harg5 arg6 harg6 arg7 harg7 hc0 hc1 x0 x1 xs0 xs1).2.2.2.1, y ∈ pc.1.set :=
  View.cover_of_tiledL _ S1x64.size (by sl_kernel_rfl) y

end

end

abbrev Outs1 : Type := Vec F S1x64x64 .f32 × Vec F S1x1x64 .f32 × Vec F S64x64 .f32 × Vec F S1x64 .f32

-- The outputs' and the running sums' buffers read back over the pieces a run of the body wrote.
def readBack1 (L0 : List (View.Piece (Elt F) S1x64x64 .f32)) (L1 : List (View.Piece (Elt F) S1x1x64 .f32)) (L2 : List (View.Piece (Elt F) S64x64 .f32)) (L3 : List (View.Piece (Elt F) S1x64 .f32)) : Outs1 (F := F) :=
  (VO1_2.read (Elt F) (VO1_2.writes (Elt F) VO1_2.junk L0),
    VO1_3.read (Elt F) (VO1_3.writes (Elt F) VO1_3.junk L1),
    VS1_0.read (Elt F) (VS1_0.writes (Elt F) VS1_0.junk L2),
    VS1_1.read (Elt F) (VS1_1.writes (Elt F) VS1_1.junk L3))

-- The first block of a core's sweep: the two running sums are reset, nothing is copied out.
def caseA1 (c : Dev nD) (t : Fin cfg1.N) (h0 : t.val % 50 = 0) (h1 : ¬t.val % 50 = 49) : Outs1 (F := F) :=
  let r := kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t)
  readBack1 r.1 r.2.1 r.2.2.1 r.2.2.2.1

-- A middle block: the running sums s0, s1 left by the block before are added to.
def caseB1 (c : Dev nD) (t : Fin cfg1.N) (h0 : ¬t.val % 50 = 0) (h1 : ¬t.val % 50 = 49) (s0 : Vec F S64x64 .f32) (s1 : Vec F S1x64 .f32) : Outs1 (F := F) :=
  let r := kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) s0 s1
  readBack1 r.1 r.2.1 r.2.2.1 r.2.2.2.1

-- The last block of a sweep: as a middle block, then the sums are copied to their outputs.
def caseC1 (c : Dev nD) (t : Fin cfg1.N) (h0 : ¬t.val % 50 = 0) (h1 : t.val % 50 = 49) (s0 : Vec F S64x64 .f32) (s1 : Vec F S1x64 .f32) : Outs1 (F := F) :=
  let r := kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) s0 s1
  readBack1 r.1 r.2.1 r.2.2.1 r.2.2.2.1

-- What every output and running sum holds after block n, by recursion on n (a sweep is 50 blocks).
def outsAt1 (c : Dev nD) : (n : ℕ) → n < cfg1.N → Outs1 (F := F)
  | 0, hn => caseA1 V c ⟨0, hn⟩ (Nat.zero_mod _) (by show ¬(0 : ℕ) % 50 = 49; decide)
  | n + 1, hn =>
    if h0 : (n + 1) % 50 = 0 then
      if h1 : (n + 1) % 50 = 49 then False.elim (by omega)
      else caseA1 V c ⟨n + 1, hn⟩ h0 h1
    else
      if h1 : (n + 1) % 50 = 49 then caseC1 V c ⟨n + 1, hn⟩ h0 h1 (outsAt1 c n (Nat.lt_of_succ_lt hn)).2.2.1 (outsAt1 c n (Nat.lt_of_succ_lt hn)).2.2.2
      else caseB1 V c ⟨n + 1, hn⟩ h0 h1 (outsAt1 c n (Nat.lt_of_succ_lt hn)).2.2.1 (outsAt1 c n (Nat.lt_of_succ_lt hn)).2.2.2

theorem outsAt1_A (c : Dev nD) (t : Fin cfg1.N) (h0 : t.val % 50 = 0) (h1 : ¬t.val % 50 = 49) :
    outsAt1 V c t.val t.isLt = caseA1 V c t h0 h1 := by
  obtain ⟨n, hn⟩ := t
  cases n with
  | zero => exact rfl
  | succ n => exact (dif_pos h0).trans ((dif_neg h1).trans rfl)

theorem outsAt1_B (c : Dev nD) (t : Fin cfg1.N) (h0 : ¬t.val % 50 = 0) (h1 : ¬t.val % 50 = 49) :
    outsAt1 V c t.val t.isLt = caseB1 V c t h0 h1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 50 = 0) (h1 : t.val % 50 = 49) :
    outsAt1 V c t.val t.isLt = caseC1 V c t h0 h1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

def inv1 (c : Dev nD) (X0 : Vec F S64x64 .f32) (X1 : Vec F S1x64 .f32) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) scM1_0 fullShare X0 ∗ owns (c : Thread nD τ) scM1_1 fullShare X1) ∗ (∃ r, prngReg c r))

def PhiS1 (c : Dev nD) : (n : ℕ) → n ≤ cfg1.N → sProp 𝕄
  | 0, _ => Pipeline.ΦA spec1 c
  | n + 1, hn => inv1 c (outsAt1 V c n hn).2.2.1 (outsAt1 V c n hn).2.2.2

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = inv1 c (outsAt1 V c n hn).2.2.1 (outsAt1 V c n hn).2.2.2 := rfl

theorem PhiS1_pos (c : Dev nD) (n : ℕ) (h : n ≤ cfg1.N) (hz : n ≠ 0) :
    PhiS1 V c n h = inv1 c (outsAt1 V c (n - 1) (by omega)).2.2.1 (outsAt1 V c (n - 1) (by omega)).2.2.2 := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
    | ⟨3, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem after1_3 (c : Dev nD) (t : Fin cfg1.N) : (dat1 V c).after 3 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold inv1
  iintro ⟨⟨HR0, HR1, HR2, HR3, HR4, HR5, HR6, HR7, HR8, HR9, HR10, HR11, HR12, HR13, HS0, HS1⟩, Hg⟩
  isplitl [HR0 HR1 HR2 HR3 HR4 HR5 HR6 HR7 HR8 HR9 HR10 HR11 HR12 HR13 HS0 HS1]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    isplitl [HS0]; · iexists _; iexact HS0
    iexists _; iexact HS1
  iexact Hg

-- At any block the invariant yields the running sums at SOME contents: all that a resetting block needs.
theorem Phi_loose1 (c : Dev nD) (t : Fin (cfg1.N + 1)) : (dat1 V c).Φ t ⊢ Pipeline.ΦA spec1 c := by
  by_cases ht : t.val = 0
  · rw [show (dat1 V c).Φ t = PhiS1 V c t.val (Nat.le_of_lt_succ t.isLt) from rfl, PhiS1_zero V c _ _ ht]
  · exact Phi_out1 V c t ht

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

-- One block's body meets its obligation, by the three cases of its two conditionals.
set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  unfold inv1
  have hN : t.val < 100 := lt_of_lt_of_eq t.isLt (show cfg1.N = 100 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 50 = 0
  · by_cases h1 : t.val % 50 = 49
    · exfalso; omega
    · rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold caseA1 readBack1; (try dsimp only)
      refine (sep_mono_left (Phi_loose1 V c t.castSucc)).trans ?_
      rw [PhiA1_eq]
      iintro ⟨⟨⟨HR0, HR1, HR2, HR3, HR4, HR5, HR6, HR7, HR8, HR9, HR10, HR11, HR12, HR13, HS0, HS1⟩, Hg⟩, Ho, ⟨%d0, H0⟩, ⟨%d1, H1⟩, ⟨%d2, H2⟩, ⟨%d3, H3⟩⟩
      iapply ((kernelRun1_A c (grid1.coords t) _ _ _ _ _ _ _ _ _ _ _ _ ((hcond1_0 t).mpr h0) (fun h => h1 ((hcond1_1 t).mp h)) (iblk1 V c 0 t) (iblk1 V c 1 t)).2.2.2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HR0 HR1 HR2 HR3 HR4 HR5 HR6 HR7 HR8 HR9 HR10 HR11 HR12 HR13 HS0 HS1 Hg]
      · isplitl [HR0 HR1 HR2 HR3 HR4 HR5 HR6 HR7 HR8 HR9 HR10 HR11 HR12 HR13 HS0 HS1]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HS0]
          · unfold owns; iexists _; isplitr
            swap; · iexact HS0
            ipureintro; exact View.read_writes_of_cover _ _ _ _ _ (scover1_A_0 c _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _)
        iexact Hg
      isplitl [Ho]; · iexact Ho
      isplitl [H0]; · iexact H0
      isplitl [H1]; · iexact H1
      isplitl [H2]; · iexists _; iexact H2
      iexists _; iexact H3
  · by_cases h1 : t.val % 50 = 49
    · rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold caseC1 readBack1; (try dsimp only)
      have hz : t.val ≠ 0 := by omega
      rw [PhiS1_castSucc V c t, PhiS1_pos V c _ _ hz]
      unfold inv1
      iintro ⟨⟨⟨HR0, HR1, HR2, HR3, HR4, HR5, HR6, HR7, HR8, HR9, HR10, HR11, HR12, HR13, HS0, HS1⟩, Hg⟩, Ho, ⟨%d0, H0⟩, ⟨%d1, H1⟩, ⟨%d2, H2⟩, ⟨%d3, H3⟩⟩
      iapply ((kernelRun1_C c (grid1.coords t) _ _ _ _ _ _ _ _ _ _ _ _ (fun h => h0 ((hcond1_0 t).mp h)) ((hcond1_1 t).mpr h1) (iblk1 V c 0 t) (iblk1 V c 1 t) _ _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HR0 HR1 HR2 HR3 HR4 HR5 HR6 HR7 HR8 HR9 HR10 HR11 HR12 HR13 HS0 HS1 Hg]
      · isplitl [HR0 HR1 HR2 HR3 HR4 HR5 HR6 HR7 HR8 HR9 HR10 HR11 HR12 HR13 HS0 HS1]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HS0]
          · unfold owns; iexists _; isplitr
            swap; · iexact HS0
            ipureintro; exact View.read_writes_of_cover _ _ _ _ _ (scover1_C_0 c _ _ _ _ _ _ _ _ _ _ _ _ _ _ _ _ _ _ _)
          unfold owns; iexists _; isplitr
          swap; · iexact HS1
          ipureintro; exact View.read_writes_of_cover _ _ _ _ _ (scover1_C_1 c _ _ _ _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover1_C_2 c _ _ _ _ _ _ _ _ _ _ _ _ _ _ _ _ _ _ _)
      unfold owns; iexists _; isplitr
      swap; · iexact H3
      ipureintro; exact View.read_writes_of_cover _ _ _ _ _ (cover1_C_3 c _ _ _ _ _ _ _ _ _ _ _ _ _ _ _ _ _ _ _)
    · rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold caseB1 readBack1; (try dsimp only)
      have hz : t.val ≠ 0 := by omega
      rw [PhiS1_castSucc V c t, PhiS1_pos V c _ _ hz]
      unfold inv1
      iintro ⟨⟨⟨HR0, HR1, HR2, HR3, HR4, HR5, HR6, HR7, HR8, HR9, HR10, HR11, HR12, HR13, HS0, HS1⟩, Hg⟩, Ho, ⟨%d0, H0⟩, ⟨%d1, H1⟩, ⟨%d2, H2⟩, ⟨%d3, H3⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) _ _).2.2.2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HR0 HR1 HR2 HR3 HR4 HR5 HR6 HR7 HR8 HR9 HR10 HR11 HR12 HR13 HS0 HS1 Hg]
      · isplitl [HR0 HR1 HR2 HR3 HR4 HR5 HR6 HR7 HR8 HR9 HR10 HR11 HR12 HR13 HS0 HS1]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HS0]
          · unfold owns; iexists _; isplitr
            swap; · iexact HS0
            ipureintro; exact View.read_writes_of_cover _ _ _ _ _ (scover1_B_0 c _ _ _ _ _ _ _ _ _ _ _ _ _ _ _ _ _ _ _)
          unfold owns; iexists _; isplitr
          swap; · iexact HS1
          ipureintro; exact View.read_writes_of_cover _ _ _ _ _ (scover1_B_1 c _ _ _ _ _ _ _ _ _ _ _ _ _ _ _ _ _ _ _)
        iexact Hg
      isplitl [Ho]; · iexact Ho
      isplitl [H0]; · iexact H0
      isplitl [H1]; · iexact H1
      isplitl [H2]; · iexists _; iexact H2
      iexists _; iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c :=
  Phi_out1 V c _ (by rw [Fin.val_last]; have : cfg1.N = 100 := N_1; omega)

end Regions

end Cert.Kernel.Hand

end
-- ==== Proof.K.Run.lean ====
import proofs.«403249_j11562051960853_3_alg».proof.Proof.Gen.Kernel.Launch
import proofs.«403249_j11562051960853_3_alg».proof.Proof.Gen.Kernel.Regions
import proofs.«403249_j11562051960853_3_alg».proof.Proof.K.R0
import proofs.«403249_j11562051960853_3_alg».proof.Proof.K.R1
import Idealize.ShloMosaic.Lib.Pipeline.Frame
import Idealize.ShloMosaic.Lib.Pipeline.Regions
import Idealize.ShloMosaic.Lib.Pipeline.RegionsLoop
import Idealize.ShloMosaic.Lib.Pipeline.FrameSuffix

set_option maxRecDepth 16384

noncomputable section

namespace Cert.Kernel.Hand

open Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

abbrev V2 : (c : Dev nD) → (b : Ref sig .tc) → Buf (Elt F) ((c : Thread nD τ).loc b) := fun c b => W2 m ρ c b

theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)

abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

abbrev V4 : (c : Dev nD) → (b : Ref sig .tc) → Buf (Elt F) ((c : Thread nD τ).loc b) := fun c b => W4 m ρ c b

theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)

abbrev W6 : Dev nD → Valuation τ sig (Elt F) := fun c => StableHlo.after hostOps2_1 (W5 m ρ c)

abbrev W7 : Dev nD → Valuation τ sig (Elt F) := fun c => StableHlo.after hostOps2_2 (W6 m ρ c)

abbrev W8 : Dev nD → Valuation τ sig (Elt F) := fun c => StableHlo.after hostOps2_3 (W7 m ρ c)

abbrev W9 : Dev nD → Valuation τ sig (Elt F) := fun c => StableHlo.after hostOps2_4 (W8 m ρ c)

abbrev W10 : Dev nD → Valuation τ sig (Elt F) := fun c => StableHlo.after hostOps2_5 (W9 m ρ c)

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h
theorem W6_of (c : Dev nD) (r : Ref sig .tc) (h : r ∉ hostOps2_1_W) :
    W6 m ρ c (Proc.devRef .tc r) = W5 m ρ c (Proc.devRef .tc r) :=
  StableHlo.after_of_writes_sub hostOps2_1 _ hostOps2_1_writes h
theorem W7_of (c : Dev nD) (r : Ref sig .tc) (h : r ∉ hostOps2_2_W) :
    W7 m ρ c (Proc.devRef .tc r) = W6 m ρ c (Proc.devRef .tc r) :=
  StableHlo.after_of_writes_sub hostOps2_2 _ hostOps2_2_writes h
theorem W8_of (c : Dev nD) (r : Ref sig .tc) (h : r ∉ hostOps2_3_W) :
    W8 m ρ c (Proc.devRef .tc r) = W7 m ρ c (Proc.devRef .tc r) :=
  StableHlo.after_of_writes_sub hostOps2_3 _ hostOps2_3_writes h
theorem W9_of (c : Dev nD) (r : Ref sig .tc) (h : r ∉ hostOps2_4_W) :
    W9 m ρ c (Proc.devRef .tc r) = W8 m ρ c (Proc.devRef .tc r) :=
  StableHlo.after_of_writes_sub hostOps2_4 _ hostOps2_4_writes h
theorem W10_of (c : Dev nD) (r : Ref sig .tc) (h : r ∉ hostOps2_5_W) :
    W10 m ρ c (Proc.devRef .tc r) = W9 m ρ c (Proc.devRef .tc r) :=
  StableHlo.after_of_writes_sub hostOps2_5 _ hostOps2_5_writes h

theorem W10_of_tail (c : Dev nD) (r : Ref sig .tc) (h5 : r ∉ hostOps2_W) (h6 : r ∉ hostOps2_1_W) (h7 : r ∉ hostOps2_2_W)
    (h8 : r ∉ hostOps2_3_W) (h9 : r ∉ hostOps2_4_W) (h10 : r ∉ hostOps2_5_W) :
    W10 m ρ c (Proc.devRef .tc r) = W4 m ρ c (Proc.devRef .tc r) :=
  (W10_of m ρ c r h10).trans <| (W9_of m ρ c r h9).trans <| (W8_of m ρ c r h8).trans <| (W7_of m ρ c r h7).trans <|
    (W6_of m ρ c r h6).trans (W5_of m ρ c r h5)

-- An array that no host operation writes and no kernel region returns ends as launched.
theorem W10_kept (c : Dev nD) (r : Ref sig .tc)
    (h : r ∉ hostOps0_W ∧ r ∉ hostOps1_W ∧ r ∉ hostOps2_W ∧ r ∉ hostOps2_1_W ∧ r ∉ hostOps2_2_W ∧ r ∉ hostOps2_3_W
      ∧ r ∉ hostOps2_4_W ∧ r ∉ hostOps2_5_W)
    (h1 : ∀ w, Pipeline.arrRef spec1 w ≠ r) (h0 : W2 m ρ c (Proc.devRef .tc r) = W1 m ρ c (Proc.devRef .tc r)) :
    W10 m ρ c (Proc.devRef .tc r) = m ((c : Thread nD τ).loc r) :=
  (W10_of_tail m ρ c r h.2.2.1 h.2.2.2.1 h.2.2.2.2.1 h.2.2.2.2.2.1 h.2.2.2.2.2.2.1 h.2.2.2.2.2.2.2).trans <|
    (W4_of_ne m ρ c r h1).trans <| (W3_of m ρ c r h.2.1).trans <| h0.trans <| (W1_of m ρ c r h.1).trans rfl

theorem W10_main_arg0 (c : Dev nD) : W10 m ρ c (Proc.devRef .tc main_arg0) = m ((c : Thread nD τ).loc main_arg0) :=
  W10_kept m ρ c main_arg0 (by decide) (by decide) ((W2_arr m ρ c 0).trans (((dat0 (V1 m ρ) c).arrAt_in 0 rfl _).trans (A_eq0 (V1 m ρ) c 0)))
theorem W10_main_arg1 (c : Dev nD) : W10 m ρ c (Proc.devRef .tc main_arg1) = m ((c : Thread nD τ).loc main_arg1) :=
  W10_kept m ρ c main_arg1 (by decide) (by decide) ((W2_arr m ρ c 1).trans (((dat0 (V1 m ρ) c).arrAt_in 1 rfl _).trans (A_eq0 (V1 m ρ) c 1)))
theorem W10_main_arg2 (c : Dev nD) : W10 m ρ c (Proc.devRef .tc main_arg2) = m ((c : Thread nD τ).loc main_arg2) :=
  W10_kept m ρ c main_arg2 (by decide) (by decide) (W2_of_ne m ρ c main_arg2 (by decide))
theorem W10_main_arg3 (c : Dev nD) : W10 m ρ c (Proc.devRef .tc main_arg3) = m ((c : Thread nD τ).loc main_arg3) :=
  W10_kept m ρ c main_arg3 (by decide) (by decide) (W2_of_ne m ρ c main_arg3 (by decide))
theorem W10_main_arg4 (c : Dev nD) : W10 m ρ c (Proc.devRef .tc main_arg4) = m ((c : Thread nD τ).loc main_arg4) :=
  W10_kept m ρ c main_arg4 (by decide) (by decide) (W2_of_ne m ρ c main_arg4 (by decide))
theorem W10_main_arg5 (c : Dev nD) : W10 m ρ c (Proc.devRef .tc main_arg5) = m ((c : Thread nD τ).loc main_arg5) :=
  W10_kept m ρ c main_arg5 (by decide) (by decide) (W2_of_ne m ρ c main_arg5 (by decide))

def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W10 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by

    refine BI.Entails.trans (?_ : _ ⊢ (Pipeline.ΦA spec0 c : sProp 𝕄)) (hin0 (V1 m ρ) c)
    unfold Pipeline.ΦA
    iintro ⟨Hp, -, Hr⟩
    isplitl [Hr]; · iexact Hr
    iexact Hp
  hout c := by

    rw [Pipeline.ownSems0_none]
    refine BI.Entails.trans (hout0 (V1 m ρ) c) (?_ : (Pipeline.ΦA spec0 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by

    refine BI.Entails.trans (?_ : _ ⊢ (Pipeline.ΦA spec1 c : sProp 𝕄)) (hin1 (V3 m ρ) c)
    unfold Pipeline.ΦA
    iintro ⟨Hp, -, Hr⟩
    isplitl [Hr]; · iexact Hr
    iexact Hp
  hout c := by

    rw [Pipeline.ownSems0_none]
    refine BI.Entails.trans (hout1 (V3 m ρ) c) (?_ : (Pipeline.ΦA spec1 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .host (hseg hostOps2_1 hostOps2_1_sub hostOps2_1_fresh (W5 m ρ)),
    .host (hseg hostOps2_2 hostOps2_2_sub hostOps2_2_fresh (W6 m ρ)),
    .host (hseg hostOps2_3 hostOps2_3_sub hostOps2_3_fresh (W7 m ρ)),
    .host (hseg hostOps2_4 hostOps2_4_sub hostOps2_4_fresh (W8 m ρ)),
    .host (hseg hostOps2_5 hostOps2_5_sub hostOps2_5_fresh (W9 m ρ)) ]

theorem segs_prog : (segs m ρ).map Seg.prog = [
    StableHlo.seq hostOps0,
    Prog.lift (.customCall (Pipeline.entry 0) ()),
    StableHlo.seq hostOps1,
    Prog.lift (.customCall (Pipeline.entry 1) ()),
    StableHlo.seq hostOps2,
    StableHlo.seq hostOps2_1,
    StableHlo.seq hostOps2_2,
    StableHlo.seq hostOps2_3,
    StableHlo.seq hostOps2_4,
    StableHlo.seq hostOps2_5 ] := rfl

theorem main_run (c : Dev nD) : main (F := F) c = Pipeline.Seg.run (segs m ρ) := by
  rw [main_chain c, Seg.run_eq_chain, segs_prog]

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (W10 m ρ c)
            ∗ (∃ r, prngReg c r) ∗ ∃ W, owes (c : Thread nD τ) (0 : CellTallies nD τ sig Unit) W)
          ⊢ (iprop((StableHlo.held (c : Thread nD τ) (Pipeline.ucRefs τ sig) (W10 m ρ c) ∗ ∃ r, prngReg c r)
            ∗ ∃ W, owes (c : Thread nD τ) (0 : CellTallies nD τ sig Unit) W) : sProp 𝕄)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  OrdCont.mono (θ_run defs (onTc (τ := τ) (main (F := F))) ⟨m, fun _ => 0, ρ⟩) (fun r h c =>
    ⟨(h c _ (mem_uc main_arg0 (by decide))).trans (W10_main_arg0 m ρ c),
     (h c _ (mem_uc main_arg1 (by decide))).trans (W10_main_arg1 m ρ c),
     (h c _ (mem_uc main_arg2 (by decide))).trans (W10_main_arg2 m ρ c),
     (h c _ (mem_uc main_arg3 (by decide))).trans (W10_main_arg3 m ρ c),
     (h c _ (mem_uc main_arg4 (by decide))).trans (W10_main_arg4 m ρ c),
     (h c _ (mem_uc main_arg5 (by decide))).trans (W10_main_arg5 m ρ c)⟩) (run_all m ρ)

end Cert.Kernel.Hand

end
-- ==== Proof.KI.R0Base.lean ====
import proofs.«403249_j11562051960853_3_alg».proof.Proof.Gen.KernelIdeal.Launch
import proofs.«403249_j11562051960853_3_alg».proof.Proof.Gen.KernelIdeal.Skeleton
import proofs.«403249_j11562051960853_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 5 = 0 :=
  (by decide +kernel : ∀ t : Fin grid0.N, cond0_0 (grid0.coords t) ↔ t.val % 5 = 0)

abbrev cond0_1 (i : grid0.Coords) : Prop := k0_cond2 i = 1#1

theorem hcond0_1 : ∀ t : Fin cfg0.N, cond0_1 (grid0.coords t) ↔ t.val % 5 = 4 :=
  (by decide +kernel : ∀ t : Fin grid0.N, cond0_1 (grid0.coords t) ↔ t.val % 5 = 4)

theorem liveAt0_0 : ∀ t : Fin cfg0.N, cfg0.idle 0 (grid0.coords t) = false := by decide +kernel

theorem liveAt0_1 : ∀ t : Fin cfg0.N, cfg0.idle 1 (grid0.coords t) = false := by decide +kernel

theorem liveAt0_2 : ∀ t : Fin cfg0.N, cfg0.idle 2 (grid0.coords t) = false := by decide +kernel

theorem liveAt0_3 : ∀ t : Fin cfg0.N, cfg0.idle 3 (grid0.coords t) = false := by decide +kernel

theorem liveAt0_4 : ∀ t : Fin cfg0.N, cfg0.idle 4 (grid0.coords t) = false := by decide +kernel

theorem idleAt0_5_A : ∀ t : Fin cfg0.N, cond0_0 (grid0.coords t) → ¬cond0_1 (grid0.coords t) → cfg0.idle 5 (grid0.coords t) = true := by decide +kernel

theorem noFlush0_5_A : ∀ t : Fin cfg0.N, cond0_0 (grid0.coords t) → ¬cond0_1 (grid0.coords t) → (cfg0.win 5).flush t = false := by decide +kernel

theorem idleAt0_5_B : ∀ t : Fin cfg0.N, ¬cond0_0 (grid0.coords t) → ¬cond0_1 (grid0.coords t) → cfg0.idle 5 (grid0.coords t) = true := by decide +kernel

theorem noFlush0_5_B : ∀ t : Fin cfg0.N, ¬cond0_0 (grid0.coords t) → ¬cond0_1 (grid0.coords t) → (cfg0.win 5).flush t = false := by decide +kernel

theorem liveAt0_5_C : ∀ t : Fin cfg0.N, ¬cond0_0 (grid0.coords t) → cond0_1 (grid0.coords t) → cfg0.idle 5 (grid0.coords t) = false := by decide +kernel

theorem idleAt0_6_A : ∀ t : Fin cfg0.N, cond0_0 (grid0.coords t) → ¬cond0_1 (grid0.coords t) → cfg0.idle 6 (grid0.coords t) = true := by decide +kernel

theorem noFlush0_6_A : ∀ t : Fin cfg0.N, cond0_0 (grid0.coords t) → ¬cond0_1 (grid0.coords t) → (cfg0.win 6).flush t = false := by decide +kernel

theorem idleAt0_6_B : ∀ t : Fin cfg0.N, ¬cond0_0 (grid0.coords t) → ¬cond0_1 (grid0.coords t) → cfg0.idle 6 (grid0.coords t) = true := by decide +kernel

theorem noFlush0_6_B : ∀ t : Fin cfg0.N, ¬cond0_0 (grid0.coords t) → ¬cond0_1 (grid0.coords t) → (cfg0.win 6).flush t = false := by decide +kernel

theorem liveAt0_6_C : ∀ t : Fin cfg0.N, ¬cond0_0 (grid0.coords t) → cond0_1 (grid0.coords t) → cfg0.idle 6 (grid0.coords t) = false := by decide +kernel

abbrev VO0_3 : View sig .tc .vmem S10000x64 .f32 := (Memref.whole cc0_stg3_0 : Memref sig .tc .vmem S10000x64 .f32).view

abbrev VO0_4 : View sig .tc .vmem S10000x64 .bf16 := (Memref.whole cc0_stg4_0 : Memref sig .tc .vmem S10000x64 .bf16).view

abbrev VO0_5 : View sig .tc .vmem S1x1x64 .f32 := (Memref.whole cc0_stg5_0 : Memref sig .tc .vmem S1x1x64 .f32).view

abbrev VO0_6 : View sig .tc .vmem S1x64x128 .f32 := (Memref.whole cc0_stg6_0 : Memref sig .tc .vmem S1x64x128 .f32).view

abbrev ms0_0 (t : Fin cfg0.N) : Memref sig .tc .vmem S10000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S10000x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S10000x64 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x64x128 .f32 := win0_6.stage (cfg0.slots t 6)
abbrev hs0_6 (t : Fin cfg0.N) : (ms0_6 t).IsWhole := hstage0_6 ((cfg0.slots t 6).cast nbuf0_6)

abbrev scM0_0 : Memref sig .tc .vmem S1x64 .f32 := Memref.whole cc0_scratch0
abbrev scM0_1 : Memref sig .tc .vmem S64x128 .f32 := Memref.whole cc0_scratch1

abbrev VS0_0 : View sig .tc .vmem S1x64 .f32 := scM0_0.view
abbrev VS0_1 : View sig .tc .vmem S64x128 .f32 := scM0_1.view

def otherScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ otherScoped0 c) ∗ (∃ r, prngReg c r)) := by
  unfold Pipeline.ΦA; rw [scopedRest0_eq]; simp only [scM0_0, scM0_1, owns_whole]; unfold otherScoped0; try rfl

end Cert.KernelIdeal.Hand

end
-- ==== Proof.KI.R0RunA.lean ====
import proofs.«403249_j11562051960853_3_alg».proof.Proof.KI.R0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in

noncomputable def kernelRun0_A (c : Dev nD) (i : grid0.Coords) (arg2 : Memref sig .tc .vmem S10000x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x64x128 .f32) (harg8 : arg8.IsWhole) (arg9 : Memref sig .tc .vmem S1x64 .f32) (harg9 : arg9.IsWhole) (arg10 : Memref sig .tc .vmem S64x128 .f32) (harg10 : arg10.IsWhole) (hc0 : cond0_0 i) (hc1 : ¬cond0_1 i)
    (x0 : Vec F S10000x128 .f32) (x1 : Vec F S64x128 .f32) (x2 : Vec F S1x64 .f32) :
    Σ' (L3 : List (View.Piece (Elt F) S10000x64 .f32)) (L4 : List (View.Piece (Elt F) S10000x64 .bf16)) (L5 : List (View.Piece (Elt F) S1x1x64 .f32)) (L6 : List (View.Piece (Elt F) S1x64x128 .f32)) (LS0 : List (View.Piece (Elt F) S1x64 .f32)), { LS1 : List (View.Piece (Elt F) S64x128 .f32) //
      ∀ (xi5 : Vec F S1x1x64 .f32) (xi6 : Vec F S1x64x128 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xi5 ∗ owns (c : Thread nD τ) arg8 fullShare xi6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__assign_kernel i arg2 harg2 arg3 harg3 arg4 harg4 arg5 harg5 arg6 harg6 arg7 harg7 arg8 harg8 arg9 harg9 arg10 harg10) K } := by
  refine ⟨?_, ?_, [], [], ?_, ?_, fun xi5 xi6 E K => ?run⟩
  case run =>
    simp only [cc0__assign_kernel_eq_skeleton]; unfold cc0__assign_kernel_skel
    unfold owns
    iintro ⟨⟨%f0, %hf0, H0⟩, ⟨%f1, %hf1, H1⟩, ⟨%f2, %hf2, H2⟩, ⟨%d3, %f3, -, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.KernelIdeal.Hand

end
-- ==== Proof.KI.R0RunB.lean ====
import proofs.«403249_j11562051960853_3_alg».proof.Proof.KI.R0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in

noncomputable def kernelRun0_B (c : Dev nD) (i : grid0.Coords) (arg2 : Memref sig .tc .vmem S10000x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x64x128 .f32) (harg8 : arg8.IsWhole) (arg9 : Memref sig .tc .vmem S1x64 .f32) (harg9 : arg9.IsWhole) (arg10 : Memref sig .tc .vmem S64x128 .f32) (harg10 : arg10.IsWhole) (hc0 : ¬cond0_0 i) (hc1 : ¬cond0_1 i)
    (x0 : Vec F S10000x128 .f32) (x1 : Vec F S64x128 .f32) (x2 : Vec F S1x64 .f32) (xs0 : Vec F S1x64 .f32) (xs1 : Vec F S64x128 .f32) :
    Σ' (L3 : List (View.Piece (Elt F) S10000x64 .f32)) (L4 : List (View.Piece (Elt F) S10000x64 .bf16)) (L5 : List (View.Piece (Elt F) S1x1x64 .f32)) (L6 : List (View.Piece (Elt F) S1x64x128 .f32)) (LS0 : List (View.Piece (Elt F) S1x64 .f32)), { LS1 : List (View.Piece (Elt F) S64x128 .f32) //
      ∀ (xi5 : Vec F S1x1x64 .f32) (xi6 : Vec F S1x64x128 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xi5 ∗ owns (c : Thread nD τ) arg8 fullShare xi6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__assign_kernel i arg2 harg2 arg3 harg3 arg4 harg4 arg5 harg5 arg6 harg6 arg7 harg7 arg8 harg8 arg9 harg9 arg10 harg10) K } := by
  refine ⟨?_, ?_, [], [], ?_, ?_, fun xi5 xi6 E K => ?run⟩
  case run =>
    simp only [cc0__assign_kernel_eq_skeleton]; unfold cc0__assign_kernel_skel
    unfold owns
    iintro ⟨⟨%f0, %hf0, H0⟩, ⟨%f1, %hf1, H1⟩, ⟨%f2, %hf2, H2⟩, ⟨%d3, %f3, -, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg7.eq_unread hf5; obtain rfl := harg8.eq_unread hf6; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.KernelIdeal.Hand

end
-- ==== Proof.KI.R0RunC.lean ====
import proofs.«403249_j11562051960853_3_alg».proof.Proof.KI.R0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in

noncomputable def kernelRun0_C (c : Dev nD) (i : grid0.Coords) (arg2 : Memref sig .tc .vmem S10000x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x64x128 .f32) (harg8 : arg8.IsWhole) (arg9 : Memref sig .tc .vmem S1x64 .f32) (harg9 : arg9.IsWhole) (arg10 : Memref sig .tc .vmem S64x128 .f32) (harg10 : arg10.IsWhole) (hc0 : ¬cond0_0 i) (hc1 : cond0_1 i)
    (x0 : Vec F S10000x128 .f32) (x1 : Vec F S64x128 .f32) (x2 : Vec F S1x64 .f32) (xs0 : Vec F S1x64 .f32) (xs1 : Vec F S64x128 .f32) :
    Σ' (L3 : List (View.Piece (Elt F) S10000x64 .f32)) (L4 : List (View.Piece (Elt F) S10000x64 .bf16)) (L5 : List (View.Piece (Elt F) S1x1x64 .f32)) (L6 : List (View.Piece (Elt F) S1x64x128 .f32)) (LS0 : List (View.Piece (Elt F) S1x64 .f32)), { LS1 : List (View.Piece (Elt F) S64x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__assign_kernel i arg2 harg2 arg3 harg3 arg4 harg4 arg5 harg5 arg6 harg6 arg7 harg7 arg8 harg8 arg9 harg9 arg10 harg10) K } := by
  refine ⟨?_, ?_, ?_, ?_, ?_, ?_, fun E K => ?run⟩
  case run =>
    simp only [cc0__assign_kernel_eq_skeleton]; unfold cc0__assign_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [H6]; · iexists _; iexact H6
    isplitl [HS0]; · iexists _; iexact HS0
    iexists _; iexact HS1

end Cert.KernelIdeal.Hand

end
-- ==== Proof.KI.R0.lean ====
import proofs.«403249_j11562051960853_3_alg».proof.Proof.KI.R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid0.Coords) (arg2 : Memref sig .tc .vmem S10000x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x64x128 .f32) (harg8 : arg8.IsWhole) (arg9 : Memref sig .tc .vmem S1x64 .f32) (harg9 : arg9.IsWhole) (arg10 : Memref sig .tc .vmem S64x128 .f32) (harg10 : arg10.IsWhole)

section
variable (hc0 : cond0_0 i) (hc1 : ¬cond0_1 i) (x0 : Vec F S10000x128 .f32) (x1 : Vec F S64x128 .f32) (x2 : Vec F S1x64 .f32)

theorem cover0_A_3 (y : S10000x64.Idx) :
    ∃ pc ∈ (kernelRun0_A c i arg2 harg2 arg3 harg3 arg4 harg4 arg5 harg5 arg6 harg6 arg7 harg7 arg8 harg8 arg9 harg9 arg10 harg10 hc0 hc1 x0 x1 x2).1, y ∈ pc.1.set :=
  View.cover_of_tiledL _ S10000x64.size (by sl_kernel_rfl) y

theorem cover0_A_4 (y : S10000x64.Idx) :
    ∃ pc ∈ (kernelRun0_A c i arg2 harg2 arg3 harg3 arg4 harg4 arg5 harg5 arg6 harg6 arg7 harg7 arg8 harg8 arg9 harg9 arg10 harg10 hc0 hc1 x0 x1 x2).2.1, y ∈ pc.1.set :=
  View.cover_of_tiledL _ S10000x64.size (by sl_kernel_rfl) y

theorem scover0_A_0 (y : S1x64.Idx) :
    ∃ pc ∈ (kernelRun0_A c i arg2 harg2 arg3 harg3 arg4 harg4 arg5 harg5 arg6 harg6 arg7 harg7 arg8 harg8 arg9 harg9 arg10 harg10 hc0 hc1 x0 x1 x2).2.2.2.2.1, y ∈ pc.1.set :=
  View.cover_of_tiledL _ S1x64.size (by sl_kernel_rfl) y

theorem scover0_A_1 (y : S64x128.Idx) :
    ∃ pc ∈ (kernelRun0_A c i arg2 harg2 arg3 harg3 arg4 harg4 arg5 harg5 arg6 harg6 arg7 harg7 arg8 harg8 arg9 harg9 arg10 harg10 hc0 hc1 x0 x1 x2).2.2.2.2.2.1, y ∈ pc.1.set :=
  View.cover_of_tiledL _ S64x128.size (by sl_kernel_rfl) y

end

section
variable (hc0 : ¬cond0_0 i) (hc1 : ¬cond0_1 i) (x0 : Vec F S10000x128 .f32) (x1 : Vec F S64x128 .f32) (x2 : Vec F S1x64 .f32) (xs0 : Vec F S1x64 .f32) (xs1 : Vec F S64x128 .f32)

theorem cover0_B_3 (y : S10000x64.Idx) :
    ∃ pc ∈ (kernelRun0_B c i arg2 harg2 arg3 harg3 arg4 harg4 arg5 harg5 arg6 harg6 arg7 harg7 arg8 harg8 arg9 harg9 arg10 harg10 hc0 hc1 x0 x1 x2 xs0 xs1).1, y ∈ pc.1.set :=
  View.cover_of_tiledL _ S10000x64.size (by sl_kernel_rfl) y

theorem cover0_B_4 (y : S10000x64.Idx) :
    ∃ pc ∈ (kernelRun0_B c i arg2 harg2 arg3 harg3 arg4 harg4 arg5 harg5 arg6 harg6 arg7 harg7 arg8 harg8 arg9 harg9 arg10 harg10 hc0 hc1 x0 x1 x2 xs0 xs1).2.1, y ∈ pc.1.set :=
  View.cover_of_tiledL _ S10000x64.size (by sl_kernel_rfl) y

theorem scover0_B_0 (y : S1x64.Idx) :
    ∃ pc ∈ (kernelRun0_B c i arg2 harg2 arg3 harg3 arg4 harg4 arg5 harg5 arg6 harg6 arg7 harg7 arg8 harg8 arg9 harg9 arg10 harg10 hc0 hc1 x0 x1 x2 xs0 xs1).2.2.2.2.1, y ∈ pc.1.set :=
  View.cover_of_tiledL _ S1x64.size (by sl_kernel_rfl) y

theorem scover0_B_1 (y : S64x128.Idx) :
    ∃ pc ∈ (kernelRun0_B c i arg2 harg2 arg3 harg3 arg4 harg4 arg5 harg5 arg6 harg6 arg7 harg7 arg8 harg8 arg9 harg9 arg10 harg10 hc0 hc1 x0 x1 x2 xs0 xs1).2.2.2.2.2.1, y ∈ pc.1.set :=
  View.cover_of_tiledL _ S64x128.size (by sl_kernel_rfl) y

end

section
variable (hc0 : ¬cond0_0 i) (hc1 : cond0_1 i) (x0 : Vec F S10000x128 .f32) (x1 : Vec F S64x128 .f32) (x2 : Vec F S1x64 .f32) (xs0 : Vec F S1x64 .f32) (xs1 : Vec F S64x128 .f32)

theorem cover0_C_3 (y : S10000x64.Idx) :
    ∃ pc ∈ (kernelRun0_C c i arg2 harg2 arg3 harg3 arg4 harg4 arg5 harg5 arg6 harg6 arg7 harg7 arg8 harg8 arg9 harg9 arg10 harg10 hc0 hc1 x0 x1 x2 xs0 xs1).1, y ∈ pc.1.set :=
  View.cover_of_tiledL _ S10000x64.size (by sl_kernel_rfl) y

theorem cover0_C_4 (y : S10000x64.Idx) :
    ∃ pc ∈ (kernelRun0_C c i arg2 harg2 arg3 harg3 arg4 harg4 arg5 harg5 arg6 harg6 arg7 harg7 arg8 harg8 arg9 harg9 arg10 harg10 hc0 hc1 x0 x1 x2 xs0 xs1).2.1, y ∈ pc.1.set :=
  View.cover_of_tiledL _ S10000x64.size (by sl_kernel_rfl) y

theorem cover0_C_5 (y : S1x1x64.Idx) :
    ∃ pc ∈ (kernelRun0_C c i arg2 harg2 arg3 harg3 arg4 harg4 arg5 harg5 arg6 harg6 arg7 harg7 arg8 harg8 arg9 harg9 arg10 harg10 hc0 hc1 x0 x1 x2 xs0 xs1).2.2.1, y ∈ pc.1.set :=
  View.cover_of_tiledL _ S1x1x64.size (by sl_kernel_rfl) y

theorem cover0_C_6 (y : S1x64x128.Idx) :
    ∃ pc ∈ (kernelRun0_C c i arg2 harg2 arg3 harg3 arg4 harg4 arg5 harg5 arg6 harg6 arg7 harg7 arg8 harg8 arg9 harg9 arg10 harg10 hc0 hc1 x0 x1 x2 xs0 xs1).2.2.2.1, y ∈ pc.1.set :=
  View.cover_of_tiledL _ S1x64x128.size (by sl_kernel_rfl) y

theorem scover0_C_0 (y : S1x64.Idx) :
    ∃ pc ∈ (kernelRun0_C c i arg2 harg2 arg3 harg3 arg4 harg4 arg5 harg5 arg6 harg6 arg7 harg7 arg8 harg8 arg9 harg9 arg10 harg10 hc0 hc1 x0 x1 x2 xs0 xs1).2.2.2.2.1, y ∈ pc.1.set :=
  View.cover_of_tiledL _ S1x64.size (by sl_kernel_rfl) y

theorem scover0_C_1 (y : S64x128.Idx) :
    ∃ pc ∈ (kernelRun0_C c i arg2 harg2 arg3 harg3 arg4 harg4 arg5 harg5 arg6 harg6 arg7 harg7 arg8 harg8 arg9 harg9 arg10 harg10 hc0 hc1 x0 x1 x2 xs0 xs1).2.2.2.2.2.1, y ∈ pc.1.set :=
  View.cover_of_tiledL _ S64x128.size (by sl_kernel_rfl) y

end

end

abbrev Outs0 : Type := Vec F S10000x64 .f32 × Vec F S10000x64 .bf16 × Vec F S1x1x64 .f32 × Vec F S1x64x128 .f32 × Vec F S1x64 .f32 × Vec F S64x128 .f32

-- The outputs' and the running sums' buffers read back over the pieces a run of the body wrote.
def readBack0 (L0 : List (View.Piece (Elt F) S10000x64 .f32)) (L1 : List (View.Piece (Elt F) S10000x64 .bf16)) (L2 : List (View.Piece (Elt F) S1x1x64 .f32)) (L3 : List (View.Piece (Elt F) S1x64x128 .f32)) (L4 : List (View.Piece (Elt F) S1x64 .f32)) (L5 : List (View.Piece (Elt F) S64x128 .f32)) : Outs0 (F := F) :=
  (VO0_3.read (Elt F) (VO0_3.writes (Elt F) VO0_3.junk L0),
    VO0_4.read (Elt F) (VO0_4.writes (Elt F) VO0_4.junk L1),
    VO0_5.read (Elt F) (VO0_5.writes (Elt F) VO0_5.junk L2),
    VO0_6.read (Elt F) (VO0_6.writes (Elt F) VO0_6.junk L3),
    VS0_0.read (Elt F) (VS0_0.writes (Elt F) VS0_0.junk L4),
    VS0_1.read (Elt F) (VS0_1.writes (Elt F) VS0_1.junk L5))

-- The first block of a core's sweep: the two running sums are reset, nothing is copied out.
def caseA0 (c : Dev nD) (t : Fin cfg0.N) (h0 : t.val % 5 = 0) (h1 : ¬t.val % 5 = 4) : Outs0 (F := F) :=
  let r := kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t)
  readBack0 r.1 r.2.1 r.2.2.1 r.2.2.2.1 r.2.2.2.2.1 r.2.2.2.2.2.1

-- A middle block: the running sums s0, s1 left by the block before are added to.
def caseB0 (c : Dev nD) (t : Fin cfg0.N) (h0 : ¬t.val % 5 = 0) (h1 : ¬t.val % 5 = 4) (s0 : Vec F S1x64 .f32) (s1 : Vec F S64x128 .f32) : Outs0 (F := F) :=
  let r := kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) s0 s1
  readBack0 r.1 r.2.1 r.2.2.1 r.2.2.2.1 r.2.2.2.2.1 r.2.2.2.2.2.1

-- The last block of a sweep: as a middle block, then the sums are copied to their outputs.
def caseC0 (c : Dev nD) (t : Fin cfg0.N) (h0 : ¬t.val % 5 = 0) (h1 : t.val % 5 = 4) (s0 : Vec F S1x64 .f32) (s1 : Vec F S64x128 .f32) : Outs0 (F := F) :=
  let r := kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) s0 s1
  readBack0 r.1 r.2.1 r.2.2.1 r.2.2.2.1 r.2.2.2.2.1 r.2.2.2.2.2.1

-- What every output and running sum holds after block n, by recursion on n (a sweep is 5 blocks).
def outsAt0 (c : Dev nD) : (n : ℕ) → n < cfg0.N → Outs0 (F := F)
  | 0, hn => caseA0 V c ⟨0, hn⟩ (Nat.zero_mod _) (by show ¬(0 : ℕ) % 5 = 4; decide)
  | n + 1, hn =>
    if h0 : (n + 1) % 5 = 0 then
      if h1 : (n + 1) % 5 = 4 then False.elim (by omega)
      else caseA0 V c ⟨n + 1, hn⟩ h0 h1
    else
      if h1 : (n + 1) % 5 = 4 then caseC0 V c ⟨n + 1, hn⟩ h0 h1 (outsAt0 c n (Nat.lt_of_succ_lt hn)).2.2.2.2.1 (outsAt0 c n (Nat.lt_of_succ_lt hn)).2.2.2.2.2
      else caseB0 V c ⟨n + 1, hn⟩ h0 h1 (outsAt0 c n (Nat.lt_of_succ_lt hn)).2.2.2.2.1 (outsAt0 c n (Nat.lt_of_succ_lt hn)).2.2.2.2.2

theorem outsAt0_A (c : Dev nD) (t : Fin cfg0.N) (h0 : t.val % 5 = 0) (h1 : ¬t.val % 5 = 4) :
    outsAt0 V c t.val t.isLt = caseA0 V c t h0 h1 := by
  obtain ⟨n, hn⟩ := t
  cases n with
  | zero => exact rfl
  | succ n => exact (dif_pos h0).trans ((dif_neg h1).trans rfl)

theorem outsAt0_B (c : Dev nD) (t : Fin cfg0.N) (h0 : ¬t.val % 5 = 0) (h1 : ¬t.val % 5 = 4) :
    outsAt0 V c t.val t.isLt = caseB0 V c t h0 h1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 5 = 0) (h1 : t.val % 5 = 4) :
    outsAt0 V c t.val t.isLt = caseC0 V c t h0 h1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2 := by
  obtain ⟨n, hn⟩ := t
  cases n with
  | zero => exact (by exfalso; (try dsimp only at h0); exact absurd (Nat.zero_mod _) h0)
  | succ n => exact (dif_neg h0).trans ((dif_pos h1).trans rfl)

def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2.2.2.1) ∗ owns (c : Thread nD τ) scM0_1 fullShare ((outsAt0 V c n hn).2.2.2.2.2) ∗ otherScoped0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2.2.2.2.1) ∗ owns (c : Thread nD τ) scM0_1 fullShare ((outsAt0 V c n hn).2.2.2.2.2) ∗ otherScoped0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2.2.2.1) ∗ owns (c : Thread nD τ) scM0_1 fullShare ((outsAt0 V c (n - 1) (by omega)).2.2.2.2.2) ∗ otherScoped0 c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
    | ⟨5, _⟩ => (outsAt0 V c t.val t.isLt).2.2.1
    | ⟨6, _⟩ => (outsAt0 V c t.val t.isLt).2.2.2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]
theorem after0_5 (c : Dev nD) (t : Fin cfg0.N) : (dat0 V c).after 5 t = (outsAt0 V c t.val t.isLt).2.2.1 := by dsimp only [dat0]
theorem after0_6 (c : Dev nD) (t : Fin cfg0.N) : (dat0 V c).after 6 t = (outsAt0 V c t.val t.isLt).2.2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

-- At any block the invariant yields the running sums at SOME contents: all that a resetting block needs.
theorem Phi_loose0 (c : Dev nD) (t : Fin (cfg0.N + 1)) : (dat0 V c).Φ t ⊢ Pipeline.ΦA spec0 c := by
  by_cases ht : t.val = 0
  · rw [show (dat0 V c).Φ t = PhiS0 V c t.val (Nat.le_of_lt_succ t.isLt) from rfl, PhiS0_zero V c _ _ ht]
  · exact Phi_out0 V c t ht

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

-- One block's body meets its obligation, by the three cases of its two conditionals.
set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 10 := lt_of_lt_of_eq t.isLt (show cfg0.N = 10 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  by_cases h0 : t.val % 5 = 0
  · by_cases h1 : t.val % 5 = 4
    · exfalso; omega
    · rw [Dat.leavesExact_idle (dat0 V c) 5 t (idleAt0_5_A t ((hcond0_0 t).mpr h0) (fun h => h1 ((hcond0_1 t).mp h))) (noFlush0_5_A t ((hcond0_0 t).mpr h0) (fun h => h1 ((hcond0_1 t).mp h)))]
      rw [Dat.leavesExact_idle (dat0 V c) 6 t (idleAt0_6_A t ((hcond0_0 t).mpr h0) (fun h => h1 ((hcond0_1 t).mp h))) (noFlush0_6_A t ((hcond0_0 t).mpr h0) (fun h => h1 ((hcond0_1 t).mp h)))]
      rw [outsAt0_A V c t h0 h1]
      unfold caseA0 readBack0; (try dsimp only)
      refine (sep_mono_left (Phi_loose0 V c t.castSucc)).trans ?_
      rw [PhiA0_eq]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t)).2.2.2.2.2.2 _ _ Set.univ _)
      isplitl [H0]; · iexact H0
      isplitl [H1]; · iexact H1
      isplitl [H2]; · iexact H2
      isplitl [H3]; · iexists _; iexact H3
      isplitl [H4]; · iexists _; iexact H4
      isplitl [H5]; · iexact H5
      isplitl [H6]; · iexact H6
      isplitl [HS0]; · iexact HS0
      isplitl [HS1]; · iexact HS1
      iintro ⟨H0, H1, H2, ⟨%e3, H3⟩, ⟨%e4, H4⟩, H5, H6, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_A_3 c _ _ _ _ _ _ _ _ _ _ _ _ _ _ _ _ _ _ _ _ _ _ _ _)
      isplitl [H4]
      · unfold owns; iexists _; isplitr
        swap; · iexact H4
        ipureintro; exact View.read_writes_of_cover _ _ _ _ _ (cover0_A_4 c _ _ _ _ _ _ _ _ _ _ _ _ _ _ _ _ _ _ _ _ _ _ _ _)
      isplitl [H5]; · iexists _; iexact H5
      iexists _; iexact H6
  · by_cases h1 : t.val % 5 = 4
    · rw [show (dat0 V c).leavesExact 5 t = owns (c : Thread nD τ) (ms0_5 t) fullShare ((dat0 V c).after 5 t) from by
        unfold Dat.leavesExact; rw [liveAt0_5_C t (fun h => h0 ((hcond0_0 t).mp h)) ((hcond0_1 t).mpr h1)], after0_5]
      rw [show (dat0 V c).leavesExact 6 t = owns (c : Thread nD τ) (ms0_6 t) fullShare ((dat0 V c).after 6 t) from by
        unfold Dat.leavesExact; rw [liveAt0_6_C t (fun h => h0 ((hcond0_0 t).mp h)) ((hcond0_1 t).mpr h1)], after0_6]
      rw [outsAt0_C V c t h0 h1]
      unfold caseC0 readBack0; (try dsimp only)
      by_cases hz : t.val = 0
      · exfalso; omega
      · rw [PhiS0_castSucc V c t, PhiS0_pos V c _ _ hz]
        iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_C c (grid0.coords t) _ _ _ _ _ _ _ _ _ _ _ _ _ _ _ _ _ _ (fun h => h0 ((hcond0_0 t).mp h)) ((hcond0_1 t).mpr h1) (iblk0 V c 0 t) (iblk0 V c 1 t) (iblk0 V c 2 t) _ _).2.2.2.2.2.2 Set.univ _)
        isplitl [H0]; · iexact H0
        isplitl [H1]; · iexact H1
        isplitl [H2]; · iexact H2
        isplitl [H3]; · iexists _; iexact H3
        isplitl [H4]; · iexists _; iexact H4
        isplitl [H5]; · iexists _; iexact H5
        isplitl [H6]; · iexists _; iexact H6
        isplitl [HS0]; · iexact HS0
        isplitl [HS1]; · iexact HS1
        iintro ⟨H0, H1, H2, ⟨%e3, H3⟩, ⟨%e4, H4⟩, ⟨%e5, H5⟩, ⟨%e6, H6⟩, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_C_3 c _ _ _ _ _ _ _ _ _ _ _ _ _ _ _ _ _ _ _ _ _ _ _ _ _ _)
        isplitl [H4]
        · unfold owns; iexists _; isplitr
          swap; · iexact H4
          ipureintro; exact View.read_writes_of_cover _ _ _ _ _ (cover0_C_4 c _ _ _ _ _ _ _ _ _ _ _ _ _ _ _ _ _ _ _ _ _ _ _ _ _ _)
        isplitl [H5]
        · unfold owns; iexists _; isplitr
          swap; · iexact H5
          ipureintro; exact View.read_writes_of_cover _ _ _ _ _ (cover0_C_5 c _ _ _ _ _ _ _ _ _ _ _ _ _ _ _ _ _ _ _ _ _ _ _ _ _ _)
        unfold owns; iexists _; isplitr
        swap; · iexact H6
        ipureintro; exact View.read_writes_of_cover _ _ _ _ _ (cover0_C_6 c _ _ _ _ _ _ _ _ _ _ _ _ _ _ _ _ _ _ _ _ _ _ _ _ _ _)

    · rw [Dat.leavesExact_idle (dat0 V c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [Dat.leavesExact_idle (dat0 V c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [outsAt0_B V c t h0 h1]
      unfold caseB0 readBack0; (try dsimp only)
      by_cases hz : t.val = 0
      · exfalso; omega
      · rw [PhiS0_castSucc V c t, PhiS0_pos V c _ _ hz]
        iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_B c (grid0.coords t) _ _ _ _ _ _ _ _ _ _ _ _ _ _ _ _ _ _ (fun h => h0 ((hcond0_0 t).mp h)) (fun h => h1 ((hcond0_1 t).mp h)) (iblk0 V c 0 t) (iblk0 V c 1 t) (iblk0 V c 2 t) _ _).2.2.2.2.2.2 _ _ Set.univ _)
        isplitl [H0]; · iexact H0
        isplitl [H1]; · iexact H1
        isplitl [H2]; · iexact H2
        isplitl [H3]; · iexists _; iexact H3
        isplitl [H4]; · iexists _; iexact H4
        isplitl [H5]; · iexact H5
        isplitl [H6]; · iexact H6
        isplitl [HS0]; · iexact HS0
        isplitl [HS1]; · iexact HS1
        iintro ⟨H0, H1, H2, ⟨%e3, H3⟩, ⟨%e4, H4⟩, H5, H6, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_B_3 c _ _ _ _ _ _ _ _ _ _ _ _ _ _ _ _ _ _ _ _ _ _ _ _ _ _)
        isplitl [H4]
        · unfold owns; iexists _; isplitr
          swap; · iexact H4
          ipureintro; exact View.read_writes_of_cover _ _ _ _ _ (cover0_B_4 c _ _ _ _ _ _ _ _ _ _ _ _ _ _ _ _ _ _ _ _ _ _ _ _ _ _)
        isplitl [H5]; · iexists _; iexact H5
        iexists _; iexact H6

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem hout0 (c : Dev nD) : (dat0 V c).Φ (Fin.last cfg0.N) ⊢ Pipeline.ΦA spec0 c :=
  Phi_out0 V c _ (by rw [Fin.val_last]; have : cfg0.N = 10 := N_0; omega)

end Cert.KernelIdeal.Hand

end
-- ==== Proof.KI.R1Base.lean ====
import proofs.«403249_j11562051960853_3_alg».proof.Proof.Gen.KernelIdeal.Launch
import proofs.«403249_j11562051960853_3_alg».proof.Proof.Gen.KernelIdeal.Skeleton
import proofs.«403249_j11562051960853_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Regions

abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 50 = 0 :=
  (by decide +kernel : ∀ t : Fin grid1.N, cond1_0 (grid1.coords t) ↔ t.val % 50 = 0)

abbrev cond1_1 (i : grid1.Coords) : Prop := k1_cond2 i = 1#1

theorem hcond1_1 : ∀ t : Fin cfg1.N, cond1_1 (grid1.coords t) ↔ t.val % 50 = 49 :=
  (by decide +kernel : ∀ t : Fin grid1.N, cond1_1 (grid1.coords t) ↔ t.val % 50 = 49)

theorem liveAt1_0 : ∀ t : Fin cfg1.N, cfg1.idle 0 (grid1.coords t) = false := by decide +kernel

theorem liveAt1_1 : ∀ t : Fin cfg1.N, cfg1.idle 1 (grid1.coords t) = false := by decide +kernel

theorem idleAt1_2_A : ∀ t : Fin cfg1.N, cond1_0 (grid1.coords t) → ¬cond1_1 (grid1.coords t) → cfg1.idle 2 (grid1.coords t) = true := by decide +kernel

theorem noFlush1_2_A : ∀ t : Fin cfg1.N, cond1_0 (grid1.coords t) → ¬cond1_1 (grid1.coords t) → (cfg1.win 2).flush t = false := by decide +kernel

theorem idleAt1_2_B : ∀ t : Fin cfg1.N, ¬cond1_0 (grid1.coords t) → ¬cond1_1 (grid1.coords t) → cfg1.idle 2 (grid1.coords t) = true := by decide +kernel

theorem noFlush1_2_B : ∀ t : Fin cfg1.N, ¬cond1_0 (grid1.coords t) → ¬cond1_1 (grid1.coords t) → (cfg1.win 2).flush t = false := by decide +kernel

theorem liveAt1_2_C : ∀ t : Fin cfg1.N, ¬cond1_0 (grid1.coords t) → cond1_1 (grid1.coords t) → cfg1.idle 2 (grid1.coords t) = false := by decide +kernel

theorem idleAt1_3_A : ∀ t : Fin cfg1.N, cond1_0 (grid1.coords t) → ¬cond1_1 (grid1.coords t) → cfg1.idle 3 (grid1.coords t) = true := by decide +kernel

theorem noFlush1_3_A : ∀ t : Fin cfg1.N, cond1_0 (grid1.coords t) → ¬cond1_1 (grid1.coords t) → (cfg1.win 3).flush t = false := by decide +kernel

theorem idleAt1_3_B : ∀ t : Fin cfg1.N, ¬cond1_0 (grid1.coords t) → ¬cond1_1 (grid1.coords t) → cfg1.idle 3 (grid1.coords t) = true := by decide +kernel

theorem noFlush1_3_B : ∀ t : Fin cfg1.N, ¬cond1_0 (grid1.coords t) → ¬cond1_1 (grid1.coords t) → (cfg1.win 3).flush t = false := by decide +kernel

theorem liveAt1_3_C : ∀ t : Fin cfg1.N, ¬cond1_0 (grid1.coords t) → cond1_1 (grid1.coords t) → cfg1.idle 3 (grid1.coords t) = false := by decide +kernel

abbrev VO1_2 : View sig .tc .vmem S1x64x64 .f32 := (Memref.whole cc1_stg2_0 : Memref sig .tc .vmem S1x64x64 .f32).view
abbrev VO1_3 : View sig .tc .vmem S1x1x64 .f32 := (Memref.whole cc1_stg3_0 : Memref sig .tc .vmem S1x1x64 .f32).view

abbrev ms1_0 (t : Fin cfg1.N) : Memref sig .tc .vmem S32000x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S32000x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x64 .f32 := win1_3.stage (cfg1.slots t 3)
abbrev hs1_3 (t : Fin cfg1.N) : (ms1_3 t).IsWhole := hstage1_3 ((cfg1.slots t 3).cast nbuf1_3)

abbrev scM1_0 : Memref sig .tc .vmem S64x64 .f32 := Memref.whole cc1_scratch0
abbrev scM1_1 : Memref sig .tc .vmem S1x64 .f32 := Memref.whole cc1_scratch1

abbrev VS1_0 : View sig .tc .vmem S64x64 .f32 := scM1_0.view
abbrev VS1_1 : View sig .tc .vmem S1x64 .f32 := scM1_1.view

theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

end Cert.KernelIdeal.Hand

end
-- ==== Proof.KI.R1RunA.lean ====
import proofs.«403249_j11562051960853_3_alg».proof.Proof.KI.R1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

noncomputable def kernelRun1_A (c : Dev nD) (i : grid1.Coords) (arg2 : Memref sig .tc .vmem S32000x64 .bf16) (harg2 : arg2.IsWhole) (arg3 : Memref sig .tc .vmem S32000x64 .bf16) (harg3 : arg3.IsWhole) (arg4 : Memref sig .tc .vmem S1x64x64 .f32) (harg4 : arg4.IsWhole) (arg5 : Memref sig .tc .vmem S1x1x64 .f32) (harg5 : arg5.IsWhole) (arg6 : Memref sig .tc .vmem S64x64 .f32) (harg6 : arg6.IsWhole) (arg7 : Memref sig .tc .vmem S1x64 .f32) (harg7 : arg7.IsWhole) (hc0 : cond1_0 i) (hc1 : ¬cond1_1 i)
    (x0 : Vec F S32000x64 .bf16) (x1 : Vec F S32000x64 .bf16) :
    Σ' (L2 : List (View.Piece (Elt F) S1x64x64 .f32)) (L3 : List (View.Piece (Elt F) S1x1x64 .f32)) (LS0 : List (View.Piece (Elt F) S64x64 .f32)), { LS1 : List (View.Piece (Elt F) S1x64 .f32) //
      ∀ (xi2 : Vec F S1x64x64 .f32) (xi3 : Vec F S1x1x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__edge_pool_kernel i arg2 harg2 arg3 harg3 arg4 harg4 arg5 harg5 arg6 harg6 arg7 harg7) K } := by
  refine ⟨[], [], ?_, ?_, fun xi2 xi3 E K => ?run⟩
  case run =>
    simp only [cc1__edge_pool_kernel_eq_skeleton]; unfold cc1__edge_pool_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Hand

end
-- ==== Proof.KI.R1RunB.lean ====
import proofs.«403249_j11562051960853_3_alg».proof.Proof.KI.R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

noncomputable def kernelRun1_B (c : Dev nD) (i : grid1.Coords) (arg2 : Memref sig .tc .vmem S32000x64 .bf16) (harg2 : arg2.IsWhole) (arg3 : Memref sig .tc .vmem S32000x64 .bf16) (harg3 : arg3.IsWhole) (arg4 : Memref sig .tc .vmem S1x64x64 .f32) (harg4 : arg4.IsWhole) (arg5 : Memref sig .tc .vmem S1x1x64 .f32) (harg5 : arg5.IsWhole) (arg6 : Memref sig .tc .vmem S64x64 .f32) (harg6 : arg6.IsWhole) (arg7 : Memref sig .tc .vmem S1x64 .f32) (harg7 : arg7.IsWhole) (hc0 : ¬cond1_0 i) (hc1 : ¬cond1_1 i)
    (x0 : Vec F S32000x64 .bf16) (x1 : Vec F S32000x64 .bf16) (xs0 : Vec F S64x64 .f32) (xs1 : Vec F S1x64 .f32) :
    Σ' (L2 : List (View.Piece (Elt F) S1x64x64 .f32)) (L3 : List (View.Piece (Elt F) S1x1x64 .f32)) (LS0 : List (View.Piece (Elt F) S64x64 .f32)), { LS1 : List (View.Piece (Elt F) S1x64 .f32) //
      ∀ (xi2 : Vec F S1x64x64 .f32) (xi3 : Vec F S1x1x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__edge_pool_kernel i arg2 harg2 arg3 harg3 arg4 harg4 arg5 harg5 arg6 harg6 arg7 harg7) K } := by
  refine ⟨[], [], ?_, ?_, fun xi2 xi3 E K => ?run⟩
  case run =>
    simp only [cc1__edge_pool_kernel_eq_skeleton]; unfold cc1__edge_pool_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Hand

end
-- ==== Proof.KI.R1RunC.lean ====
import proofs.«403249_j11562051960853_3_alg».proof.Proof.KI.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

noncomputable def kernelRun1_C (c : Dev nD) (i : grid1.Coords) (arg2 : Memref sig .tc .vmem S32000x64 .bf16) (harg2 : arg2.IsWhole) (arg3 : Memref sig .tc .vmem S32000x64 .bf16) (harg3 : arg3.IsWhole) (arg4 : Memref sig .tc .vmem S1x64x64 .f32) (harg4 : arg4.IsWhole) (arg5 : Memref sig .tc .vmem S1x1x64 .f32) (harg5 : arg5.IsWhole) (arg6 : Memref sig .tc .vmem S64x64 .f32) (harg6 : arg6.IsWhole) (arg7 : Memref sig .tc .vmem S1x64 .f32) (harg7 : arg7.IsWhole) (hc0 : ¬cond1_0 i) (hc1 : cond1_1 i)
    (x0 : Vec F S32000x64 .bf16) (x1 : Vec F S32000x64 .bf16) (xs0 : Vec F S64x64 .f32) (xs1 : Vec F S1x64 .f32) :
    Σ' (L2 : List (View.Piece (Elt F) S1x64x64 .f32)) (L3 : List (View.Piece (Elt F) S1x1x64 .f32)) (LS0 : List (View.Piece (Elt F) S64x64 .f32)), { LS1 : List (View.Piece (Elt F) S1x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__edge_pool_kernel i arg2 harg2 arg3 harg3 arg4 harg4 arg5 harg5 arg6 harg6 arg7 harg7) K } := by
  refine ⟨?_, ?_, ?_, ?_, fun E K => ?run⟩
  case run =>
    simp only [cc1__edge_pool_kernel_eq_skeleton]; unfold cc1__edge_pool_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    iexists _; iexact HS1

end Cert.KernelIdeal.Hand

end
-- ==== Proof.KI.R1.lean ====
import proofs.«403249_j11562051960853_3_alg».proof.Proof.KI.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

section
variable (c : Dev nD) (i : grid1.Coords) (arg2 : Memref sig .tc .vmem S32000x64 .bf16) (harg2 : arg2.IsWhole) (arg3 : Memref sig .tc .vmem S32000x64 .bf16) (harg3 : arg3.IsWhole) (arg4 : Memref sig .tc .vmem S1x64x64 .f32) (harg4 : arg4.IsWhole) (arg5 : Memref sig .tc .vmem S1x1x64 .f32) (harg5 : arg5.IsWhole) (arg6 : Memref sig .tc .vmem S64x64 .f32) (harg6 : arg6.IsWhole) (arg7 : Memref sig .tc .vmem S1x64 .f32) (harg7 : arg7.IsWhole)

section
variable (hc0 : cond1_0 i) (hc1 : ¬cond1_1 i) (x0 : Vec F S32000x64 .bf16) (x1 : Vec F S32000x64 .bf16)

theorem scover1_A_0 (y : S64x64.Idx) :
    ∃ pc ∈ (kernelRun1_A c i arg2 harg2 arg3 harg3 arg4 harg4 arg5 harg5 arg6 harg6 arg7 harg7 hc0 hc1 x0 x1).2.2.1, y ∈ pc.1.set :=
  View.cover_of_tiledL _ S64x64.size (by sl_kernel_rfl) y

theorem scover1_A_1 (y : S1x64.Idx) :
    ∃ pc ∈ (kernelRun1_A c i arg2 harg2 arg3 harg3 arg4 harg4 arg5 harg5 arg6 harg6 arg7 harg7 hc0 hc1 x0 x1).2.2.2.1, y ∈ pc.1.set :=
  View.cover_of_tiledL _ S1x64.size (by sl_kernel_rfl) y

end

section
variable (hc0 : ¬cond1_0 i) (hc1 : ¬cond1_1 i) (x0 : Vec F S32000x64 .bf16) (x1 : Vec F S32000x64 .bf16) (xs0 : Vec F S64x64 .f32) (xs1 : Vec F S1x64 .f32)

theorem scover1_B_0 (y : S64x64.Idx) :
    ∃ pc ∈ (kernelRun1_B c i arg2 harg2 arg3 harg3 arg4 harg4 arg5 harg5 arg6 harg6 arg7 harg7 hc0 hc1 x0 x1 xs0 xs1).2.2.1, y ∈ pc.1.set :=
  View.cover_of_tiledL _ S64x64.size (by sl_kernel_rfl) y

theorem scover1_B_1 (y : S1x64.Idx) :
    ∃ pc ∈ (kernelRun1_B c i arg2 harg2 arg3 harg3 arg4 harg4 arg5 harg5 arg6 harg6 arg7 harg7 hc0 hc1 x0 x1 xs0 xs1).2.2.2.1, y ∈ pc.1.set :=
  View.cover_of_tiledL _ S1x64.size (by sl_kernel_rfl) y

end

section
variable (hc0 : ¬cond1_0 i) (hc1 : cond1_1 i) (x0 : Vec F S32000x64 .bf16) (x1 : Vec F S32000x64 .bf16) (xs0 : Vec F S64x64 .f32) (xs1 : Vec F S1x64 .f32)

theorem cover1_C_2 (y : S1x64x64.Idx) :
    ∃ pc ∈ (kernelRun1_C c i arg2 harg2 arg3 harg3 arg4 harg4 arg5 harg5 arg6 harg6 arg7 harg7 hc0 hc1 x0 x1 xs0 xs1).1, y ∈ pc.1.set :=
  View.cover_of_tiledL _ S1x64x64.size (by sl_kernel_rfl) y

theorem cover1_C_3 (y : S1x1x64.Idx) :
    ∃ pc ∈ (kernelRun1_C c i arg2 harg2 arg3 harg3 arg4 harg4 arg5 harg5 arg6 harg6 arg7 harg7 hc0 hc1 x0 x1 xs0 xs1).2.1, y ∈ pc.1.set :=
  View.cover_of_tiledL _ S1x1x64.size (by sl_kernel_rfl) y

theorem scover1_C_0 (y : S64x64.Idx) :
    ∃ pc ∈ (kernelRun1_C c i arg2 harg2 arg3 harg3 arg4 harg4 arg5 harg5 arg6 harg6 arg7 harg7 hc0 hc1 x0 x1 xs0 xs1).2.2.1, y ∈ pc.1.set :=
  View.cover_of_tiledL _ S64x64.size (by sl_kernel_rfl) y

theorem scover1_C_1 (y : S1x64.Idx) :
    ∃ pc ∈ (kernelRun1_C c i arg2 harg2 arg3 harg3 arg4 harg4 arg5 harg5 arg6 harg6 arg7 harg7 hc0 hc1 x0 x1 xs0 xs1).2.2.2.1, y ∈ pc.1.set :=
  View.cover_of_tiledL _ S1x64.size (by sl_kernel_rfl) y

end

end

abbrev Outs1 : Type := Vec F S1x64x64 .f32 × Vec F S1x1x64 .f32 × Vec F S64x64 .f32 × Vec F S1x64 .f32

-- The outputs' and the running sums' buffers read back over the pieces a run of the body wrote.
def readBack1 (L0 : List (View.Piece (Elt F) S1x64x64 .f32)) (L1 : List (View.Piece (Elt F) S1x1x64 .f32)) (L2 : List (View.Piece (Elt F) S64x64 .f32)) (L3 : List (View.Piece (Elt F) S1x64 .f32)) : Outs1 (F := F) :=
  (VO1_2.read (Elt F) (VO1_2.writes (Elt F) VO1_2.junk L0),
    VO1_3.read (Elt F) (VO1_3.writes (Elt F) VO1_3.junk L1),
    VS1_0.read (Elt F) (VS1_0.writes (Elt F) VS1_0.junk L2),
    VS1_1.read (Elt F) (VS1_1.writes (Elt F) VS1_1.junk L3))

-- The first block of a core's sweep: the two running sums are reset, nothing is copied out.
def caseA1 (c : Dev nD) (t : Fin cfg1.N) (h0 : t.val % 50 = 0) (h1 : ¬t.val % 50 = 49) : Outs1 (F := F) :=
  let r := kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t)
  readBack1 r.1 r.2.1 r.2.2.1 r.2.2.2.1

-- A middle block: the running sums s0, s1 left by the block before are added to.
def caseB1 (c : Dev nD) (t : Fin cfg1.N) (h0 : ¬t.val % 50 = 0) (h1 : ¬t.val % 50 = 49) (s0 : Vec F S64x64 .f32) (s1 : Vec F S1x64 .f32) : Outs1 (F := F) :=
  let r := kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) s0 s1
  readBack1 r.1 r.2.1 r.2.2.1 r.2.2.2.1

-- The last block of a sweep: as a middle block, then the sums are copied to their outputs.
def caseC1 (c : Dev nD) (t : Fin cfg1.N) (h0 : ¬t.val % 50 = 0) (h1 : t.val % 50 = 49) (s0 : Vec F S64x64 .f32) (s1 : Vec F S1x64 .f32) : Outs1 (F := F) :=
  let r := kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) s0 s1
  readBack1 r.1 r.2.1 r.2.2.1 r.2.2.2.1

-- What every output and running sum holds after block n, by recursion on n (a sweep is 50 blocks).
def outsAt1 (c : Dev nD) : (n : ℕ) → n < cfg1.N → Outs1 (F := F)
  | 0, hn => caseA1 V c ⟨0, hn⟩ (Nat.zero_mod _) (by show ¬(0 : ℕ) % 50 = 49; decide)
  | n + 1, hn =>
    if h0 : (n + 1) % 50 = 0 then
      if h1 : (n + 1) % 50 = 49 then False.elim (by omega)
      else caseA1 V c ⟨n + 1, hn⟩ h0 h1
    else
      if h1 : (n + 1) % 50 = 49 then caseC1 V c ⟨n + 1, hn⟩ h0 h1 (outsAt1 c n (Nat.lt_of_succ_lt hn)).2.2.1 (outsAt1 c n (Nat.lt_of_succ_lt hn)).2.2.2
      else caseB1 V c ⟨n + 1, hn⟩ h0 h1 (outsAt1 c n (Nat.lt_of_succ_lt hn)).2.2.1 (outsAt1 c n (Nat.lt_of_succ_lt hn)).2.2.2

theorem outsAt1_A (c : Dev nD) (t : Fin cfg1.N) (h0 : t.val % 50 = 0) (h1 : ¬t.val % 50 = 49) :
    outsAt1 V c t.val t.isLt = caseA1 V c t h0 h1 := by
  obtain ⟨n, hn⟩ := t
  cases n with
  | zero => exact rfl
  | succ n => exact (dif_pos h0).trans ((dif_neg h1).trans rfl)

theorem outsAt1_B (c : Dev nD) (t : Fin cfg1.N) (h0 : ¬t.val % 50 = 0) (h1 : ¬t.val % 50 = 49) :
    outsAt1 V c t.val t.isLt = caseB1 V c t h0 h1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 50 = 0) (h1 : t.val % 50 = 49) :
    outsAt1 V c t.val t.isLt = caseC1 V c t h0 h1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

def inv1 (c : Dev nD) (X0 : Vec F S64x64 .f32) (X1 : Vec F S1x64 .f32) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) scM1_0 fullShare X0 ∗ owns (c : Thread nD τ) scM1_1 fullShare X1) ∗ (∃ r, prngReg c r))

def PhiS1 (c : Dev nD) : (n : ℕ) → n ≤ cfg1.N → sProp 𝕄
  | 0, _ => Pipeline.ΦA spec1 c
  | n + 1, hn => inv1 c (outsAt1 V c n hn).2.2.1 (outsAt1 V c n hn).2.2.2

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = inv1 c (outsAt1 V c n hn).2.2.1 (outsAt1 V c n hn).2.2.2 := rfl

theorem PhiS1_pos (c : Dev nD) (n : ℕ) (h : n ≤ cfg1.N) (hz : n ≠ 0) :
    PhiS1 V c n h = inv1 c (outsAt1 V c (n - 1) (by omega)).2.2.1 (outsAt1 V c (n - 1) (by omega)).2.2.2 := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
    | ⟨3, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem after1_3 (c : Dev nD) (t : Fin cfg1.N) : (dat1 V c).after 3 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold inv1
  iintro ⟨⟨HR0, HR1, HR2, HR3, HR4, HR5, HR6, HR7, HR8, HR9, HR10, HR11, HR12, HR13, HS0, HS1⟩, Hg⟩
  isplitl [HR0 HR1 HR2 HR3 HR4 HR5 HR6 HR7 HR8 HR9 HR10 HR11 HR12 HR13 HS0 HS1]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    isplitl [HS0]; · iexists _; iexact HS0
    iexists _; iexact HS1
  iexact Hg

-- At any block the invariant yields the running sums at SOME contents: all that a resetting block needs.
theorem Phi_loose1 (c : Dev nD) (t : Fin (cfg1.N + 1)) : (dat1 V c).Φ t ⊢ Pipeline.ΦA spec1 c := by
  by_cases ht : t.val = 0
  · rw [show (dat1 V c).Φ t = PhiS1 V c t.val (Nat.le_of_lt_succ t.isLt) from rfl, PhiS1_zero V c _ _ ht]
  · exact Phi_out1 V c t ht

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

-- One block's body meets its obligation, by the three cases of its two conditionals.
set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  unfold inv1
  have hN : t.val < 100 := lt_of_lt_of_eq t.isLt (show cfg1.N = 100 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 50 = 0
  · by_cases h1 : t.val % 50 = 49
    · exfalso; omega
    · rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold caseA1 readBack1; (try dsimp only)
      refine (sep_mono_left (Phi_loose1 V c t.castSucc)).trans ?_
      rw [PhiA1_eq]
      iintro ⟨⟨⟨HR0, HR1, HR2, HR3, HR4, HR5, HR6, HR7, HR8, HR9, HR10, HR11, HR12, HR13, HS0, HS1⟩, Hg⟩, Ho, ⟨%d0, H0⟩, ⟨%d1, H1⟩, ⟨%d2, H2⟩, ⟨%d3, H3⟩⟩
      iapply ((kernelRun1_A c (grid1.coords t) _ _ _ _ _ _ _ _ _ _ _ _ ((hcond1_0 t).mpr h0) (fun h => h1 ((hcond1_1 t).mp h)) (iblk1 V c 0 t) (iblk1 V c 1 t)).2.2.2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HR0 HR1 HR2 HR3 HR4 HR5 HR6 HR7 HR8 HR9 HR10 HR11 HR12 HR13 HS0 HS1 Hg]
      · isplitl [HR0 HR1 HR2 HR3 HR4 HR5 HR6 HR7 HR8 HR9 HR10 HR11 HR12 HR13 HS0 HS1]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HS0]
          · unfold owns; iexists _; isplitr
            swap; · iexact HS0
            ipureintro; exact View.read_writes_of_cover _ _ _ _ _ (scover1_A_0 c _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _)
        iexact Hg
      isplitl [Ho]; · iexact Ho
      isplitl [H0]; · iexact H0
      isplitl [H1]; · iexact H1
      isplitl [H2]; · iexists _; iexact H2
      iexists _; iexact H3
  · by_cases h1 : t.val % 50 = 49
    · rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold caseC1 readBack1; (try dsimp only)
      have hz : t.val ≠ 0 := by omega
      rw [PhiS1_castSucc V c t, PhiS1_pos V c _ _ hz]
      unfold inv1
      iintro ⟨⟨⟨HR0, HR1, HR2, HR3, HR4, HR5, HR6, HR7, HR8, HR9, HR10, HR11, HR12, HR13, HS0, HS1⟩, Hg⟩, Ho, ⟨%d0, H0⟩, ⟨%d1, H1⟩, ⟨%d2, H2⟩, ⟨%d3, H3⟩⟩
      iapply ((kernelRun1_C c (grid1.coords t) _ _ _ _ _ _ _ _ _ _ _ _ (fun h => h0 ((hcond1_0 t).mp h)) ((hcond1_1 t).mpr h1) (iblk1 V c 0 t) (iblk1 V c 1 t) _ _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HR0 HR1 HR2 HR3 HR4 HR5 HR6 HR7 HR8 HR9 HR10 HR11 HR12 HR13 HS0 HS1 Hg]
      · isplitl [HR0 HR1 HR2 HR3 HR4 HR5 HR6 HR7 HR8 HR9 HR10 HR11 HR12 HR13 HS0 HS1]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HS0]
          · unfold owns; iexists _; isplitr
            swap; · iexact HS0
            ipureintro; exact View.read_writes_of_cover _ _ _ _ _ (scover1_C_0 c _ _ _ _ _ _ _ _ _ _ _ _ _ _ _ _ _ _ _)
          unfold owns; iexists _; isplitr
          swap; · iexact HS1
          ipureintro; exact View.read_writes_of_cover _ _ _ _ _ (scover1_C_1 c _ _ _ _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover1_C_2 c _ _ _ _ _ _ _ _ _ _ _ _ _ _ _ _ _ _ _)
      unfold owns; iexists _; isplitr
      swap; · iexact H3
      ipureintro; exact View.read_writes_of_cover _ _ _ _ _ (cover1_C_3 c _ _ _ _ _ _ _ _ _ _ _ _ _ _ _ _ _ _ _)
    · rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold caseB1 readBack1; (try dsimp only)
      have hz : t.val ≠ 0 := by omega
      rw [PhiS1_castSucc V c t, PhiS1_pos V c _ _ hz]
      unfold inv1
      iintro ⟨⟨⟨HR0, HR1, HR2, HR3, HR4, HR5, HR6, HR7, HR8, HR9, HR10, HR11, HR12, HR13, HS0, HS1⟩, Hg⟩, Ho, ⟨%d0, H0⟩, ⟨%d1, H1⟩, ⟨%d2, H2⟩, ⟨%d3, H3⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) _ _).2.2.2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HR0 HR1 HR2 HR3 HR4 HR5 HR6 HR7 HR8 HR9 HR10 HR11 HR12 HR13 HS0 HS1 Hg]
      · isplitl [HR0 HR1 HR2 HR3 HR4 HR5 HR6 HR7 HR8 HR9 HR10 HR11 HR12 HR13 HS0 HS1]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HS0]
          · unfold owns; iexists _; isplitr
            swap; · iexact HS0
            ipureintro; exact View.read_writes_of_cover _ _ _ _ _ (scover1_B_0 c _ _ _ _ _ _ _ _ _ _ _ _ _ _ _ _ _ _ _)
          unfold owns; iexists _; isplitr
          swap; · iexact HS1
          ipureintro; exact View.read_writes_of_cover _ _ _ _ _ (scover1_B_1 c _ _ _ _ _ _ _ _ _ _ _ _ _ _ _ _ _ _ _)
        iexact Hg
      isplitl [Ho]; · iexact Ho
      isplitl [H0]; · iexact H0
      isplitl [H1]; · iexact H1
      isplitl [H2]; · iexists _; iexact H2
      iexists _; iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c :=
  Phi_out1 V c _ (by rw [Fin.val_last]; have : cfg1.N = 100 := N_1; omega)

end Regions

end Cert.KernelIdeal.Hand

end
-- ==== Proof.KI.Run.lean ====
import proofs.«403249_j11562051960853_3_alg».proof.Proof.Gen.KernelIdeal.Launch
import proofs.«403249_j11562051960853_3_alg».proof.Proof.Gen.KernelIdeal.Regions
import proofs.«403249_j11562051960853_3_alg».proof.Proof.KI.R0
import proofs.«403249_j11562051960853_3_alg».proof.Proof.KI.R1
import Idealize.ShloMosaic.Lib.Pipeline.Frame
import Idealize.ShloMosaic.Lib.Pipeline.Regions
import Idealize.ShloMosaic.Lib.Pipeline.RegionsLoop
import Idealize.ShloMosaic.Lib.Pipeline.FrameSuffix

set_option maxRecDepth 16384

noncomputable section

namespace Cert.KernelIdeal.Hand

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

abbrev V2 : (c : Dev nD) → (b : Ref sig .tc) → Buf (Elt F) ((c : Thread nD τ).loc b) := fun c b => W2 m ρ c b

theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)

abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

abbrev V4 : (c : Dev nD) → (b : Ref sig .tc) → Buf (Elt F) ((c : Thread nD τ).loc b) := fun c b => W4 m ρ c b

theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)

abbrev W6 : Dev nD → Valuation τ sig (Elt F) := fun c => StableHlo.after hostOps2_1 (W5 m ρ c)

abbrev W7 : Dev nD → Valuation τ sig (Elt F) := fun c => StableHlo.after hostOps2_2 (W6 m ρ c)

abbrev W8 : Dev nD → Valuation τ sig (Elt F) := fun c => StableHlo.after hostOps2_3 (W7 m ρ c)

abbrev W9 : Dev nD → Valuation τ sig (Elt F) := fun c => StableHlo.after hostOps2_4 (W8 m ρ c)

abbrev W10 : Dev nD → Valuation τ sig (Elt F) := fun c => StableHlo.after hostOps2_5 (W9 m ρ c)

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h
theorem W6_of (c : Dev nD) (r : Ref sig .tc) (h : r ∉ hostOps2_1_W) :
    W6 m ρ c (Proc.devRef .tc r) = W5 m ρ c (Proc.devRef .tc r) :=
  StableHlo.after_of_writes_sub hostOps2_1 _ hostOps2_1_writes h
theorem W7_of (c : Dev nD) (r : Ref sig .tc) (h : r ∉ hostOps2_2_W) :
    W7 m ρ c (Proc.devRef .tc r) = W6 m ρ c (Proc.devRef .tc r) :=
  StableHlo.after_of_writes_sub hostOps2_2 _ hostOps2_2_writes h
theorem W8_of (c : Dev nD) (r : Ref sig .tc) (h : r ∉ hostOps2_3_W) :
    W8 m ρ c (Proc.devRef .tc r) = W7 m ρ c (Proc.devRef .tc r) :=
  StableHlo.after_of_writes_sub hostOps2_3 _ hostOps2_3_writes h
theorem W9_of (c : Dev nD) (r : Ref sig .tc) (h : r ∉ hostOps2_4_W) :
    W9 m ρ c (Proc.devRef .tc r) = W8 m ρ c (Proc.devRef .tc r) :=
  StableHlo.after_of_writes_sub hostOps2_4 _ hostOps2_4_writes h
theorem W10_of (c : Dev nD) (r : Ref sig .tc) (h : r ∉ hostOps2_5_W) :
    W10 m ρ c (Proc.devRef .tc r) = W9 m ρ c (Proc.devRef .tc r) :=
  StableHlo.after_of_writes_sub hostOps2_5 _ hostOps2_5_writes h

theorem W10_of_tail (c : Dev nD) (r : Ref sig .tc) (h5 : r ∉ hostOps2_W) (h6 : r ∉ hostOps2_1_W) (h7 : r ∉ hostOps2_2_W)
    (h8 : r ∉ hostOps2_3_W) (h9 : r ∉ hostOps2_4_W) (h10 : r ∉ hostOps2_5_W) :
    W10 m ρ c (Proc.devRef .tc r) = W4 m ρ c (Proc.devRef .tc r) :=
  (W10_of m ρ c r h10).trans <| (W9_of m ρ c r h9).trans <| (W8_of m ρ c r h8).trans <| (W7_of m ρ c r h7).trans <|
    (W6_of m ρ c r h6).trans (W5_of m ρ c r h5)

-- An array that no host operation writes and no kernel region returns ends as launched.
theorem W10_kept (c : Dev nD) (r : Ref sig .tc)
    (h : r ∉ hostOps0_W ∧ r ∉ hostOps1_W ∧ r ∉ hostOps2_W ∧ r ∉ hostOps2_1_W ∧ r ∉ hostOps2_2_W ∧ r ∉ hostOps2_3_W
      ∧ r ∉ hostOps2_4_W ∧ r ∉ hostOps2_5_W)
    (h1 : ∀ w, Pipeline.arrRef spec1 w ≠ r) (h0 : W2 m ρ c (Proc.devRef .tc r) = W1 m ρ c (Proc.devRef .tc r)) :
    W10 m ρ c (Proc.devRef .tc r) = m ((c : Thread nD τ).loc r) :=
  (W10_of_tail m ρ c r h.2.2.1 h.2.2.2.1 h.2.2.2.2.1 h.2.2.2.2.2.1 h.2.2.2.2.2.2.1 h.2.2.2.2.2.2.2).trans <|
    (W4_of_ne m ρ c r h1).trans <| (W3_of m ρ c r h.2.1).trans <| h0.trans <| (W1_of m ρ c r h.1).trans rfl

theorem W10_main_arg0 (c : Dev nD) : W10 m ρ c (Proc.devRef .tc main_arg0) = m ((c : Thread nD τ).loc main_arg0) :=
  W10_kept m ρ c main_arg0 (by decide) (by decide) ((W2_arr m ρ c 0).trans (((dat0 (V1 m ρ) c).arrAt_in 0 rfl _).trans (A_eq0 (V1 m ρ) c 0)))
theorem W10_main_arg1 (c : Dev nD) : W10 m ρ c (Proc.devRef .tc main_arg1) = m ((c : Thread nD τ).loc main_arg1) :=
  W10_kept m ρ c main_arg1 (by decide) (by decide) ((W2_arr m ρ c 1).trans (((dat0 (V1 m ρ) c).arrAt_in 1 rfl _).trans (A_eq0 (V1 m ρ) c 1)))
theorem W10_main_arg2 (c : Dev nD) : W10 m ρ c (Proc.devRef .tc main_arg2) = m ((c : Thread nD τ).loc main_arg2) :=
  W10_kept m ρ c main_arg2 (by decide) (by decide) (W2_of_ne m ρ c main_arg2 (by decide))
theorem W10_main_arg3 (c : Dev nD) : W10 m ρ c (Proc.devRef .tc main_arg3) = m ((c : Thread nD τ).loc main_arg3) :=
  W10_kept m ρ c main_arg3 (by decide) (by decide) (W2_of_ne m ρ c main_arg3 (by decide))
theorem W10_main_arg4 (c : Dev nD) : W10 m ρ c (Proc.devRef .tc main_arg4) = m ((c : Thread nD τ).loc main_arg4) :=
  W10_kept m ρ c main_arg4 (by decide) (by decide) (W2_of_ne m ρ c main_arg4 (by decide))
theorem W10_main_arg5 (c : Dev nD) : W10 m ρ c (Proc.devRef .tc main_arg5) = m ((c : Thread nD τ).loc main_arg5) :=
  W10_kept m ρ c main_arg5 (by decide) (by decide) (W2_of_ne m ρ c main_arg5 (by decide))

def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W10 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by

    refine BI.Entails.trans (?_ : _ ⊢ (Pipeline.ΦA spec0 c : sProp 𝕄)) (hin0 (V1 m ρ) c)
    unfold Pipeline.ΦA
    iintro ⟨Hp, -, Hr⟩
    isplitl [Hr]; · iexact Hr
    iexact Hp
  hout c := by

    rw [Pipeline.ownSems0_none]
    refine BI.Entails.trans (hout0 (V1 m ρ) c) (?_ : (Pipeline.ΦA spec0 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by

    refine BI.Entails.trans (?_ : _ ⊢ (Pipeline.ΦA spec1 c : sProp 𝕄)) (hin1 (V3 m ρ) c)
    unfold Pipeline.ΦA
    iintro ⟨Hp, -, Hr⟩
    isplitl [Hr]; · iexact Hr
    iexact Hp
  hout c := by

    rw [Pipeline.ownSems0_none]
    refine BI.Entails.trans (hout1 (V3 m ρ) c) (?_ : (Pipeline.ΦA spec1 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .host (hseg hostOps2_1 hostOps2_1_sub hostOps2_1_fresh (W5 m ρ)),
    .host (hseg hostOps2_2 hostOps2_2_sub hostOps2_2_fresh (W6 m ρ)),
    .host (hseg hostOps2_3 hostOps2_3_sub hostOps2_3_fresh (W7 m ρ)),
    .host (hseg hostOps2_4 hostOps2_4_sub hostOps2_4_fresh (W8 m ρ)),
    .host (hseg hostOps2_5 hostOps2_5_sub hostOps2_5_fresh (W9 m ρ)) ]

theorem segs_prog : (segs m ρ).map Seg.prog = [
    StableHlo.seq hostOps0,
    Prog.lift (.customCall (Pipeline.entry 0) ()),
    StableHlo.seq hostOps1,
    Prog.lift (.customCall (Pipeline.entry 1) ()),
    StableHlo.seq hostOps2,
    StableHlo.seq hostOps2_1,
    StableHlo.seq hostOps2_2,
    StableHlo.seq hostOps2_3,
    StableHlo.seq hostOps2_4,
    StableHlo.seq hostOps2_5 ] := rfl

theorem main_run (c : Dev nD) : main (F := F) c = Pipeline.Seg.run (segs m ρ) := by
  rw [main_chain c, Seg.run_eq_chain, segs_prog]

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (W10 m ρ c)
            ∗ (∃ r, prngReg c r) ∗ ∃ W, owes (c : Thread nD τ) (0 : CellTallies nD τ sig Unit) W)
          ⊢ (iprop((StableHlo.held (c : Thread nD τ) (Pipeline.ucRefs τ sig) (W10 m ρ c) ∗ ∃ r, prngReg c r)
            ∗ ∃ W, owes (c : Thread nD τ) (0 : CellTallies nD τ sig Unit) W) : sProp 𝕄)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  OrdCont.mono (θ_run defs (onTc (τ := τ) (main (F := F))) ⟨m, fun _ => 0, ρ⟩) (fun r h c =>
    ⟨(h c _ (mem_uc main_arg0 (by decide))).trans (W10_main_arg0 m ρ c),
     (h c _ (mem_uc main_arg1 (by decide))).trans (W10_main_arg1 m ρ c),
     (h c _ (mem_uc main_arg2 (by decide))).trans (W10_main_arg2 m ρ c),
     (h c _ (mem_uc main_arg3 (by decide))).trans (W10_main_arg3 m ρ c),
     (h c _ (mem_uc main_arg4 (by decide))).trans (W10_main_arg4 m ρ c),
     (h c _ (mem_uc main_arg5 (by decide))).trans (W10_main_arg5 m ρ c)⟩) (run_all m ρ)

end Cert.KernelIdeal.Hand

end
-- ==== Proof.Spec.lean ====
import Idealize.ShloMosaic.PureOps.Ideal
import Mathlib.Algebra.BigOperators.Group.Finset.Basic
import Mathlib.Algebra.BigOperators.Fin
import Mathlib.Data.Fintype.BigOperators

noncomputable section

open scoped BigOperators

namespace Cert.Spec

open Idealize.ShloMosaic

section Softmax
variable {N D K : ℕ} (X : Fin N → Fin D → EReal) (W : Fin K → Fin D → EReal) (B : Fin K → EReal)

def logit (n : Fin N) (k : Fin K) : EReal := (∑ d, X n d * W k d) + B k
def rmax (n : Fin N) : EReal := (Finset.univ : Finset (Fin K)).fold max ⊥ (fun k => logit X W B n k)
def ex (n : Fin N) (k : Fin K) : EReal := Ideal.exp (logit X W B n k - rmax X W B n)
def den (n : Fin N) : EReal := ∑ k, ex X W B n k
-- The softmax row of the logits: node n's assignment to cluster k.
def S (n : Fin N) (k : Fin K) : EReal := Ideal.div (ex X W B n k) (den X W B n)

end Softmax

section Pooled
variable {N D K E : ℕ} (S : Fin N → Fin K → EReal) (X : Fin N → Fin D → EReal)
variable (val : Fin E → EReal) (ri ci : Fin E → Fin N)

def cs (k : Fin K) : EReal := ∑ n, S n k
def pool (k : Fin K) (d : Fin D) : EReal := ∑ n, S n k * X n d
def mass : EReal := ∑ e, val e
def gp (a b : Fin K) : EReal := ∑ e, (val e * S (ci e) a) * S (ri e) b
def vv (k : Fin K) : EReal := ∑ e, val e * S (ci e) k
-- The node spelling first gathers the edges landing on a node, then contracts over nodes.
def deg (p : Fin N) : EReal := ∑ e ∈ Finset.univ.filter (fun e => ci e = p), val e
def AS (p : Fin N) (a : Fin K) : EReal := ∑ e ∈ Finset.univ.filter (fun e => ri e = p), val e * S (ci e) a
def gpN (a b : Fin K) : EReal := ∑ p, AS S val ri ci p a * S p b
def nl (a : Fin K) : EReal := ∑ p, S p a * deg val ci p
def nr (b : Fin K) : EReal := ∑ p, deg val ci p * S p b
def massN : EReal := ∑ p, deg val ci p
def tr (G : Fin K → Fin K → EReal) : EReal := ∑ a, ∑ b, if a = b then G a b else 0

def spectralE : EReal :=
  Ideal.div (-(tr (gp S val ri ci) - Ideal.div (∑ k, vv S val ci k * vv S val ci k) (2 * mass val))) (2 * mass val)
def spectralN : EReal :=
  Ideal.div (-(tr fun a b => gpN S val ri ci a b - Ideal.div (nl S val ci a * nr S val ci b) (2 * massN val ci)))
    (2 * massN val ci)

end Pooled

end Cert.Spec

end
-- ==== Proof.SpecA.lean ====
import proofs.«403249_j11562051960853_3_alg».proof.Proof.Spec
import Mathlib.Algebra.BigOperators.Ring.Finset
import Mathlib.Algebra.Order.BigOperators.Group.Finset
import Mathlib.Data.Finset.Lattice.Fold
import Mathlib.Data.EReal.Operations
import Mathlib.Analysis.SpecialFunctions.Exp
import Mathlib.Logic.Equiv.Fin.Basic
import Mathlib.Tactic.Ring

noncomputable section

open scoped BigOperators

namespace Cert.Spec

open Idealize.ShloMosaic

-- The coercion of the reals into the extended reals is additive, so it commutes with finite sums.
theorem coe_sum {ι : Type*} (s : Finset ι) (g : ι → ℝ) : ((∑ i ∈ s, g i : ℝ) : EReal) = ∑ i ∈ s, (g i : EReal) :=
  map_sum (⟨⟨Real.toEReal, EReal.coe_zero⟩, EReal.coe_add⟩ : ℝ →+ EReal) g s

theorem sum_blocks' {M : Type*} [AddCommMonoid M] (P I R : ℕ) (f : Fin (P * I * R) → M) :
    (∑ p : Fin P, ∑ i : Fin I, ∑ r : Fin R,
        f ⟨R * (I * p.val + i.val) + r.val, by
          have hp := p.isLt; have hi := i.isLt; have hr := r.isLt
          calc R * (I * p.val + i.val) + r.val < R * (I * p.val + i.val) + R := by omega
            _ = R * (I * p.val + i.val + 1) := by ring
            _ ≤ R * (I * P) := Nat.mul_le_mul_left _ (by nlinarith)
            _ = P * I * R := by ring⟩) = ∑ n, f n := by
  rw [← (finProdFinEquiv : Fin (P * I) × Fin R ≃ Fin (P * I * R)).sum_comp, Fintype.sum_prod_type,
    ← (finProdFinEquiv : Fin P × Fin I ≃ Fin (P * I)).sum_comp, Fintype.sum_prod_type]
  refine Finset.sum_congr rfl fun p _ => Finset.sum_congr rfl fun i _ => Finset.sum_congr rfl fun r _ => ?_
  congr 1
  ext
  simp only [finProdFinEquiv, Equiv.coe_fn_mk]
  ring

-- Real logits have a real maximum, so a softmax row is a quotient of positive reals.
theorem S_pos' {N D K : ℕ} [NeZero K] (X : Fin N → Fin D → EReal) (W : Fin K → Fin D → EReal) (B : Fin K → EReal)
    (hX : ∀ n d, ∃ r : ℝ, X n d = (r : EReal)) (hW : ∀ k d, ∃ r : ℝ, W k d = (r : EReal)) (hB : ∀ k, ∃ r : ℝ, B k = (r : EReal)) :
    ∀ n k, ∃ r : ℝ, 0 < r ∧ S X W B n k = (r : EReal) := by
  choose x hx using hX
  choose w hw using hW
  choose b hb using hB
  intro n k
  let l : Fin K → ℝ := fun j => (∑ d, x n d * w j d) + b j
  have hl : ∀ j, logit X W B n j = (l j : EReal) := fun j => by
    simp only [logit, hx, hw, hb, ← EReal.coe_mul, ← coe_sum, ← EReal.coe_add, l]
  obtain ⟨k0, -, hk0⟩ := Finset.exists_mem_eq_sup (Finset.univ : Finset (Fin K)) Finset.univ_nonempty
    (fun j => logit X W B n j)
  have hm : rmax X W B n = (l k0 : EReal) := by rw [← hl k0, ← hk0]; rfl
  have he : ∀ j, ex X W B n j = ((Real.exp (l j - l k0) : ℝ) : EReal) := fun j => by
    rw [ex, hl j, hm, ← EReal.coe_sub, Ideal.exp_coe]
  have hpos : 0 < ∑ j, Real.exp (l j - l k0) := Finset.sum_pos (fun j _ => Real.exp_pos _) Finset.univ_nonempty
  refine ⟨Real.exp (l k - l k0) * (1 / ∑ j, Real.exp (l j - l k0)), mul_pos (Real.exp_pos _) (one_div_pos.mpr hpos), ?_⟩
  simp only [S, den, he, ← coe_sum, Ideal.div_coe hpos.ne', ← EReal.coe_mul]

-- A positive real cluster size divides the sum over nodes term by term.
theorem pool_div' {N D K : ℕ} [NeZero N] (S : Fin N → Fin K → EReal) (X : Fin N → Fin D → EReal)
    (hS : ∀ n k, ∃ r : ℝ, 0 < r ∧ S n k = (r : EReal)) (hX : ∀ n d, ∃ r : ℝ, X n d = (r : EReal)) (k : Fin K) (d : Fin D) :
    Ideal.div (pool S X k d) (cs S k) = ∑ n, Ideal.div (S n k) (cs S k) * X n d := by
  choose s hs0 hs using hS
  choose x hx using hX
  have hpos : 0 < ∑ n, s n k := Finset.sum_pos (fun n _ => hs0 n k) Finset.univ_nonempty
  have hc : cs S k = ((∑ n, s n k : ℝ) : EReal) := by simp only [cs, hs, ← coe_sum]
  simp only [pool, hc, hs, hx, Ideal.div_coe hpos.ne', ← EReal.coe_mul, ← coe_sum]
  rw [Finset.sum_mul]
  exact congrArg _ (Finset.sum_congr rfl fun n _ => by ring)

end Cert.Spec

end
-- ==== Proof.Shared.lean ====
import Idealize.ShloMosaic.PureOps
import Idealize.ShloMosaic.PureOps.Ideal
import Idealize.ShloMosaic.Lib.ValueIdx

noncomputable section

namespace Cert.Shared

open Idealize.ShloMosaic

abbrev S_ : Shape := ⟨0, ![]⟩
abbrev S64 : Shape := ⟨1, ![64]⟩
abbrev S64x64 : Shape := ⟨2, ![64, 64]⟩
abbrev S64x128 : Shape := ⟨2, ![64, 128]⟩

def node (i : BitVec 32) : Fin 100000 := ⟨i.toInt.toNat % 100000, Nat.mod_lt _ (by decide)⟩

theorem node_val (i : BitVec 32) (h0 : 0 ≤ i.toInt) (h1 : i.toInt < 100000) : ((node i).val : Int) = i.toInt := by
  show ((i.toInt.toNat % 100000 : ℕ) : Int) = i.toInt
  omega

def seluT (x : FVec Ideal S64x128 .f32) : FVec Ideal S64x128 .f32 :=
  let pos : IVec S64x128 1 := cmpf .ogt x (broadcastInDim S64x128 ![] (by decide) (constant (F := Ideal) S_ .f32 0x00000000#32))
  let w2 : FVec Ideal S64x128 .f32 := select pos (broadcastInDim S64x128 ![] (by decide) (id (constant (F := Ideal) S_ .f32 0x00000000#32))) x
  let v5 : FVec Ideal S64x128 .f32 := Host.expm1 w2
  let v8 : FVec Ideal S64x128 .f32 := mulf (broadcastInDim S64x128 ![] (by decide) (id (constant (F := Ideal) S_ .f32 0x3FD62D7D#32))) v5
  let e : FVec Ideal S64x128 .f32 := select pos x v8
  mulf (broadcastInDim S64x128 ![] (by decide) (constant (F := Ideal) S_ .f32 0x3F867D5F#32)) e

def collapseT (cs : FVec Ideal S64 .f32) : FVec Ideal S_ .f32 :=
  let sq : FVec Ideal S64 .f32 := mulf cs cs
  let ss : FVec Ideal S_ .f32 := Host.reduceAdd sq (constant (F := Ideal) S_ .f32 0x00000000#32) (by decide : S64.ReducesTo [0] S_) (by decide)
  let nrm : FVec Ideal S_ .f32 := Host.sqrt ss
  let q : FVec Ideal S_ .f32 := Host.divf nrm (constant (F := Ideal) S_ .f32 0x47C35000#32)
  let rt : FVec Ideal S_ .f32 := Host.sqrt (constant (F := Ideal) S_ .f32 0x42800000#32)
  let p : FVec Ideal S_ .f32 := mulf q rt
  let l : FVec Ideal S_ .f32 := subf p (constant (F := Ideal) S_ .f32 0x3F800000#32)
  mulf (constant (F := Ideal) S_ .f32 0x3DCCCCCD#32) l

def traceT (g : FVec Ideal S64x64 .f32) : FVec Ideal S_ .f32 :=
  let i0 : IVec S64x64 32 := iotaInDim S64x64 32 0
  let i1 : IVec S64x64 32 := iotaInDim S64x64 32 1
  let z : IVec S64x64 32 := broadcastInDim S64x64 ![] (by decide) (constantI S_ 32 0#32)
  let msk : IVec S64x64 1 := cmpi .eq (addi i0 z) i1
  let zf : FVec Ideal S64x64 .f32 := broadcastInDim S64x64 ![] (by decide) (constant (F := Ideal) S_ .f32 0x00000000#32)
  let sel : FVec Ideal S64x64 .f32 := select msk g zf
  Host.reduceAdd sel (constant (F := Ideal) S_ .f32 0x00000000#32) (by decide : S64x64.ReducesTo [0, 1] S_) (by decide)

end Cert.Shared

end
-- ==== Proof.Results.lean ====
import proofs.«403249_j11562051960853_3_alg».proof.Proof.Spec
import proofs.«403249_j11562051960853_3_alg».proof.Proof.SpecA
import proofs.«403249_j11562051960853_3_alg».proof.Proof.Shared
import Idealize.ShloMosaic.Lib.ValueIdx

noncomputable section

open scoped BigOperators

namespace Cert.Results

open Idealize.ShloMosaic Idealize.ShloMosaic.ValueIdx Cert.Shared

abbrev S100000x128 : Shape := ⟨2, ![100000, 128]⟩
abbrev S100000x64 : Shape := ⟨2, ![100000, 64]⟩
abbrev S3200000 : Shape := ⟨1, ![3200000]⟩

section
variable (a0 : S100000x128.Idx → EReal) (a1 : S64x128.Idx → EReal) (a2 : S64.Idx → EReal) (a3 : S3200000.Idx → EReal)
  (a4 a5 : S3200000.Idx → BitVec 32)

def X : Fin 100000 → Fin 128 → EReal := fun n d => a0 (ix2 n d)
def Wt : Fin 64 → Fin 128 → EReal := fun k d => a1 (ix2 k d)
def Bs : Fin 64 → EReal := fun k => a2 (ix1 k)
def vals : Fin 3200000 → EReal := fun e => a3 (ix1 e)
def rowN : Fin 3200000 → Fin 100000 := fun e => node (a4 (ix1 e))
def colN : Fin 3200000 → Fin 100000 := fun e => node (a5 (ix1 e))

def Sa : Fin 100000 → Fin 64 → EReal := Cert.Spec.S (X a0) (Wt a1) (Bs a2)
def assign : S100000x64.Idx → EReal := fun i => Sa a0 a1 a2 (i 0) (i 1)
def csArr : S64.Idx → EReal := fun i => Cert.Spec.cs (Sa a0 a1 a2) (i 0)
def collapse : S_.Idx → EReal := collapseT (csArr a0 a1 a2)

def pooledE : S64x128.Idx → EReal :=
  seluT fun i => Ideal.div (Cert.Spec.pool (Sa a0 a1 a2) (X a0) (i 0) (i 1)) (Cert.Spec.cs (Sa a0 a1 a2) (i 0))

def pooledN : S64x128.Idx → EReal :=
  seluT fun i => ∑ n, Ideal.div (Sa a0 a1 a2 n (i 0)) (Cert.Spec.cs (Sa a0 a1 a2) (i 0)) * X a0 n (i 1)

def spectralE : S_.Idx → EReal := fun _ => Cert.Spec.spectralE (Sa a0 a1 a2) (vals a3) (rowN a4) (colN a5)
def spectralN : S_.Idx → EReal := fun _ => Cert.Spec.spectralN (Sa a0 a1 a2) (vals a3) (rowN a4) (colN a5)

end

end Cert.Results

end
-- ==== Proof.KI.HostVal1.lean ====
import proofs.«403249_j11562051960853_3_alg».proof.Proof.Gen.KernelIdeal.Launch
import proofs.«403249_j11562051960853_3_alg».proof.Proof.Shared
import Idealize.ShloMosaic.Lib.StableHlo.Run
import Idealize.ShloMosaic.Lib.StableHlo.Predicate
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws
import Mathlib.Algebra.BigOperators.Group.Finset.Basic
import Mathlib.Data.Fintype.BigOperators

noncomputable section

namespace Cert.KernelIdeal.HostVal

open Cert.KernelIdeal Cert.KernelIdeal.Gen
open Cert.Shared (node node_val)
open Idealize.ShloMosaic Idealize.ShloMosaic.ValueIdx
open scoped BigOperators

variable (Vv : Valuation τ sig (Elt Idealize.ShloMosaic.Ideal))

local infixl:70 " *ᴱ " => @HMul.hMul EReal EReal EReal instHMul
local infixl:65 " +ᴱ " => @HAdd.hAdd EReal EReal EReal instHAdd

def idxEquiv1 {n : Nat} : Fin n ≃ (⟨1, ![n]⟩ : Shape).Idx where
  toFun := ix1
  invFun j := j 0
  left_inv _ := rfl
  right_inv j := (eq_ix1 j).symm

theorem bcast_col_apply {α : Type} {n : Nat} (h : (⟨1, ![n]⟩ : Shape).BroadcastsInDim ⟨2, ![n, 1]⟩ ![0])
    (v : (⟨1, ![n]⟩ : Shape).Idx → α) (p : Fin n) (u : Fin 1) :
    broadcastInDim ⟨2, ![n, 1]⟩ ![0] h v (ix2 p u) = v (ix1 p) :=
  broadcastInDim_apply _ h v _ _ (fun a => by
    obtain rfl : a = 0 := Subsingleton.elim _ _
    show p.val = if n = 1 then 0 else p.val
    have := p.isLt
    split <;> omega)

theorem gather_axis0 {w : Nat} (idx : IVec S3200000x1 w) (e : Fin 3200000) (k : Fin 64) :
    (gather_S100000x64_S3200000x1_S3200000x64_1_0_n_n_0_1_164.operandIdx (ix2 e k) idx (⟨0, by decide⟩ : Fin S100000x64.rank)).val
      = min (idx (ix2 e (0 : Fin 1))).toInt.toNat 99999 := by
  show gather_S100000x64_S3200000x1_S3200000x64_1_0_n_n_0_1_164.start (ix2 e k) idx _
    + gather_S100000x64_S3200000x1_S3200000x64_1_0_n_n_0_1_164.batchCoord (ix2 e k) _
    + gather_S100000x64_S3200000x1_S3200000x64_1_0_n_n_0_1_164.offCoord (ix2 e k) _ = _
  rw [GatherDims.batchCoord_eq_zero _ _ _ (by decide), GatherDims.offCoord_eq_zero _ _ _ (by decide)]
  simp only [Nat.add_zero]
  unfold GatherDims.start
  rw [dif_pos (by decide)]
  have hsi : gather_S100000x64_S3200000x1_S3200000x64_1_0_n_n_0_1_164.siIdx (ix2 e k)
      ⟨List.idxOf (⟨0, by decide⟩ : Fin S100000x64.rank) gather_S100000x64_S3200000x1_S3200000x64_1_0_n_n_0_1_164.startIndexMap,
        List.idxOf_lt_length_iff.2 (by decide)⟩ = ix2 e (0 : Fin 1) := by
    funext b; refine Fin.ext ?_
    match b with
    | ⟨0, _⟩ => rfl
    | ⟨1, _⟩ => rfl
  rw [hsi]
  rfl

theorem gather_axis1 {w : Nat} (idx : IVec S3200000x1 w) (e : Fin 3200000) (k : Fin 64) :
    (gather_S100000x64_S3200000x1_S3200000x64_1_0_n_n_0_1_164.operandIdx (ix2 e k) idx (⟨1, by decide⟩ : Fin S100000x64.rank)).val
      = k.val := by
  show gather_S100000x64_S3200000x1_S3200000x64_1_0_n_n_0_1_164.start (ix2 e k) idx _
    + gather_S100000x64_S3200000x1_S3200000x64_1_0_n_n_0_1_164.batchCoord (ix2 e k) _
    + gather_S100000x64_S3200000x1_S3200000x64_1_0_n_n_0_1_164.offCoord (ix2 e k) _ = _
  rw [GatherDims.batchCoord_eq_zero _ _ _ (by decide)]
  unfold GatherDims.start
  rw [dif_neg (by decide)]
  unfold GatherDims.offCoord
  rw [dif_pos (by decide)]
  simp only [Nat.zero_add, Nat.add_zero]
  rfl

theorem gather_rows_apply {α : Type} {w : Nat} (x : S100000x64.Idx → α) (idx : IVec S3200000x1 w) (e : Fin 3200000) (k : Fin 64) :
    Host.gather gather_S100000x64_S3200000x1_S3200000x64_1_0_n_n_0_1_164 x idx (ix2 e k)
      = x (ix2 ⟨min (idx (ix2 e (0 : Fin 1))).toInt.toNat 99999, by omega⟩ k) := by
  unfold Host.gather
  congr 1
  funext a
  match a with
  | ⟨0, _⟩ => exact Fin.ext (gather_axis0 idx e k)
  | ⟨1, _⟩ => exact Fin.ext (gather_axis1 idx e k)

theorem slt_zero_of_nonneg (w : BitVec 32) (h : 0 ≤ w.toInt) : IntOp.cmpi .slt w 0#32 = 0#1 := by
  have h1 : w.slt 0#32 = false := by
    rw [BitVec.slt_eq_decide]
    simp
    exact h
  simp [IntOp.cmpi, h1]

theorem norm_idx_apply (ci : IVec S3200000 32) (e : Fin 3200000) (h0 : 0 ≤ (ci (ix1 e)).toInt) :
    (broadcastInDim S3200000x1 ![0] bcast_S3200000_S3200000x1_0
      (select (cmpi CmpIPredicate.slt ci (broadcastInDim S3200000 ![] bcast_S_S3200000 (constantI S_ 32 0#32)))
        (addi ci (broadcastInDim S3200000 ![] bcast_S_S3200000 (constantI S_ 32 100000#32))) ci) : IVec S3200000x1 32)
      (ix2 e (0 : Fin 1)) = ci (ix1 e) := by
  rw [bcast_col_apply, select_apply]
  show Scalar.select (IntOp.cmpi .slt (ci (ix1 e)) (broadcastInDim S3200000 ![] bcast_S_S3200000 (constantI S_ 32 0#32) (ix1 e))) _ _ = _
  rw [broadcastInDim_scalar_apply, constantI_apply, slt_zero_of_nonneg _ h0, select_zero]

theorem gather_node_apply {α : Type} (x : S100000x64.Idx → α) (ci : IVec S3200000 32) (e : Fin 3200000) (k : Fin 64)
    (h : 0 ≤ (ci (ix1 e)).toInt ∧ (ci (ix1 e)).toInt < 100000) :
    Host.gather gather_S100000x64_S3200000x1_S3200000x64_1_0_n_n_0_1_164 x
      (broadcastInDim S3200000x1 ![0] bcast_S3200000_S3200000x1_0
        (select (cmpi CmpIPredicate.slt ci (broadcastInDim S3200000 ![] bcast_S_S3200000 (constantI S_ 32 0#32)))
          (addi ci (broadcastInDim S3200000 ![] bcast_S_S3200000 (constantI S_ 32 100000#32))) ci) : IVec S3200000x1 32)
      (ix2 e k) = x (ix2 (node (ci (ix1 e))) k) := by
  rw [gather_rows_apply]
  congr 2
  refine Fin.ext ?_
  show min _ 99999 = (ci (ix1 e)).toInt.toNat % 100000
  rw [norm_idx_apply ci e h.1]
  omega

theorem v0_apply (k : Fin 64) :
    (StableHlo.after hostOps0 Vv (Proc.devRef .tc main_v0) : S1x64.Idx → EReal) (ix2 (0 : Fin 1) k)
      = (Vv (Proc.devRef .tc main_arg2) : S64.Idx → EReal) (ix1 k) := by
  open StableHlo in after_results_simp
  exact shapeCast_a_1a_apply (a := 64) _ _ _ k

theorem v3_apply (k : Fin 64) :
    (StableHlo.after hostOps1 Vv (Proc.devRef .tc main_v3) : S64.Idx → EReal) (ix1 k)
      = (0 : EReal) +ᴱ Finset.sum (M := EReal) Finset.univ fun p : Fin 2 => (Vv (Proc.devRef .tc main_v1_2) : S2x1x64.Idx → EReal) (ix3 p (0 : Fin 1) k) := by
  open StableHlo in after_results_simp
  refine (shapeCast_1a_a_apply (a := 64) _ _ k).trans ?_
  refine (Ideal.hostReduceAdd_single reducesTo_S2x1x64_S1x64_d0 (by decide) _ _ _).trans ?_
  refine congrArg₂ _ Ideal.ofBits_zero_f32 (Finset.sum_congr rfl fun p _ => congrArg _ (funext fun a => ?_))
  match a with
  | ⟨0, _⟩ => rfl
  | ⟨1, _⟩ => rfl
  | ⟨2, _⟩ => rfl

theorem v4_apply (k : Fin 64) (d : Fin 128) :
    (StableHlo.after hostOps1 Vv (Proc.devRef .tc main_v4) : S64x128.Idx → EReal) (ix2 k d)
      = (0 : EReal) +ᴱ Finset.sum (M := EReal) Finset.univ fun p : Fin 2 => (Vv (Proc.devRef .tc main_v1_3) : S2x64x128.Idx → EReal) (ix3 p k d) := by
  open StableHlo in after_results_simp
  refine (Ideal.hostReduceAdd_single reducesTo_S2x64x128_S64x128_d0 (by decide) _ _ _).trans ?_
  refine congrArg₂ _ Ideal.ofBits_zero_f32 (Finset.sum_congr rfl fun p _ => congrArg _ (funext fun a => ?_))
  match a with
  | ⟨0, _⟩ => rfl
  | ⟨1, _⟩ => rfl
  | ⟨2, _⟩ => rfl

theorem v5_apply :
    (StableHlo.after hostOps1 Vv (Proc.devRef .tc main_v5) : S_.Idx → EReal) ix0
      = (0 : EReal) +ᴱ Finset.sum (M := EReal) Finset.univ fun e : Fin 3200000 => (Vv (Proc.devRef .tc main_arg3) : S3200000.Idx → EReal) (ix1 e) := by
  open StableHlo in after_results_simp
  refine (Ideal.hostReduceAdd_total reducesTo_S3200000_S_d0 (fun b => b.elim0) _ _ _).trans ?_
  exact congrArg₂ _ Ideal.ofBits_zero_f32 (Equiv.sum_comp idxEquiv1 _).symm

theorem v24_apply (e : Fin 3200000) (k : Fin 64)
    (h : 0 ≤ ((Vv (Proc.devRef .tc main_arg5) : IVec S3200000 32) (ix1 e)).toInt
       ∧ ((Vv (Proc.devRef .tc main_arg5) : IVec S3200000 32) (ix1 e)).toInt < 100000) :
    (StableHlo.after hostOps1 Vv (Proc.devRef .tc main_v24) : S3200000x64.Idx → EReal) (ix2 e k)
      = (Vv (Proc.devRef .tc main_arg3) : S3200000.Idx → EReal) (ix1 e)
        *ᴱ (Vv (Proc.devRef .tc main_v1_1) : S100000x64.Idx → EReal) (ix2 (node ((Vv (Proc.devRef .tc main_arg5) : IVec S3200000 32) (ix1 e))) k) := by
  open StableHlo in after_results_simp
  refine congrArg₂ (fun a b : EReal => a * b) ?_ ?_
  · exact (StableHlo.Predicate.bcast_rows _ _ _ e k).trans (congrArg _ (eq_ix1 _))
  · exact gather_node_apply _ _ e k h

theorem v19_apply (e : Fin 3200000) (k : Fin 64)
    (h : 0 ≤ ((Vv (Proc.devRef .tc main_arg4) : IVec S3200000 32) (ix1 e)).toInt
       ∧ ((Vv (Proc.devRef .tc main_arg4) : IVec S3200000 32) (ix1 e)).toInt < 100000) :
    (StableHlo.after hostOps1 Vv (Proc.devRef .tc main_v19) : S3200000x64.Idx → EReal) (ix2 e k)
      = (Vv (Proc.devRef .tc main_v1_1) : S100000x64.Idx → EReal) (ix2 (node ((Vv (Proc.devRef .tc main_arg4) : IVec S3200000 32) (ix1 e))) k) := by
  open StableHlo in after_results_simp
  exact gather_node_apply _ _ e k h

end Cert.KernelIdeal.HostVal

end
-- ==== Proof.KI.HostVal2.lean ====
import proofs.«403249_j11562051960853_3_alg».proof.Proof.Gen.KernelIdeal.Regions
import proofs.«403249_j11562051960853_3_alg».proof.Proof.Shared
import proofs.«403249_j11562051960853_3_alg».proof.Proof.Spec
import Idealize.ShloMosaic.Lib.StableHlo.Run
import Idealize.ShloMosaic.Lib.StableHlo.Predicate
import Idealize.ShloMosaic.Lib.ValueIdx
import Idealize.ShloMosaic.Lib.IdealHost
import Idealize.ShloMosaic.PureOps.Ideal
import Idealize.ShloMosaic.PureOps.Ideal.Laws

set_option maxRecDepth 16384

noncomputable section

namespace Cert.KernelIdeal.HostVal

open Idealize.ShloMosaic Idealize.ShloMosaic.TcCoe Idealize.ShloMosaic.ValueIdx
open Idealize.SL.Sem
open Cert.KernelIdeal Cert.KernelIdeal.Gen
open Cert.Shared (seluT collapseT traceT)

def tail (Vv : Valuation τ sig (Elt Ideal)) : Valuation τ sig (Elt Ideal) :=
  StableHlo.after hostOps2_5 (StableHlo.after hostOps2_4 (StableHlo.after hostOps2_3 (StableHlo.after hostOps2_2
    (StableHlo.after hostOps2_1 (StableHlo.after hostOps2 Vv)))))

variable (Vv : Valuation τ sig (Elt Ideal))

theorem two_word : Ideal.ofBits .f32 0x40000000#32 = (2 : EReal) := by
  rw [show (2 : EReal) = ((2 : ℝ) : EReal) by norm_cast]
  simp [Ideal.ofBits, Ideal.ieee, -EReal.coe_mul]; norm_num

/-- The sum over the leading axis of a rank-3 table, from zero. -/
theorem sum_parts {n0 n1 n2 : Nat} (h' : (⟨3, ![n0, n1, n2]⟩ : Shape).ReducesTo [0] ⟨2, ![n1, n2]⟩)
    (h : (⟨3, ![n0, n1, n2]⟩ : Shape).Reduces [0] ⟨2, ![n1, n2]⟩) (hu : 0 < S_.numel) (X : FVec Ideal ⟨3, ![n0, n1, n2]⟩ .f32) :
    Host.reduceAdd X (constant (F := Ideal) S_ .f32 0x00000000#32) h' hu = fun i => 0 + ∑ p : Fin n0, X (ix3 p (i 0) (i 1)) := by
  funext i
  rw [hostReduceAdd_apply, Ideal.hostReduceAdd_single h' h, constant_apply, Ideal.ofBits_zero_f32]
  congr 1
  refine Finset.sum_congr rfl fun p _ => congrArg X ?_
  funext c
  apply Fin.ext
  match c with
  | ⟨0, _⟩ => rfl
  | ⟨1, _⟩ => rfl
  | ⟨2, _⟩ => rfl

theorem sumsq_row (h' : S1x64.ReducesTo [0, 1] S_) (hu : 0 < S_.numel) (Z : FVec Ideal S1x64 .f32) (j : S_.Idx) :
    Host.reduceAdd (mulf Z Z) (constant (F := Ideal) S_ .f32 0x00000000#32) h' hu j
      = 0 + ∑ k : Fin 64, Z (ix2 (0 : Fin 1) k) * Z (ix2 (0 : Fin 1) k) := by
  rw [hostReduceAdd_apply, Ideal.hostReduceAdd_total h' (fun b => b.elim0), constant_apply, Ideal.ofBits_zero_f32, sum_idx2,
    Fin.sum_univ_one]
  rfl

theorem diag_bit (a b : Fin 64) :
    IntOp.cmpi .eq (IntOp.addi (BitVec.ofNat 32 a.val) 0#32) (BitVec.ofNat 32 b.val) = 1#1 ↔ a = b := by
  rw [StableHlo.Predicate.cmpi_eq_iff]
  show BitVec.ofNat 32 a.val + 0#32 = BitVec.ofNat 32 b.val ↔ _
  rw [BitVec.add_zero]
  constructor
  · intro h
    have h2 := congrArg BitVec.toNat h
    simp only [BitVec.toNat_ofNat] at h2
    apply Fin.ext
    have := a.isLt; have := b.isLt
    omega
  · rintro rfl; rfl

theorem traceT_apply (g : S64x64.Idx → EReal) : (traceT g) ix0 = 0 + Cert.Spec.tr (fun a b => g (ix2 a b)) := by
  unfold traceT
  dsimp only
  rw [hostReduceAdd_apply, Ideal.hostReduceAdd_total _ (fun b => b.elim0), constant_apply, Ideal.ofBits_zero_f32, sum_idx2]
  unfold Cert.Spec.tr
  congr 1
  refine Finset.sum_congr rfl fun a _ => Finset.sum_congr rfl fun b _ => ?_
  show Scalar.select (IntOp.cmpi .eq (IntOp.addi (BitVec.ofNat 32 a.val) 0#32) (BitVec.ofNat 32 b.val)) (g (ix2 a b))
    (Ideal.ofBits .f32 0x00000000#32) = _
  by_cases hab : a = b
  · rw [(diag_bit a b).2 hab, select_one, if_pos hab]
  · rw [eq_zero_of_ne_one (mt (diag_bit a b).1 hab), select_zero, if_neg hab, Ideal.ofBits_zero_f32]

theorem div_rows (h₁ : S64.BroadcastsInDim S64x1 ![0]) (h₂ : S64x1.BroadcastsInDim S64x128 ![0, 1])
    (A : FVec Ideal S64x128 .f32) (B : FVec Ideal S64 .f32) :
    Host.divf A (broadcastInDim S64x128 ![0, 1] h₂ (broadcastInDim S64x1 ![0] h₁ B))
      = fun i => Ideal.div (A i) (B (ix1 (i 0))) := by
  funext i
  rw [hostDivf_apply]
  congr 1
  have e := StableHlo.Predicate.bcast_rows h₁ h₂ B (i 0) (i 1)
  refine ((congrArg (broadcastInDim S64x128 ![0, 1] h₂ (broadcastInDim S64x1 ![0] h₁ B))
    (StableHlo.Predicate.ij_eta (n := 64) (m := 128) i)).symm.trans e).trans (congrArg B ?_)
  funext d
  match d with
  | ⟨0, _⟩ => rfl

abbrev part0 : FVec Ideal S2x64x64 .f32 := Vv main_v25_0
abbrev part1 : FVec Ideal S2x1x64 .f32 := Vv main_v25_1
abbrev mass5 : FVec Ideal S_ .f32 := Vv main_v5
abbrev size3 : FVec Ideal S64 .f32 := Vv main_v3
abbrev pool4 : FVec Ideal S64x128 .f32 := Vv main_v4

def g26 : S64x64.Idx → EReal := fun i => 0 + ∑ p : Fin 2, part0 Vv (ix3 p (i 0) (i 1))

def v27 : Fin 64 → EReal := fun k => 0 + ∑ p : Fin 2, part1 Vv (ix3 p (0 : Fin 1) k)

def spec35 (G : FVec Ideal S64x64 .f32) (Z : FVec Ideal S1x64 .f32) (M : FVec Ideal S_ .f32) : FVec Ideal S_ .f32 :=
  Host.divf (Host.negf (subf (traceT G)
      (Host.divf (Host.reduceAdd (mulf Z Z) (constant (F := Ideal) S_ .f32 0x00000000#32) (by decide : S1x64.ReducesTo [0, 1] S_) (by decide : 0 < S_.numel))
        (mulf (constant (F := Ideal) S_ .f32 0x40000000#32) M))))
    (mulf (constant (F := Ideal) S_ .f32 0x40000000#32) M)

theorem spec35_apply (G : FVec Ideal S64x64 .f32) (Z : FVec Ideal S1x64 .f32) (M : FVec Ideal S_ .f32) :
    spec35 G Z M = fun _ => Ideal.div (-((traceT G) ix0
      - Ideal.div (0 + ∑ k : Fin 64, Z (ix2 (0 : Fin 1) k) * Z (ix2 (0 : Fin 1) k)) (2 * M ix0))) (2 * M ix0) := by
  funext j
  obtain rfl : j = ix0 := eq_ix0 j
  show Ideal.div (-((traceT G) ix0 - Ideal.div (Host.reduceAdd (mulf Z Z) (constant (F := Ideal) S_ .f32 0x00000000#32) _ _ ix0)
    (Ideal.ofBits .f32 0x40000000#32 * M ix0))) (Ideal.ofBits .f32 0x40000000#32 * M ix0) = _
  rw [two_word, sumsq_row]

theorem out35_raw : (tail Vv main_v35 : S_.Idx → EReal)
    = spec35 (Host.reduceAdd (part0 Vv) (constant (F := Ideal) S_ .f32 0x00000000#32) (by decide : S2x64x64.ReducesTo [0] S64x64) (by decide : 0 < S_.numel))
        (Host.reduceAdd (part1 Vv) (constant (F := Ideal) S_ .f32 0x00000000#32) (by decide : S2x1x64.ReducesTo [0] S1x64) (by decide : 0 < S_.numel))
        (mass5 Vv) := by
  unfold tail
  dsimp only [hostOps2, hostOps2_1, hostOps2_2, hostOps2_3, hostOps2_4, hostOps2_5]
  after_results_simp
  rfl

theorem out35 : (tail Vv main_v35 : S_.Idx → EReal) = fun _ => Ideal.div (-((traceT (g26 Vv)) ix0
      - Ideal.div (0 + ∑ k : Fin 64, v27 Vv k * v27 Vv k) (2 * mass5 Vv ix0))) (2 * mass5 Vv ix0) := by
  rw [out35_raw, sum_parts (n1 := 64) (n2 := 64) _ (by decide), sum_parts (n1 := 1) (n2 := 64) _ (by decide), spec35_apply]
  rfl

theorem out41 : (tail Vv main_v41 : S_.Idx → EReal) = collapseT (size3 Vv) := by
  unfold tail
  dsimp only [hostOps2, hostOps2_1, hostOps2_2, hostOps2_3, hostOps2_4, hostOps2_5]
  after_results_simp
  rfl

theorem out45 : (tail Vv main_v45 : S64x128.Idx → EReal)
    = seluT (fun i => Ideal.div (pool4 Vv i) (size3 Vv (ix1 (i 0)))) := by
  refine Eq.trans ?_ (congrArg seluT (div_rows (by decide) (by decide) (pool4 Vv) (size3 Vv)))
  unfold tail
  dsimp only [hostOps2, hostOps2_1, hostOps2_2, hostOps2_3, hostOps2_4, hostOps2_5]
  after_results_simp
  rfl

end Cert.KernelIdeal.HostVal

end
-- ==== Proof.KI.Payloads.lean ====
import proofs.«403249_j11562051960853_3_alg».proof.Proof.Gen.KernelIdeal.Skeleton
import proofs.«403249_j11562051960853_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Idealize.ShloMosaic Idealize.ShloMosaic.ValueIdx Idealize.SL.Sem
open Cert.KernelIdeal Cert.KernelIdeal.Gen

theorem pay4_apply (i : S1x64.Idx) : k0_pay4 (F := Ideal) i = 0 := by
  unfold k0_pay4
  rw [shapeCast_self]
  exact Ideal.ofBits_zero_f32

theorem pay5_apply (i : S64x128.Idx) : k0_pay5 (F := Ideal) i = 0 := by
  unfold k0_pay5
  rw [shapeCast_self]
  exact Ideal.ofBits_zero_f32

theorem pay2_apply (v : Vec Ideal S1x64 .f32) (k : Fin 64) :
    k0_pay2 (F := Ideal) v (ix3 (0 : Fin 1) (0 : Fin 1) k) = v (ix2 0 k) :=
  shapeCast_ab_1ab_apply v _ 0 0 k

theorem pay3_apply (v : Vec Ideal S64x128 .f32) (k : Fin 64) (d : Fin 128) :
    k0_pay3 (F := Ideal) v (ix3 (0 : Fin 1) k d) = v (ix2 k d) :=
  shapeCast_ab_1ab_apply v _ 0 k d

theorem k1_pay1_apply (i : S64x64.Idx) : k1_pay1 (F := Ideal) i = 0 := by
  unfold k1_pay1
  rw [shapeCast_self]
  exact Ideal.ofBits_zero_f32

theorem k1_pay2_apply (i : S1x64.Idx) : k1_pay2 (F := Ideal) i = 0 := by
  unfold k1_pay2
  rw [shapeCast_self]
  exact Ideal.ofBits_zero_f32

theorem k1_pay6_apply (v : Vec Ideal S64x64 .f32) (a b : Fin 64) :
    k1_pay6 (F := Ideal) v (ix3 (0 : Fin 1) a b) = v (ix2 a b) :=
  shapeCast_ab_1ab_apply v _ 0 a b

theorem k1_pay7_apply (v : Vec Ideal S1x64 .f32) (k : Fin 64) :
    k1_pay7 (F := Ideal) v (ix3 (0 : Fin 1) (0 : Fin 1) k) = v (ix2 0 k) :=
  shapeCast_ab_1ab_apply v _ 0 0 k

/-- Two indices of a rank-2 shape with equal coordinates are equal. -/
theorem idx2_ext {a b : ℕ} {i j : (⟨2, ![a, b]⟩ : Shape).Idx} (h0 : (i 0 : ℕ) = j 0) (h1 : (i 1 : ℕ) = j 1) : i = j :=
  funext fun ax => Fin.ext (match ax with | ⟨0, _⟩ => h0 | ⟨1, _⟩ => h1)

section Layout
variable {α : Type}

/-- A vector cast to a column and repeated along b columns reads, at (p, c), the vector at p. -/
theorem spread_col_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) := by
  refine (broadcastTo_apply _ h' (ix2 p c) (ix2 p (0 : Fin 1)) fun ax => ?_).trans (shapeCast_apply x h _ _ ?_)
  · match ax with
    | ⟨0, _⟩ =>
      show p.val = if a = 1 then 0 else p.val
      split
      · have := p.isLt; omega
      · rfl
    | ⟨1, _⟩ => rfl
  · rw [Shape.rowMajor_val_two, Shape.rowMajor_val_one]
    show p.val = p.val * 1 + 0
    omega

end Layout

/-- A product accumulated from zero that contracts one axis of extent n is the sum over that axis's coordinate. -/
theorem mm_apply {sl sr so : Shape} (D : DotDims sl sr so) (n : ℕ) (hr : D.contr.rank = 1) (hs : D.contr.size ⟨0, by omega⟩ = n)
    (lb : FVec Ideal sl .bf16) (rb : FVec Ideal sr .bf16) (j : so.Idx) (li : Fin n → sl.Idx) (ri : Fin n → sr.Idx)
    (hl : ∀ c, D.lhsIdx j c = li (contrEquiv1 D n hr hs c)) (hri : ∀ c, D.rhsIdx j c = ri (contrEquiv1 D n hr hs c)) :
    matmul (F := Ideal) D none lb rb (constant (F := Ideal) so .f32 0x00000000#32) j = ∑ c : Fin n, lb (li c) * rb (ri c) :=
  (Ideal.matmul_constant_zero_apply D none lb rb j).trans
    ((Finset.sum_congr rfl fun c _ => by rw [hl, hri]).trans (Equiv.sum_comp (contrEquiv1 D n hr hs) fun c => lb (li c) * rb (ri c)))

theorem mmL_apply (xb : FVec Ideal S10000x128 .bf16) (wb : FVec Ideal S64x128 .bf16) (r : Fin 10000) (k : Fin 64) :
    matmul (F := Ideal) dot_S10000x128_S64x128_S10000x64_1_1_0_0_n_n none xb wb (constant (F := Ideal) S10000x64 .f32 0x00000000#32) (ix2 r k)
      = ∑ d : Fin 128, xb (ix2 r d) * wb (ix2 k d) :=
  mm_apply _ 128 rfl rfl xb wb _ (ix2 r) (ix2 k)
    (fun _ => idx2_ext (by simp [DotDims.lhsIdx, dot_S10000x128_S64x128_S10000x64_1_1_0_0_n_n]; rfl)
      (by simp [DotDims.lhsIdx, dot_S10000x128_S64x128_S10000x64_1_1_0_0_n_n]; rfl))
    (fun _ => idx2_ext (by simp [DotDims.rhsIdx, dot_S10000x128_S64x128_S10000x64_1_1_0_0_n_n]; rfl)
      (by simp [DotDims.rhsIdx, dot_S10000x128_S64x128_S10000x64_1_1_0_0_n_n]; rfl))

theorem ofBits_neg_inf_f32 : Ideal.ofBits .f32 0xFF800000#32 = ⊥ := by simp [Ideal.ofBits, Ideal.ieee]

theorem rowmax_apply (src : FVec Ideal S10000x64 .f32) (hφ : FKind.Formats .f32)
    (hacc : (0xFF800000#32 : BitVec 32) = FKind.maximumf.neutral .f32 hφ) (r : Fin 10000) :
    multiReduction (F := Ideal) .maximumf [1] S10000 src 0xFF800000#32 reduces_S10000x64_S10000 hφ hacc (ix1 r)
      = (Finset.univ : Finset (Fin 64)).fold max ⊥ (fun k => src (ix2 r k)) := by
  refine (Ideal.multiReduction_maximumf_single src _ _ hφ hacc (ix1 r)).trans ?_
  have hb : (FloatOps.ofBits .f32 0xFF800000#32 : Ideal .f32) = ⊥ := ofBits_neg_inf_f32
  have hf : (src ∘ reduces_S10000x64_S10000.lift (ix1 r)) = fun k : Fin 64 => src (ix2 r k) := by
    funext k
    exact congrArg src (idx2_ext rfl rfl)
  rw [hb, hf]
  rfl

theorem rowsum_apply (src : FVec Ideal S10000x64 .f32) (hφ : FKind.Formats .f32)
    (hacc : (0x00000000#32 : BitVec 32) = FKind.add.neutral .f32 hφ) (r : Fin 10000) :
    multiReduction (F := Ideal) .add [1] S10000 src 0x00000000#32 reduces_S10000x64_S10000 hφ hacc (ix1 r)
      = ∑ k : Fin 64, src (ix2 r k) := by
  refine (Ideal.multiReduction_add_single src _ _ hφ hacc (ix1 r)).trans ?_
  exact Finset.sum_congr rfl fun k _ => congrArg src (idx2_ext rfl rfl)

/-- A column's sum over the rows of a block. -/
theorem colsum_apply {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = FKind.add.neutral .f32 hφ) (k : Fin b) :
    multiReduction (F := Ideal) .add [0] ⟨1, ![b]⟩ src 0x00000000#32 h hφ hacc (ix1 k) = ∑ r : Fin a, src (ix2 r k) := by
  refine (Ideal.multiReduction_add_single src _ _ hφ hacc (ix1 k)).trans ?_
  exact Finset.sum_congr rfl fun r _ => congrArg src (idx2_ext rfl rfl)

section Softmax
variable (x : Vec Ideal S10000x128 .f32) (w : Vec Ideal S64x128 .f32) (b : Vec Ideal S1x64 .f32)

def logits : FVec Ideal S10000x64 .f32 :=
  addf (matmul dot_S10000x128_S64x128_S10000x64_1_1_0_0_n_n none (k0_pay6 x) (truncf .bf16 w bitsLt_bf16_f32)
      (constant S10000x64 .f32 0x00000000#32))
    (broadcastTo S10000x64 (shapeCast S1x64 b shapeCasts_S1x64_S1x64) broadcasts_S1x64_S10000x64)

theorem logits_apply (r : Fin 10000) (k : Fin 64) :
    logits x w b (ix2 r k)
      = Cert.Spec.logit (fun r d => x (ix2 r d)) (fun k d => w (ix2 k d)) (fun k => b (ix2 (0 : Fin 1) k)) r k := by
  unfold logits Cert.Spec.logit
  rw [addf_apply, mmL_apply, broadcastTo_1b_ab_apply, shapeCast_self]
  rfl

def rowMax : FVec Ideal S10000x64 .f32 :=
  broadcastTo S10000x64
    (shapeCast S10000x1
      (multiReduction .maximumf [1] S10000 (logits x w b) 0xFF800000#32 reduces_S10000x64_S10000 (.inl rfl) rfl)
      shapeCasts_S10000_S10000x1)
    broadcasts_S10000x1_S10000x64

theorem rowMax_apply (r : Fin 10000) (k : Fin 64) :
    rowMax x w b (ix2 r k)
      = Cert.Spec.rmax (fun r d => x (ix2 r d)) (fun k d => w (ix2 k d)) (fun k => b (ix2 (0 : Fin 1) k)) r := by
  unfold rowMax
  rw [spread_col_apply]
  refine (rowmax_apply (logits x w b) _ _ r).trans ?_
  unfold Cert.Spec.rmax
  simp only [logits_apply]

def expo : FVec Ideal S10000x64 .f32 := exp (subf (logits x w b) (rowMax x w b))

theorem expo_apply (r : Fin 10000) (k : Fin 64) :
    expo x w b (ix2 r k)
      = Cert.Spec.ex (fun r d => x (ix2 r d)) (fun k d => w (ix2 k d)) (fun k => b (ix2 (0 : Fin 1) k)) r k := by
  show Ideal.exp (logits x w b (ix2 r k) - rowMax x w b (ix2 r k)) = _
  rw [logits_apply, rowMax_apply]
  rfl

def rowDen : FVec Ideal S10000x64 .f32 :=
  broadcastTo S10000x64
    (shapeCast S10000x1
      (multiReduction .add [1] S10000 (expo x w b) 0x00000000#32 reduces_S10000x64_S10000 (.inl rfl) rfl)
      shapeCasts_S10000_S10000x1)
    broadcasts_S10000x1_S10000x64

theorem rowDen_apply (r : Fin 10000) (k : Fin 64) :
    rowDen x w b (ix2 r k)
      = Cert.Spec.den (fun r d => x (ix2 r d)) (fun k d => w (ix2 k d)) (fun k => b (ix2 (0 : Fin 1) k)) r := by
  unfold rowDen
  rw [spread_col_apply]
  refine (rowsum_apply (expo x w b) _ _ r).trans ?_
  unfold Cert.Spec.den
  simp only [expo_apply]

theorem pay7_apply (r : Fin 10000) (k : Fin 64) :
    k0_pay7 (F := Ideal) x w b (ix2 r k)
      = Cert.Spec.S (fun r d => x (ix2 r d)) (fun k d => w (ix2 k d)) (fun k => b (ix2 (0 : Fin 1) k)) r k := by
  show Ideal.div (expo x w b (ix2 r k)) (rowDen x w b (ix2 r k)) = _
  rw [expo_apply, rowDen_apply]
  rfl

end Softmax

section Accumulate
variable (x : Vec Ideal S10000x128 .f32) (w : Vec Ideal S64x128 .f32) (b : Vec Ideal S1x64 .f32)

theorem pay9_apply (s : Vec Ideal S1x64 .f32) (k : Fin 64) :
    k0_pay9 (F := Ideal) x w b s (ix2 (0 : Fin 1) k)
      = s (ix2 0 k) + ∑ r : Fin 10000, k0_pay7 (F := Ideal) x w b (ix2 r k) := by
  unfold k0_pay9
  rw [shapeCast_self, addf_apply, shapeCast_a_1a_apply]
  exact congrArg (s (ix2 0 k) + ·) (colsum_apply (k0_pay7 (F := Ideal) x w b) _ _ _ k)

end Accumulate

theorem mmP_apply (lb : FVec Ideal S10000x64 .bf16) (rb : FVec Ideal S10000x128 .bf16) (k : Fin 64) (d : Fin 128) :
    matmul (F := Ideal) dot_S10000x64_S10000x128_S64x128_0_0_1_1_n_n none lb rb (constant (F := Ideal) S64x128 .f32 0x00000000#32) (ix2 k d)
      = ∑ r : Fin 10000, lb (ix2 r k) * rb (ix2 r d) :=
  mm_apply _ 10000 rfl rfl lb rb _ (ix2 · k) (ix2 · d)
    (fun _ => idx2_ext (by simp [DotDims.lhsIdx, dot_S10000x64_S10000x128_S64x128_0_0_1_1_n_n]; rfl)
      (by simp [DotDims.lhsIdx, dot_S10000x64_S10000x128_S64x128_0_0_1_1_n_n]; rfl))
    (fun _ => idx2_ext (by simp [DotDims.rhsIdx, dot_S10000x64_S10000x128_S64x128_0_0_1_1_n_n]; rfl)
      (by simp [DotDims.rhsIdx, dot_S10000x64_S10000x128_S64x128_0_0_1_1_n_n]; rfl))

theorem pay1_apply (x : Vec Ideal S10000x128 .f32) (w : Vec Ideal S64x128 .f32) (b : Vec Ideal S1x64 .f32)
    (acc : Vec Ideal S64x128 .f32) (k : Fin 64) (d : Fin 128) :
    k0_pay1 (F := Ideal) (k0_pay6 x) (k0_pay8 x w b) acc (ix2 k d)
      = acc (ix2 k d) + ∑ r : Fin 10000, k0_pay7 (F := Ideal) x w b (ix2 r k) * x (ix2 r d) := by
  unfold k0_pay1
  rw [shapeCast_self, addf_apply, mmP_apply]
  rfl

theorem mmE_apply (lb : FVec Ideal S32000x64 .bf16) (rb : FVec Ideal S32000x64 .bf16) (a : Fin 64) (b : Fin 64) :
    matmul (F := Ideal) dot_S32000x64_S32000x64_S64x64_0_0_1_1_n_n none lb rb (constant (F := Ideal) S64x64 .f32 0x00000000#32) (ix2 a b)
      = ∑ r : Fin 32000, lb (ix2 r a) * rb (ix2 r b) :=
  mm_apply _ 32000 rfl rfl lb rb _ (ix2 · a) (ix2 · b)
    (fun _ => idx2_ext (by simp [DotDims.lhsIdx, dot_S32000x64_S32000x64_S64x64_0_0_1_1_n_n]; rfl)
      (by simp [DotDims.lhsIdx, dot_S32000x64_S32000x64_S64x64_0_0_1_1_n_n]; rfl))
    (fun _ => idx2_ext (by simp [DotDims.rhsIdx, dot_S32000x64_S32000x64_S64x64_0_0_1_1_n_n]; rfl)
      (by simp [DotDims.rhsIdx, dot_S32000x64_S32000x64_S64x64_0_0_1_1_n_n]; rfl))

theorem k1_pay4_apply (pc gr : Vec Ideal S32000x64 .bf16) (acc : Vec Ideal S64x64 .f32) (a b : Fin 64) :
    k1_pay4 (F := Ideal) pc gr acc (ix2 a b) = acc (ix2 a b) + ∑ r : Fin 32000, pc (ix2 r a) * gr (ix2 r b) := by
  unfold k1_pay4 k1_pay3
  simp only [shapeCast_self]
  rw [addf_apply, mmE_apply]

theorem k1_pay5_apply (pc : Vec Ideal S32000x64 .bf16) (acc : Vec Ideal S1x64 .f32) (k : Fin 64) :
    k1_pay5 (F := Ideal) pc acc (ix2 (0 : Fin 1) k) = acc (ix2 0 k) + ∑ r : Fin 32000, pc (ix2 r k) := by
  unfold k1_pay5 k1_pay3
  simp only [shapeCast_self]
  rw [addf_apply, shapeCast_a_1a_apply]
  exact congrArg (acc (ix2 0 k) + ·) (colsum_apply (extf .f32 pc bitsLt_bf16_f32) _ _ _ k)

end Cert.KernelIdeal.Pay

end
-- ==== Proof.KI.R0Blocks.lean ====
import proofs.«403249_j11562051960853_3_alg».proof.Proof.KI.R0Base
import proofs.«403249_j11562051960853_3_alg».proof.Proof.Spec
import Idealize.ShloMosaic.Lib.ValueIdx
import Idealize.ShloMosaic.Lib.Pipeline.Value

set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx

-- A quantity reset to its addend at the first of every J points and raised by its addend at the others is the sum of its run's addends so far.
theorem run_sum {N J : ℕ} {ι : Type} (f : (n : ℕ) → n < N → ι → EReal) (M : ℕ → ι → EReal)
    (h0 : ∀ n h i, n % J = 0 → f n h i = M n i)
    (hs : ∀ n (h : n + 1 < N) i, ¬(n + 1) % J = 0 → f (n + 1) h i = f n (Nat.lt_of_succ_lt h) i + M (n + 1) i)
    (q j : ℕ) (hj : j < J) (h : J * q + j < N) (i : ι) :
    f (J * q + j) h i = ∑ s ∈ Finset.range (j + 1), M (J * q + s) i := by
  rw [Pipeline.eq_accAt f J (fun n _ => M n) (fun n _ acc i => acc i + M n i) (fun n h hn => funext fun i => h0 n h i hn)
    (fun n h hn => funext fun i => hs n h i hn) q j hj h,
    Pipeline.accAt_add_apply _ _ 0 M (J * q) j (fun _ _ => (zero_add _).symm) (fun _ _ _ _ _ _ => rfl) j le_rfl h i]
  exact zero_add _

variable (V : (c : Dev nD) → (b : Ref sig .tc) → Buf (Elt Idealize.ShloMosaic.Ideal) ((c : Thread nD τ).loc b))

abbrev arrX (c : Dev nD) : S100000x128.Idx → EReal := V c main_arg0
abbrev arrW (c : Dev nD) : S64x128.Idx → EReal := V c main_arg1
abbrev arrB (c : Dev nD) : S1x64.Idx → EReal := V c main_v0

abbrev blkX (c : Dev nD) (t : Fin cfg0.N) : S10000x128.Idx → EReal := iblk0 V c 0 t
abbrev blkW (c : Dev nD) (t : Fin cfg0.N) : S64x128.Idx → EReal := iblk0 V c 1 t
abbrev blkB (c : Dev nD) (t : Fin cfg0.N) : S1x64.Idx → EReal := iblk0 V c 2 t

theorem idx0_in : ∀ t : Fin cfg0.N, win0_0.index t (0 : Fin 2) = t.val ∧ win0_0.index t (1 : Fin 2) = 0
    ∧ ∀ a : Fin 2, win0_1.index t a = 0 ∧ win0_2.index t a = 0 :=
  (by decide +kernel : ∀ t : Fin grid0.N, _)

theorem idx0_out : ∀ t : Fin cfg0.N, win0_3.index t (0 : Fin 2) = t.val ∧ win0_3.index t (1 : Fin 2) = 0
    ∧ win0_4.index t (0 : Fin 2) = t.val ∧ win0_4.index t (1 : Fin 2) = 0
    ∧ win0_5.index t (0 : Fin 3) = t.val / 5 ∧ win0_5.index t (1 : Fin 3) = 0 ∧ win0_5.index t (2 : Fin 3) = 0
    ∧ win0_6.index t (0 : Fin 3) = t.val / 5 ∧ win0_6.index t (1 : Fin 3) = 0 ∧ win0_6.index t (2 : Fin 3) = 0 :=
  (by decide +kernel : ∀ t : Fin grid0.N, _)

theorem row0_lt (t : Fin cfg0.N) (r : Fin 10000) : 10000 * t.val + r.val < 100000 := by
  have := t.isLt; have : cfg0.N = 10 := N_0; have := r.isLt; omega

theorem blk0_0 (c : Dev nD) (t : Fin cfg0.N) (r : Fin 10000) (d : Fin 128) :
    blkX V c t (ix2 r d) = arrX V c (ix2 ⟨10000 * t.val + r.val, row0_lt t r⟩ d) := by
  show V c main_arg0 (((cfg0.win 0).blk t).view.emb (ix2 r d)) = V c main_arg0 _
  congr 1
  funext a; apply Fin.ext
  obtain ⟨e0, e1, -⟩ := idx0_in t
  match a with
  | ⟨0, _⟩ => show win0_0.index t (0 : Fin 2) * 10000 + 1 * r.val = 10000 * t.val + r.val; omega
  | ⟨1, _⟩ => show win0_0.index t (1 : Fin 2) * 128 + 1 * d.val = d.val; omega

theorem blk0_1 (c : Dev nD) (t : Fin cfg0.N) : blkW V c t = arrW V c :=
  funext fun j => congrArg (V c main_arg1) (funext fun a => Fin.ext (win0_1.rect_emb_val_of_index_zero t a ((idx0_in t).2.2 a).1 j))

theorem blk0_2 (c : Dev nD) (t : Fin cfg0.N) : blkB V c t = arrB V c :=
  funext fun j => congrArg (V c main_v0) (funext fun a => Fin.ext (win0_2.rect_emb_val_of_index_zero t a ((idx0_in t).2.2 a).2 j))

end Cert.KernelIdeal.Val

namespace Cert.Spec

theorem S_row {N N' D K : ℕ} (X : Fin N → Fin D → EReal) (X' : Fin N' → Fin D → EReal) (W : Fin K → Fin D → EReal)
    (B : Fin K → EReal) (n : Fin N) (n' : Fin N') (h : ∀ d, X n d = X' n' d) (k : Fin K) :
    S X W B n k = S X' W B n' k := by
  have hl : ∀ j, logit X W B n j = logit X' W B n' j := fun j => by simp only [logit, h]
  have hm : rmax X W B n = rmax X' W B n' := by simp only [rmax, hl]
  have he : ∀ j, ex X W B n j = ex X' W B n' j := fun j => by simp only [ex, hl, hm]
  have hd : den X W B n = den X' W B n' := by simp only [den, he]
  simp only [S, he, hd]

end Cert.Spec

end
-- ==== Proof.KI.R0ValA.lean ====
import proofs.«403249_j11562051960853_3_alg».proof.Proof.KI.R0
import proofs.«403249_j11562051960853_3_alg».proof.Proof.KI.Payloads
import proofs.«403249_j11562051960853_3_alg».proof.Proof.KI.R0Blocks
import Idealize.ShloMosaic.Lib.ValueIdx
import Idealize.ShloMosaic.Lib.Pipeline.Value

set_option maxRecDepth 16384

noncomputable section

open scoped BigOperators

namespace Cert.KernelIdeal.Val

open Cert.KernelIdeal Cert.KernelIdeal.Gen Cert.KernelIdeal.Hand Cert.KernelIdeal.Pay
open Idealize.ShloMosaic Idealize.ShloMosaic.TcCoe Idealize.ShloMosaic.ValueIdx Idealize.SL.Sem
open Idealize.ShloMosaic.Pipeline (Dat)

theorem hzA2 : (![0, 0] : Fin 2 → Nat) = fun _ => 0 := funext fun a => by fin_cases a <;> rfl

variable (V : (c : Dev nD) → (b : Ref sig .tc) → Buf (Elt Ideal) ((c : Thread nD τ).loc b)) (c : Dev nD)

-- Whatever the control case, output 3's block ends at the assignments of the point's three input blocks and output 4's at their narrower copy.
theorem outs34_eq (t : Fin cfg0.N) :
    (outsAt0 V c t.val t.isLt).1 = k0_pay7 (iblk0 V c 0 t) (iblk0 V c 1 t) (iblk0 V c 2 t)
      ∧ (outsAt0 V c t.val t.isLt).2.1 = k0_pay8 (iblk0 V c 0 t) (iblk0 V c 1 t) (iblk0 V c 2 t) := by
  by_cases h0 : t.val % 5 = 0
  · rw [outsAt0_A V c t h0 (by omega)]
    unfold caseA0 readBack0
    dsimp only
    rw [View.read_writes_eq_canon _ _ _ fun y => cover0_A_3 (F := Ideal) (y := y) ..,
      View.read_writes_eq_canon _ _ _ fun y => cover0_A_4 (F := Ideal) (y := y) ..]
    unfold kernelRun0_A
    dsimp only
    rw [View.canon_unit_zero hzA2, View.canon_unit_zero hzA2]
    simp only [View.readAt_eq_ld, (hs0_0 t).read_unread, (hs0_1 t).read_unread, (hs0_2 t).read_unread,
      View.ld_unit_zero (S := S10000x128) hzA2, View.ld_unit_zero (S := S64x128) hzA2, View.ld_unit_zero (S := S1x64) hzA2]
    exact ⟨trivial, trivial⟩
  · by_cases h1 : t.val % 5 = 4
    · rw [outsAt0_C V c t h0 h1]
      unfold caseC0 readBack0
      dsimp only
      rw [View.read_writes_eq_canon _ _ _ fun y => cover0_C_3 (F := Ideal) (y := y) ..,
        View.read_writes_eq_canon _ _ _ fun y => cover0_C_4 (F := Ideal) (y := y) ..]
      unfold kernelRun0_C
      dsimp only
      rw [View.canon_unit_zero hzA2, View.canon_unit_zero hzA2]
      simp only [View.readAt_eq_ld, (hs0_0 t).read_unread, (hs0_1 t).read_unread, (hs0_2 t).read_unread,
        View.ld_unit_zero (S := S10000x128) hzA2, View.ld_unit_zero (S := S64x128) hzA2, View.ld_unit_zero (S := S1x64) hzA2]
      exact ⟨trivial, trivial⟩
    · rw [outsAt0_B V c t h0 h1]
      unfold caseB0 readBack0
      dsimp only
      rw [View.read_writes_eq_canon _ _ _ fun y => cover0_B_3 (F := Ideal) (y := y) ..,
        View.read_writes_eq_canon _ _ _ fun y => cover0_B_4 (F := Ideal) (y := y) ..]
      unfold kernelRun0_B
      dsimp only
      rw [View.canon_unit_zero hzA2, View.canon_unit_zero hzA2]
      simp only [View.readAt_eq_ld, (hs0_0 t).read_unread, (hs0_1 t).read_unread, (hs0_2 t).read_unread,
        View.ld_unit_zero (S := S10000x128) hzA2, View.ld_unit_zero (S := S64x128) hzA2, View.ld_unit_zero (S := S1x64) hzA2]
      exact ⟨trivial, trivial⟩

abbrev Sarr : Fin 100000 → Fin 64 → EReal :=
  Cert.Spec.S (fun n d => (@id (S100000x128.Idx → EReal) (V c main_arg0)) (ix2 n d))
    (fun k d => (@id (S64x128.Idx → EReal) (V c main_arg1)) (ix2 k d))
    (fun k => (@id (S1x64.Idx → EReal) (V c main_v0)) (ix2 (0 : Fin 1) k))

-- A softmax row reads only its own node's features, and point t's feature block is rows 10000 t … of the table.
theorem pay7_at (t : Fin cfg0.N) (j : S10000x64.Idx) (I : S100000x64.Idx)
    (e0 : (I 0).val = 10000 * t.val + (j 0).val) (e1 : (I 1).val = (j 1).val) :
    k0_pay7 (F := Ideal) (iblk0 V c 0 t) (iblk0 V c 1 t) (iblk0 V c 2 t) j = Sarr V c (I 0) (I 1) := by
  obtain ⟨r, k, rfl⟩ : ∃ (r : Fin 10000) (k : Fin 64), j = ix2 r k := ⟨j 0, j 1, eq_ix2 j⟩
  rw [show I 0 = ⟨10000 * t.val + r.val, row0_lt t r⟩ from Fin.ext e0, show I 1 = k from Fin.ext e1]
  refine (pay7_apply (blkX V c t) (blkW V c t) (blkB V c t) r k).trans ?_
  rw [blk0_1, blk0_2]
  exact Cert.Spec.S_row _ _ _ _ r ⟨10000 * t.val + r.val, row0_lt t r⟩ (fun d => blk0_0 V c t r d) k

theorem flushed3_eq (t : Fin cfg0.N) :
    (dat0 V c).flushed 3 t = ((cfg0.win 3).blk t).view.read (Elt Ideal) (fun i => Sarr V c (i 0) (i 1)) := by
  show (cfg0.win 3).cut (grid0.coords t) ((dat0 V c).after 3 t) = _
  rw [after0_3, (outs34_eq V c t).1]
  obtain ⟨e0, e1, -⟩ := idx0_out t
  funext j
  rw [View.read_apply]
  exact pay7_at V c t j _ (by show win0_3.index t (0 : Fin 2) * 10000 + 1 * (j 0).val = _; omega)
    (by show win0_3.index t (1 : Fin 2) * 64 + 1 * (j 1).val = _; omega)

theorem cover3 (i : S100000x64.Idx) :
    ∃ t : Fin cfg0.N, (cfg0.win 3).flush t = true ∧ i ∈ ((cfg0.win 3).blk t).view.set := by
  have hN : cfg0.N = 10 := N_0
  have hi0 : (i 0).val < 100000 := (i 0).isLt
  have hi1 : (i 1).val < 64 := (i 1).isLt
  obtain ⟨t, ht⟩ : ∃ t : Fin cfg0.N, t.val = (i 0).val / 10000 := ⟨⟨(i 0).val / 10000, by omega⟩, rfl⟩
  obtain ⟨e0, e1, -⟩ := idx0_out t
  refine ⟨t, flush0_3 t, ?_⟩
  show i ∈ ((View.whole main_v1_0).slice (win0_3.rect t)).set
  rw [View.set_slice_whole, Rect.mem_set_unit]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 64 ≤ (i 1).val ∧ (i 1).val < win0_3.index t (1 : Fin 2) * 64 + 64; omega

theorem arr0_3 : @id (S100000x64.Idx → EReal) ((dat0 V c).arrAt 3 cfg0.N) = fun i => (Cert.Spec.S (fun n d => (@id (S100000x128.Idx → EReal) (V c main_arg0)) (ix2 n d)) (fun k d => (@id (S64x128.Idx → EReal) (V c main_arg1)) (ix2 k d)) (fun k => (@id (S1x64.Idx → EReal) (V c main_v0)) (ix2 (0 : Fin 1) k))) (i 0) (i 1) :=
  (dat0 V c).arrAt_eq_of_cover 3 (fun i => Sarr V c (i 0) (i 1)) (fun t _ => flushed3_eq V c t) cover3

theorem flushed4_eq (t : Fin cfg0.N) :
    (dat0 V c).flushed 4 t = ((cfg0.win 4).blk t).view.read (Elt Ideal) (fun i => Sarr V c (i 0) (i 1)) := by
  show (cfg0.win 4).cut (grid0.coords t) ((dat0 V c).after 4 t) = _
  rw [after0_4, (outs34_eq V c t).2]
  obtain ⟨-, -, e0, e1, -⟩ := idx0_out t
  funext j
  rw [View.read_apply]
  exact pay7_at V c t j _ (by show win0_4.index t (0 : Fin 2) * 10000 + 1 * (j 0).val = _; omega)
    (by show win0_4.index t (1 : Fin 2) * 64 + 1 * (j 1).val = _; omega)

theorem cover4 (i : S100000x64.Idx) :
    ∃ t : Fin cfg0.N, (cfg0.win 4).flush t = true ∧ i ∈ ((cfg0.win 4).blk t).view.set :=
  (cover3 i).imp fun t h => ⟨flush0_4 t, h.2⟩

theorem arr0_4 : @id (S100000x64.Idx → EReal) ((dat0 V c).arrAt 4 cfg0.N) = fun i => (Cert.Spec.S (fun n d => (@id (S100000x128.Idx → EReal) (V c main_arg0)) (ix2 n d)) (fun k d => (@id (S64x128.Idx → EReal) (V c main_arg1)) (ix2 k d)) (fun k => (@id (S1x64.Idx → EReal) (V c main_v0)) (ix2 (0 : Fin 1) k))) (i 0) (i 1) :=
  (dat0 V c).arrAt_eq_of_cover 4 (fun i => Sarr V c (i 0) (i 1)) (fun t _ => flushed4_eq V c t) cover4

end Cert.KernelIdeal.Val

end
-- ==== Proof.KI.R0Pieces.lean ====
import proofs.«403249_j11562051960853_3_alg».proof.Proof.KI.R0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hzR0_2 : (![0, 0] : Fin 2 → Nat) = fun _ => 0 := funext fun a => by fin_cases a <;> rfl
theorem hzR0_3 : (![0, 0, 0] : Fin 3 → Nat) = fun _ => 0 := funext fun a => by fin_cases a <;> rfl

section
variable (c : Dev nD) (i : grid0.Coords) (arg2 : Memref sig .tc .vmem S10000x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x64x128 .f32) (harg8 : arg8.IsWhole) (arg9 : Memref sig .tc .vmem S1x64 .f32) (harg9 : arg9.IsWhole) (arg10 : Memref sig .tc .vmem S64x128 .f32) (harg10 : arg10.IsWhole)

section
variable (hc0 : cond0_0 i) (hc1 : ¬cond0_1 i) (x0 : Vec F S10000x128 .f32) (x1 : Vec F S64x128 .f32) (x2 : Vec F S1x64 .f32)

theorem sout0_A_0_eq :
    VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2).2.2.2.2.1) = k0_pay9 x0 x1 x2 (k0_pay4 (F := F)) := by
  rw [View.read_writes_eq_canon _ _ _ (scover0_A_0 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S1x64) hzR0_2, View.readCov_unit_zero (S := S1x64) _ hzR0_2]
  simp only [View.readAt_eq_ld, harg2.read_unread, harg3.read_unread, harg4.read_unread, harg9.read_unread, harg10.read_unread, View.ld_unit_zero (S := S10000x128) hzR0_2, View.ld_unit_zero (S := S64x128) hzR0_2, View.ld_unit_zero (S := S1x64) hzR0_2]

theorem sout0_A_1_eq :
    VS0_1.read (Elt F) (VS0_1.writes (Elt F) VS0_1.junk (kernelRun0_A c i arg2 harg2 arg3 harg3 arg4 harg4 arg5 harg5 arg6 harg6 arg7 harg7 arg8 harg8 arg9 harg9 arg10 harg10 hc0 hc1 x0 x1 x2).2.2.2.2.2.1) = k0_pay1 (k0_pay6 x0) (k0_pay8 x0 x1 x2) (k0_pay5 (F := F)) := by
  rw [View.read_writes_eq_canon _ _ _ (scover0_A_1 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S64x128) hzR0_2, View.readCov_unit_zero (S := S64x128) _ hzR0_2]
  simp only [View.readAt_eq_ld, harg2.read_unread, harg3.read_unread, harg4.read_unread, harg9.read_unread, harg10.read_unread, View.ld_unit_zero (S := S10000x128) hzR0_2, View.ld_unit_zero (S := S64x128) hzR0_2, View.ld_unit_zero (S := S1x64) hzR0_2]

end

section
variable (hc0 : ¬cond0_0 i) (hc1 : ¬cond0_1 i) (x0 : Vec F S10000x128 .f32) (x1 : Vec F S64x128 .f32) (x2 : Vec F S1x64 .f32) (xs0 : Vec F S1x64 .f32) (xs1 : Vec F S64x128 .f32)

theorem sout0_B_0_eq :
    VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 x0 x1 x2 xs0 xs1).2.2.2.2.1) = k0_pay9 x0 x1 x2 xs0 := by
  rw [View.read_writes_eq_canon _ _ _ (scover0_B_0 c i arg2 harg2 arg3 harg3 arg4 harg4 arg5 harg5 arg6 harg6 arg7 harg7 arg8 harg8 arg9 harg9 arg10 harg10 hc0 hc1 x0 x1 x2 xs0 xs1)]
  unfold kernelRun0_B
  dsimp only
  sl_unfold_words
  rw [View.canon_unit_zero hzR0_2]
  simp only [View.readAt_eq_ld, harg2.read_unread, harg3.read_unread, harg4.read_unread, harg9.read_unread, harg10.read_unread, View.ld_unit_zero (S := S10000x128) hzR0_2, View.ld_unit_zero (S := S64x128) hzR0_2, View.ld_unit_zero (S := S1x64) hzR0_2]

theorem sout0_B_1_eq :
    VS0_1.read (Elt F) (VS0_1.writes (Elt F) VS0_1.junk (kernelRun0_B c i arg2 harg2 arg3 harg3 arg4 harg4 arg5 harg5 arg6 harg6 arg7 harg7 arg8 harg8 arg9 harg9 arg10 harg10 hc0 hc1 x0 x1 x2 xs0 xs1).2.2.2.2.2.1) = k0_pay1 (k0_pay6 x0) (k0_pay8 x0 x1 x2) xs1 := by
  rw [View.read_writes_eq_canon _ _ _ (scover0_B_1 c i arg2 harg2 arg3 harg3 arg4 harg4 arg5 harg5 arg6 harg6 arg7 harg7 arg8 harg8 arg9 harg9 arg10 harg10 hc0 hc1 x0 x1 x2 xs0 xs1)]
  unfold kernelRun0_B
  dsimp only
  sl_unfold_words
  rw [View.canon_unit_zero hzR0_2]
  simp only [View.readAt_eq_ld, harg2.read_unread, harg3.read_unread, harg4.read_unread, harg9.read_unread, harg10.read_unread, View.ld_unit_zero (S := S10000x128) hzR0_2, View.ld_unit_zero (S := S64x128) hzR0_2, View.ld_unit_zero (S := S1x64) hzR0_2]

end

section
variable (hc0 : ¬cond0_0 i) (hc1 : cond0_1 i) (x0 : Vec F S10000x128 .f32) (x1 : Vec F S64x128 .f32) (x2 : Vec F S1x64 .f32) (xs0 : Vec F S1x64 .f32) (xs1 : Vec F S64x128 .f32)

theorem sout0_C_0_eq :
    VS0_0.read (Elt F) (VS0_0.writes (Elt F) VS0_0.junk (kernelRun0_C c i arg2 harg2 arg3 harg3 arg4 harg4 arg5 harg5 arg6 harg6 arg7 harg7 arg8 harg8 arg9 harg9 arg10 harg10 hc0 hc1 x0 x1 x2 xs0 xs1).2.2.2.2.1) = k0_pay9 x0 x1 x2 xs0 := by
  rw [View.read_writes_eq_canon _ _ _ (scover0_C_0 c i arg2 harg2 arg3 harg3 arg4 harg4 arg5 harg5 arg6 harg6 arg7 harg7 arg8 harg8 arg9 harg9 arg10 harg10 hc0 hc1 x0 x1 x2 xs0 xs1)]
  unfold kernelRun0_C
  dsimp only
  sl_unfold_words
  rw [View.canon_unit_zero hzR0_2]
  simp only [View.readAt_eq_ld, harg2.read_unread, harg3.read_unread, harg4.read_unread, harg9.read_unread, harg10.read_unread, View.ld_unit_zero (S := S10000x128) hzR0_2, View.ld_unit_zero (S := S64x128) hzR0_2, View.ld_unit_zero (S := S1x64) hzR0_2]

theorem sout0_C_1_eq :
    VS0_1.read (Elt F) (VS0_1.writes (Elt F) VS0_1.junk (kernelRun0_C c i arg2 harg2 arg3 harg3 arg4 harg4 arg5 harg5 arg6 harg6 arg7 harg7 arg8 harg8 arg9 harg9 arg10 harg10 hc0 hc1 x0 x1 x2 xs0 xs1).2.2.2.2.2.1) = k0_pay1 (k0_pay6 x0) (k0_pay8 x0 x1 x2) xs1 := by
  rw [View.read_writes_eq_canon _ _ _ (scover0_C_1 c i arg2 harg2 arg3 harg3 arg4 harg4 arg5 harg5 arg6 harg6 arg7 harg7 arg8 harg8 arg9 harg9 arg10 harg10 hc0 hc1 x0 x1 x2 xs0 xs1)]
  unfold kernelRun0_C
  dsimp only
  sl_unfold_words
  rw [View.canon_unit_zero hzR0_2]
  simp only [View.readAt_eq_ld, harg2.read_unread, harg3.read_unread, harg4.read_unread, harg9.read_unread, harg10.read_unread, View.ld_unit_zero (S := S10000x128) hzR0_2, View.ld_unit_zero (S := S64x128) hzR0_2, View.ld_unit_zero (S := S1x64) hzR0_2]

theorem out0_C_5_eq :
    VO0_5.read (Elt F) (VO0_5.writes (Elt F) VO0_5.junk (kernelRun0_C c i arg2 harg2 arg3 harg3 arg4 harg4 arg5 harg5 arg6 harg6 arg7 harg7 arg8 harg8 arg9 harg9 arg10 harg10 hc0 hc1 x0 x1 x2 xs0 xs1).2.2.1) = k0_pay2 (k0_pay9 x0 x1 x2 xs0) := by
  rw [View.read_writes_eq_canon _ _ _ (cover0_C_5 c i arg2 harg2 arg3 harg3 arg4 harg4 arg5 harg5 arg6 harg6 arg7 harg7 arg8 harg8 arg9 harg9 arg10 harg10 hc0 hc1 x0 x1 x2 xs0 xs1)]
  unfold kernelRun0_C
  dsimp only
  sl_unfold_words
  rw [View.canon_unit_zero hzR0_3]
  simp only [View.readCov_unit_zero (S := S1x64) _ hzR0_2, View.readAt_eq_ld, harg2.read_unread, harg3.read_unread, harg4.read_unread, harg9.read_unread, harg10.read_unread, View.ld_unit_zero (S := S10000x128) hzR0_2, View.ld_unit_zero (S := S64x128) hzR0_2, View.ld_unit_zero (S := S1x64) hzR0_2]

theorem out0_C_6_eq :
    VO0_6.read (Elt F) (VO0_6.writes (Elt F) VO0_6.junk (kernelRun0_C c i arg2 harg2 arg3 harg3 arg4 harg4 arg5 harg5 arg6 harg6 arg7 harg7 arg8 harg8 arg9 harg9 arg10 harg10 hc0 hc1 x0 x1 x2 xs0 xs1).2.2.2.1) = k0_pay3 (k0_pay1 (k0_pay6 x0) (k0_pay8 x0 x1 x2) xs1) := by
  rw [View.read_writes_eq_canon _ _ _ (cover0_C_6 c i arg2 harg2 arg3 harg3 arg4 harg4 arg5 harg5 arg6 harg6 arg7 harg7 arg8 harg8 arg9 harg9 arg10 harg10 hc0 hc1 x0 x1 x2 xs0 xs1)]
  unfold kernelRun0_C
  dsimp only
  sl_unfold_words
  rw [View.canon_unit_zero hzR0_3]
  simp only [View.readCov_unit_zero (S := S64x128) _ hzR0_2, View.readAt_eq_ld, harg2.read_unread, harg3.read_unread, harg4.read_unread, harg9.read_unread, harg10.read_unread, View.ld_unit_zero (S := S10000x128) hzR0_2, View.ld_unit_zero (S := S64x128) hzR0_2, View.ld_unit_zero (S := S1x64) hzR0_2]

end

end

end Cert.KernelIdeal.Hand

end
-- ==== Proof.KI.R0ValB.lean ====
import proofs.«403249_j11562051960853_3_alg».proof.Proof.KI.R0Pieces
import proofs.«403249_j11562051960853_3_alg».proof.Proof.KI.R0Blocks
import proofs.«403249_j11562051960853_3_alg».proof.Proof.KI.Payloads
import proofs.«403249_j11562051960853_3_alg».proof.Proof.Spec
import Idealize.ShloMosaic.Lib.Pipeline.Value
import Idealize.ShloMosaic.Lib.ValueIdx

set_option maxRecDepth 16384

noncomputable section

open scoped BigOperators

namespace Cert.KernelIdeal.Val

open Cert.KernelIdeal Cert.KernelIdeal.Gen Cert.KernelIdeal.Hand Cert.KernelIdeal.Pay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Idealize.ShloMosaic.Ideal) ((c : Thread nD τ).loc b)) (c : Dev nD)

theorem node_lt (p i r : ℕ) (hp : p < 2) (hi : i < 5) (hr : r < 10000) : 10000 * (5 * p + i) + r < 100000 := by omega

abbrev Sb : Fin 100000 → Fin 64 → EReal := Cert.Spec.S (fun n d => arrX V c (ix2 n d)) (fun k d => arrW V c (ix2 k d)) (fun k => arrB V c (ix2 (0 : Fin 1) k))

def acc5 (n : ℕ) (h : n < cfg0.N) : S1x64.Idx → EReal := (outsAt0 V c n h).2.2.2.2.1
def acc6 (n : ℕ) (h : n < cfg0.N) : S64x128.Idx → EReal := (outsAt0 V c n h).2.2.2.2.2
def add5 (n : ℕ) (k : Fin 64) : EReal :=
  if h : n < cfg0.N then ∑ r : Fin 10000, k0_pay7 (F := Ideal) (blkX V c ⟨n, h⟩) (blkW V c ⟨n, h⟩) (blkB V c ⟨n, h⟩) (ix2 r k) else 0
def add6 (n : ℕ) (j : Fin 64 × Fin 128) : EReal :=
  if h : n < cfg0.N then ∑ r : Fin 10000, k0_pay7 (F := Ideal) (blkX V c ⟨n, h⟩) (blkW V c ⟨n, h⟩) (blkB V c ⟨n, h⟩) (ix2 r j.1) * blkX V c ⟨n, h⟩ (ix2 r j.2) else 0

-- The first point of a run of five starts both accumulators from zero.
theorem acc_reset0 (n : ℕ) (h : n < cfg0.N) (h0 : n % 5 = 0) :
    (∀ k : Fin 64, acc5 V c n h (ix2 (0 : Fin 1) k) = add5 V c n k) ∧ ∀ j : Fin 64 × Fin 128, acc6 V c n h (ix2 j.1 j.2) = add6 V c n j := by
  unfold acc5 acc6 add5 add6
  rw [outsAt0_A V c ⟨n, h⟩ h0 (by dsimp only; omega)]
  unfold caseA0 readBack0
  dsimp only
  exact ⟨fun k => by rw [sout0_A_0_eq, dif_pos h, pay9_apply, pay4_apply, zero_add], fun j => by rw [sout0_A_1_eq, dif_pos h, pay1_apply, pay5_apply, zero_add]⟩

-- Every other point adds its block's column sums and products to what the point before left.
theorem acc_step0 (n : ℕ) (h : n + 1 < cfg0.N) (h0 : ¬(n + 1) % 5 = 0) :
    (∀ k : Fin 64, acc5 V c (n + 1) h (ix2 (0 : Fin 1) k) = acc5 V c n (Nat.lt_of_succ_lt h) (ix2 (0 : Fin 1) k) + add5 V c (n + 1) k)
      ∧ ∀ j : Fin 64 × Fin 128, acc6 V c (n + 1) h (ix2 j.1 j.2) = acc6 V c n (Nat.lt_of_succ_lt h) (ix2 j.1 j.2) + add6 V c (n + 1) j := by
  unfold acc5 acc6 add5 add6
  by_cases h1 : (n + 1) % 5 = 4
  · rw [outsAt0_C V c ⟨n + 1, h⟩ h0 h1]
    unfold caseC0 readBack0
    dsimp only
    exact ⟨fun k => by rw [sout0_C_0_eq, dif_pos h, pay9_apply]; rfl, fun j => by rw [sout0_C_1_eq, dif_pos h, pay1_apply]; rfl⟩
  · rw [outsAt0_B V c ⟨n + 1, h⟩ h0 h1]
    unfold caseB0 readBack0
    dsimp only
    exact ⟨fun k => by rw [sout0_B_0_eq, dif_pos h, pay9_apply]; rfl, fun j => by rw [sout0_B_1_eq, dif_pos h, pay1_apply]; rfl⟩

-- The last point of a run copies both accumulators, reshaped, to the output blocks.
theorem out_last0 (t : Fin cfg0.N) (h1 : t.val % 5 = 4) :
    (outsAt0 V c t.val t.isLt).2.2.1 = k0_pay2 (F := Ideal) (acc5 V c t.val t.isLt)
      ∧ (outsAt0 V c t.val t.isLt).2.2.2.1 = k0_pay3 (F := Ideal) (acc6 V c t.val t.isLt) := by
  unfold acc5 acc6
  rw [outsAt0_C V c t (by omega) h1]
  unfold caseC0 readBack0
  dsimp only
  exact ⟨(out0_C_5_eq ..).trans (congrArg _ (sout0_C_0_eq ..).symm), (out0_C_6_eq ..).trans (congrArg _ (sout0_C_1_eq ..).symm)⟩

-- A block's stored assignments at row r are the table's at row 10000 n + r.
theorem pay7_row (n : ℕ) (h : n < cfg0.N) (r : Fin 10000) (hr : 10000 * n + r.val < 100000) (k : Fin 64) :
    k0_pay7 (F := Ideal) (blkX V c ⟨n, h⟩) (blkW V c ⟨n, h⟩) (blkB V c ⟨n, h⟩) (ix2 r k) = Sb V c ⟨10000 * n + r.val, hr⟩ k := by
  rw [pay7_apply, blk0_1, blk0_2]
  exact Cert.Spec.S_row _ _ _ _ r _ (fun d => blk0_0 V c ⟨n, h⟩ r d) k

theorem add5_eq (p : Fin 2) (s : Fin 5) (k : Fin 64) :
    add5 V c (5 * p.val + s.val) k
      = ∑ r : Fin 10000, Sb V c ⟨10000 * (5 * p.val + s.val) + r.val, node_lt _ _ _ p.isLt s.isLt r.isLt⟩ k := by
  have hN : 5 * p.val + s.val < cfg0.N := by rw [show cfg0.N = 10 from N_0]; have := p.isLt; have := s.isLt; omega
  unfold add5; rw [dif_pos hN]
  exact Finset.sum_congr rfl fun r _ => pay7_row V c _ hN r _ k

def G5 : S2x1x64.Idx → EReal := fun j =>
  ∑ i : Fin 5, ∑ r : Fin 10000, Sb V c ⟨10000 * (5 * (j 0).val + i.val) + r.val, node_lt _ _ _ (j 0).isLt i.isLt r.isLt⟩ (j 2)

theorem blockval5 (t : Fin cfg0.N) (h1 : t.val % 5 = 4) (y : S1x1x64.Idx) (I : S2x1x64.Idx)
    (e0 : (I 0).val = t.val / 5) (e2 : (I 2).val = (y 2).val) :
    k0_pay2 (F := Ideal) (acc5 V c t.val t.isLt) y = G5 V c I := by
  obtain ⟨y0, y1, k, rfl⟩ : ∃ (y0 y1 : Fin 1) (k : Fin 64), y = ix3 y0 y1 k := ⟨y 0, y 1, y 2, eq_ix3 y⟩
  obtain rfl : y0 = 0 := Subsingleton.elim _ _
  obtain rfl : y1 = 0 := Subsingleton.elim _ _
  obtain ⟨p, u, k', rfl⟩ : ∃ (p : Fin 2) (u : Fin 1) (k' : Fin 64), I = ix3 p u k' := ⟨I 0, I 1, I 2, eq_ix3 I⟩
  obtain rfl : k' = k := Fin.ext e2
  obtain ⟨n, hn⟩ := t
  obtain rfl : n = 5 * p.val + 4 := by have ep : p.val = n / 5 := e0; have : n % 5 = 4 := h1; omega
  rw [pay2_apply]
  exact (run_sum (fun n h (k : Fin 64) => acc5 V c n h (ix2 (0 : Fin 1) k)) (add5 V c) (fun n h i h0 => (acc_reset0 V c n h h0).1 i)
    (fun n h i h0 => (acc_step0 V c n h h0).1 i) p.val 4 (by omega) hn k').trans ((Finset.sum_range _).trans (Finset.sum_congr rfl fun s _ => add5_eq V c p s k'))

theorem flushed5 (t : Fin cfg0.N) (hf : (cfg0.win 5).flush t = true) :
    (dat0 V c).flushed 5 t = ((cfg0.win 5).blk t).view.read (Elt Ideal) (G5 V c) := by
  have h4 : t.val % 5 = 4 := (flush0_5 t).mp hf
  obtain ⟨-, -, -, -, i0, i1, i2, -⟩ := idx0_out t
  show (cfg0.win 5).cut (grid0.coords t) ((dat0 V c).after 5 t) = _
  rw [after0_5, (out_last0 V c t h4).1]
  funext y
  rw [View.read_apply]
  exact blockval5 V c t h4 y _
    (by show win0_5.index t (0 : Fin 3) * 1 + 1 * (y 0).val = t.val / 5; have : (y 0).val < 1 := (y 0).isLt; omega)
    (by show win0_5.index t (2 : Fin 3) * 64 + 1 * (y 2).val = (y 2).val; omega)

theorem cover5 (i : S2x1x64.Idx) : ∃ t : Fin cfg0.N, (cfg0.win 5).flush t = true ∧ i ∈ ((cfg0.win 5).blk t).view.set := by
  have hp : (i 0).val < 2 := (i 0).isLt
  have h1 : (i 1).val < 1 := (i 1).isLt
  have h2 : (i 2).val < 64 := (i 2).isLt
  have hN : cfg0.N = 10 := N_0
  obtain ⟨t, ht⟩ : ∃ t : Fin cfg0.N, t.val = 5 * (i 0).val + 4 := ⟨⟨_, by omega⟩, rfl⟩
  obtain ⟨-, -, -, -, i0, i1, i2, -⟩ := idx0_out t
  refine ⟨t, (flush0_5 t).mpr (by omega), ?_⟩
  show i ∈ ((View.whole main_v1_2).slice (win0_5.rect t)).set
  rw [View.set_slice_whole, Rect.mem_set_unit]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1 ≤ (i 1).val ∧ (i 1).val < win0_5.index t (1 : Fin 3) * 1 + 1; omega
  | ⟨2, _⟩ => show win0_5.index t (2 : Fin 3) * 64 ≤ (i 2).val ∧ (i 2).val < win0_5.index t (2 : Fin 3) * 64 + 64; omega

theorem arr0_5 (p : Fin 2) (k : Fin 64) :
    @id (S2x1x64.Idx → EReal) ((dat0 V c).arrAt 5 cfg0.N) (ix3 p (0 : Fin 1) k)
      = ∑ i : Fin 5, ∑ r : Fin 10000, (Cert.Spec.S (fun n d => (@id (S100000x128.Idx → EReal) (V c main_arg0)) (ix2 n d)) (fun k d => (@id (S64x128.Idx → EReal) (V c main_arg1)) (ix2 k d)) (fun k => (@id (S1x64.Idx → EReal) (V c main_v0)) (ix2 (0 : Fin 1) k))) ⟨10000 * (5 * p.val + i.val) + r.val, by have := p.isLt; have := i.isLt; have := r.isLt; omega⟩ k :=
  congrFun ((dat0 V c).arrAt_eq_of_cover 5 (G5 V c) (flushed5 V c) cover5) _

end Cert.KernelIdeal.Val

end
-- ==== Proof.KI.R0ValC.lean ====
import proofs.«403249_j11562051960853_3_alg».proof.Proof.KI.R0ValB

set_option maxRecDepth 16384

noncomputable section

open scoped BigOperators

namespace Cert.KernelIdeal.Val

open Cert.KernelIdeal Cert.KernelIdeal.Gen Cert.KernelIdeal.Hand Cert.KernelIdeal.Pay
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Idealize.ShloMosaic.Ideal) ((c : Thread nD τ).loc b)) (c : Dev nD)

theorem add6_eq (p : Fin 2) (s : Fin 5) (k : Fin 64) (d : Fin 128) :
    add6 V c (5 * p.val + s.val) (k, d)
      = ∑ r : Fin 10000, Sb V c ⟨10000 * (5 * p.val + s.val) + r.val, node_lt _ _ _ p.isLt s.isLt r.isLt⟩ k
          * arrX V c (ix2 ⟨10000 * (5 * p.val + s.val) + r.val, node_lt _ _ _ p.isLt s.isLt r.isLt⟩ d) := by
  have hN : 5 * p.val + s.val < cfg0.N := by rw [show cfg0.N = 10 from N_0]; have := p.isLt; have := s.isLt; omega
  unfold add6; rw [dif_pos hN]
  exact Finset.sum_congr rfl fun r _ => congrArg₂ (· * ·) (pay7_row V c _ hN r _ k) (blk0_0 V c ⟨_, hN⟩ r d)

def GPool : S2x64x128.Idx → EReal := fun j =>
  ∑ i : Fin 5, ∑ r : Fin 10000, Sb V c ⟨10000 * (5 * (j 0).val + i.val) + r.val, node_lt _ _ _ (j 0).isLt i.isLt r.isLt⟩ (j 1)
    * arrX V c (ix2 ⟨10000 * (5 * (j 0).val + i.val) + r.val, node_lt _ _ _ (j 0).isLt i.isLt r.isLt⟩ (j 2))

theorem blockval6 (t : Fin cfg0.N) (h1 : t.val % 5 = 4) (y : S1x64x128.Idx) (I : S2x64x128.Idx)
    (e0 : (I 0).val = t.val / 5) (e1 : (I 1).val = (y 1).val) (e2 : (I 2).val = (y 2).val) :
    k0_pay3 (F := Ideal) (acc6 V c t.val t.isLt) y = GPool V c I := by
  obtain ⟨y0, k, d, rfl⟩ : ∃ (y0 : Fin 1) (k : Fin 64) (d : Fin 128), y = ix3 y0 k d := ⟨y 0, y 1, y 2, eq_ix3 y⟩
  obtain rfl : y0 = 0 := Subsingleton.elim _ _
  obtain ⟨p, k', d', rfl⟩ : ∃ (p : Fin 2) (k' : Fin 64) (d' : Fin 128), I = ix3 p k' d' := ⟨I 0, I 1, I 2, eq_ix3 I⟩
  obtain rfl : k' = k := Fin.ext e1
  obtain rfl : d' = d := Fin.ext e2
  obtain ⟨n, hn⟩ := t
  obtain rfl : n = 5 * p.val + 4 := by have ep : p.val = n / 5 := e0; have : n % 5 = 4 := h1; omega
  rw [pay3_apply]
  exact (run_sum (fun n h (j : Fin 64 × Fin 128) => acc6 V c n h (ix2 j.1 j.2)) (add6 V c) (fun n h i h0 => (acc_reset0 V c n h h0).2 i)
    (fun n h i h0 => (acc_step0 V c n h h0).2 i) p.val 4 (by omega) hn (k', d')).trans ((Finset.sum_range _).trans (Finset.sum_congr rfl fun s _ => add6_eq V c p s k' d'))

theorem flushed6 (t : Fin cfg0.N) (hf : (cfg0.win 6).flush t = true) :
    (dat0 V c).flushed 6 t = ((cfg0.win 6).blk t).view.read (Elt Ideal) (GPool V c) := by
  have h4 : t.val % 5 = 4 := (flush0_6 t).mp hf
  obtain ⟨-, -, -, -, -, -, -, i0, i1, i2⟩ := idx0_out t
  show (cfg0.win 6).cut (grid0.coords t) ((dat0 V c).after 6 t) = _
  rw [after0_6, (out_last0 V c t h4).2]
  funext y
  rw [View.read_apply]
  exact blockval6 V c t h4 y _
    (by show win0_6.index t (0 : Fin 3) * 1 + 1 * (y 0).val = t.val / 5; have : (y 0).val < 1 := (y 0).isLt; omega)
    (by show win0_6.index t (1 : Fin 3) * 64 + 1 * (y 1).val = (y 1).val; omega)
    (by show win0_6.index t (2 : Fin 3) * 128 + 1 * (y 2).val = (y 2).val; omega)

theorem cover6 (i : S2x64x128.Idx) : ∃ t : Fin cfg0.N, (cfg0.win 6).flush t = true ∧ i ∈ ((cfg0.win 6).blk t).view.set := by
  have hp : (i 0).val < 2 := (i 0).isLt
  have h1 : (i 1).val < 64 := (i 1).isLt
  have h2 : (i 2).val < 128 := (i 2).isLt
  have hN : cfg0.N = 10 := N_0
  obtain ⟨t, ht⟩ : ∃ t : Fin cfg0.N, t.val = 5 * (i 0).val + 4 := ⟨⟨_, by omega⟩, rfl⟩
  obtain ⟨-, -, -, -, -, -, -, i0, i1, i2⟩ := idx0_out t
  refine ⟨t, (flush0_6 t).mpr (by omega), ?_⟩
  show i ∈ ((View.whole main_v1_3).slice (win0_6.rect t)).set
  rw [View.set_slice_whole, Rect.mem_set_unit]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 64 ≤ (i 1).val ∧ (i 1).val < win0_6.index t (1 : Fin 3) * 64 + 64; omega
  | ⟨2, _⟩ => show win0_6.index t (2 : Fin 3) * 128 ≤ (i 2).val ∧ (i 2).val < win0_6.index t (2 : Fin 3) * 128 + 128; omega

theorem arr0_6 (p : Fin 2) (k : Fin 64) (d : Fin 128) :
    @id (S2x64x128.Idx → EReal) ((dat0 V c).arrAt 6 cfg0.N) (ix3 p k d)
      = ∑ i : Fin 5, ∑ r : Fin 10000, (Cert.Spec.S (fun n d => (@id (S100000x128.Idx → EReal) (V c main_arg0)) (ix2 n d)) (fun k d => (@id (S64x128.Idx → EReal) (V c main_arg1)) (ix2 k d)) (fun k => (@id (S1x64.Idx → EReal) (V c main_v0)) (ix2 (0 : Fin 1) k))) ⟨10000 * (5 * p.val + i.val) + r.val, by have := p.isLt; have := i.isLt; have := r.isLt; omega⟩ k
          * (@id (S100000x128.Idx → EReal) (V c main_arg0)) (ix2 ⟨10000 * (5 * p.val + i.val) + r.val, by have := p.isLt; have := i.isLt; have := r.isLt; omega⟩ d) :=
  congrFun ((dat0 V c).arrAt_eq_of_cover 6 (GPool V c) (flushed6 V c) cover6) _

end Cert.KernelIdeal.Val

end
-- ==== Proof.KI.R1Pieces.lean ====
import proofs.«403249_j11562051960853_3_alg».proof.Proof.KI.R1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

section
variable (c : Dev nD) (i : grid1.Coords) (arg2 : Memref sig .tc .vmem S32000x64 .bf16) (harg2 : arg2.IsWhole) (arg3 : Memref sig .tc .vmem S32000x64 .bf16) (harg3 : arg3.IsWhole) (arg4 : Memref sig .tc .vmem S1x64x64 .f32) (harg4 : arg4.IsWhole) (arg5 : Memref sig .tc .vmem S1x1x64 .f32) (harg5 : arg5.IsWhole) (arg6 : Memref sig .tc .vmem S64x64 .f32) (harg6 : arg6.IsWhole) (arg7 : Memref sig .tc .vmem S1x64 .f32) (harg7 : arg7.IsWhole)

section
variable (hc0 : cond1_0 i) (hc1 : ¬cond1_1 i) (x0 : Vec F S32000x64 .bf16) (x1 : Vec F S32000x64 .bf16)

theorem sout1_A_0_eq :
    VS1_0.read (Elt F) (VS1_0.writes (Elt F) VS1_0.junk (kernelRun1_A c i arg2 harg2 arg3 harg3 arg4 harg4 arg5 harg5 arg6 harg6 arg7 harg7 hc0 hc1 x0 x1).2.2.1) = k1_pay4 x0 x1 (k1_pay1 (F := F)) := by
  rw [View.read_writes_eq_canon _ _ _ (scover1_A_0 c i arg2 harg2 arg3 harg3 arg4 harg4 arg5 harg5 arg6 harg6 arg7 harg7 hc0 hc1 x0 x1)]
  unfold kernelRun1_A
  dsimp only
  sl_unfold_words
  rw [View.canon_cons_unit_zero (S := S64x64) hz2, View.readCov_unit_zero (S := S64x64) _ hz2]
  simp only [View.readAt_eq_ld, harg2.read_unread, harg3.read_unread, harg6.read_unread, harg7.read_unread, View.ld_unit_zero (S := S32000x64) hz2, View.ld_unit_zero (S := S64x64) hz2, View.ld_unit_zero (S := S1x64) hz2]

theorem sout1_A_1_eq :
    VS1_1.read (Elt F) (VS1_1.writes (Elt F) VS1_1.junk (kernelRun1_A c i arg2 harg2 arg3 harg3 arg4 harg4 arg5 harg5 arg6 harg6 arg7 harg7 hc0 hc1 x0 x1).2.2.2.1) = k1_pay5 x0 (k1_pay2 (F := F)) := by
  rw [View.read_writes_eq_canon _ _ _ (scover1_A_1 c i arg2 harg2 arg3 harg3 arg4 harg4 arg5 harg5 arg6 harg6 arg7 harg7 hc0 hc1 x0 x1)]
  unfold kernelRun1_A
  dsimp only
  sl_unfold_words
  rw [View.canon_cons_unit_zero (S := S1x64) hz2, View.readCov_unit_zero (S := S1x64) _ hz2]
  simp only [View.readAt_eq_ld, harg2.read_unread, harg3.read_unread, harg6.read_unread, harg7.read_unread, View.ld_unit_zero (S := S32000x64) hz2, View.ld_unit_zero (S := S64x64) hz2, View.ld_unit_zero (S := S1x64) hz2]

end

section
variable (hc0 : ¬cond1_0 i) (hc1 : ¬cond1_1 i) (x0 : Vec F S32000x64 .bf16) (x1 : Vec F S32000x64 .bf16) (xs0 : Vec F S64x64 .f32) (xs1 : Vec F S1x64 .f32)

theorem sout1_B_0_eq :
    VS1_0.read (Elt F) (VS1_0.writes (Elt F) VS1_0.junk (kernelRun1_B c i arg2 harg2 arg3 harg3 arg4 harg4 arg5 harg5 arg6 harg6 arg7 harg7 hc0 hc1 x0 x1 xs0 xs1).2.2.1) = k1_pay4 x0 x1 xs0 := by
  rw [View.read_writes_eq_canon _ _ _ (scover1_B_0 c i arg2 harg2 arg3 harg3 arg4 harg4 arg5 harg5 arg6 harg6 arg7 harg7 hc0 hc1 x0 x1 xs0 xs1)]
  unfold kernelRun1_B
  dsimp only
  sl_unfold_words
  rw [View.canon_unit_zero hz2]
  simp only [View.readAt_eq_ld, harg2.read_unread, harg3.read_unread, harg6.read_unread, harg7.read_unread, View.ld_unit_zero (S := S32000x64) hz2, View.ld_unit_zero (S := S64x64) hz2, View.ld_unit_zero (S := S1x64) hz2]

theorem sout1_B_1_eq :
    VS1_1.read (Elt F) (VS1_1.writes (Elt F) VS1_1.junk (kernelRun1_B c i arg2 harg2 arg3 harg3 arg4 harg4 arg5 harg5 arg6 harg6 arg7 harg7 hc0 hc1 x0 x1 xs0 xs1).2.2.2.1) = k1_pay5 x0 xs1 := by
  rw [View.read_writes_eq_canon _ _ _ (scover1_B_1 c i arg2 harg2 arg3 harg3 arg4 harg4 arg5 harg5 arg6 harg6 arg7 harg7 hc0 hc1 x0 x1 xs0 xs1)]
  unfold kernelRun1_B
  dsimp only
  sl_unfold_words
  rw [View.canon_unit_zero hz2]
  simp only [View.readAt_eq_ld, harg2.read_unread, harg3.read_unread, harg6.read_unread, harg7.read_unread, View.ld_unit_zero (S := S32000x64) hz2, View.ld_unit_zero (S := S64x64) hz2, View.ld_unit_zero (S := S1x64) hz2]

end

section
variable (hc0 : ¬cond1_0 i) (hc1 : cond1_1 i) (x0 : Vec F S32000x64 .bf16) (x1 : Vec F S32000x64 .bf16) (xs0 : Vec F S64x64 .f32) (xs1 : Vec F S1x64 .f32)

theorem sout1_C_0_eq :
    VS1_0.read (Elt F) (VS1_0.writes (Elt F) VS1_0.junk (kernelRun1_C c i arg2 harg2 arg3 harg3 arg4 harg4 arg5 harg5 arg6 harg6 arg7 harg7 hc0 hc1 x0 x1 xs0 xs1).2.2.1) = k1_pay4 x0 x1 xs0 := by
  rw [View.read_writes_eq_canon _ _ _ (scover1_C_0 c i arg2 harg2 arg3 harg3 arg4 harg4 arg5 harg5 arg6 harg6 arg7 harg7 hc0 hc1 x0 x1 xs0 xs1)]
  unfold kernelRun1_C
  dsimp only
  sl_unfold_words
  rw [View.canon_unit_zero hz2]
  simp only [View.readAt_eq_ld, harg2.read_unread, harg3.read_unread, harg6.read_unread, harg7.read_unread, View.ld_unit_zero (S := S32000x64) hz2, View.ld_unit_zero (S := S64x64) hz2, View.ld_unit_zero (S := S1x64) hz2]

theorem sout1_C_1_eq :
    VS1_1.read (Elt F) (VS1_1.writes (Elt F) VS1_1.junk (kernelRun1_C c i arg2 harg2 arg3 harg3 arg4 harg4 arg5 harg5 arg6 harg6 arg7 harg7 hc0 hc1 x0 x1 xs0 xs1).2.2.2.1) = k1_pay5 x0 xs1 := by
  rw [View.read_writes_eq_canon _ _ _ (scover1_C_1 c i arg2 harg2 arg3 harg3 arg4 harg4 arg5 harg5 arg6 harg6 arg7 harg7 hc0 hc1 x0 x1 xs0 xs1)]
  unfold kernelRun1_C
  dsimp only
  sl_unfold_words
  rw [View.canon_unit_zero hz2]
  simp only [View.readAt_eq_ld, harg2.read_unread, harg3.read_unread, harg6.read_unread, harg7.read_unread, View.ld_unit_zero (S := S32000x64) hz2, View.ld_unit_zero (S := S64x64) hz2, View.ld_unit_zero (S := S1x64) hz2]

theorem out1_C_2_eq :
    VO1_2.read (Elt F) (VO1_2.writes (Elt F) VO1_2.junk (kernelRun1_C c i arg2 harg2 arg3 harg3 arg4 harg4 arg5 harg5 arg6 harg6 arg7 harg7 hc0 hc1 x0 x1 xs0 xs1).1) = k1_pay6 (k1_pay4 x0 x1 xs0) := by
  rw [View.read_writes_eq_canon _ _ _ (cover1_C_2 c i arg2 harg2 arg3 harg3 arg4 harg4 arg5 harg5 arg6 harg6 arg7 harg7 hc0 hc1 x0 x1 xs0 xs1)]
  unfold kernelRun1_C
  dsimp only
  sl_unfold_words
  rw [View.canon_unit_zero hz3]
  simp only [View.readCov_unit_zero (S := S64x64) _ hz2, View.readAt_eq_ld, harg2.read_unread, harg3.read_unread, harg6.read_unread, harg7.read_unread, View.ld_unit_zero (S := S32000x64) hz2, View.ld_unit_zero (S := S64x64) hz2, View.ld_unit_zero (S := S1x64) hz2]

theorem out1_C_3_eq :
    VO1_3.read (Elt F) (VO1_3.writes (Elt F) VO1_3.junk (kernelRun1_C c i arg2 harg2 arg3 harg3 arg4 harg4 arg5 harg5 arg6 harg6 arg7 harg7 hc0 hc1 x0 x1 xs0 xs1).2.1) = k1_pay7 (k1_pay5 x0 xs1) := by
  rw [View.read_writes_eq_canon _ _ _ (cover1_C_3 c i arg2 harg2 arg3 harg3 arg4 harg4 arg5 harg5 arg6 harg6 arg7 harg7 hc0 hc1 x0 x1 xs0 xs1)]
  unfold kernelRun1_C
  dsimp only
  sl_unfold_words
  rw [View.canon_unit_zero hz3]
  simp only [View.readCov_unit_zero (S := S1x64) _ hz2, View.readAt_eq_ld, harg2.read_unread, harg3.read_unread, harg6.read_unread, harg7.read_unread, View.ld_unit_zero (S := S32000x64) hz2, View.ld_unit_zero (S := S64x64) hz2, View.ld_unit_zero (S := S1x64) hz2]

end

end

end Cert.KernelIdeal.Hand

end
-- ==== Proof.KI.R1Blocks.lean ====
import proofs.«403249_j11562051960853_3_alg».proof.Proof.KI.R1Base
import proofs.«403249_j11562051960853_3_alg».proof.Proof.KI.R0Blocks
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx

variable (V : (c : Dev nD) → (b : Ref sig .tc) → Buf (Elt Idealize.ShloMosaic.Ideal) ((c : Thread nD τ).loc b))

abbrev arrSV (c : Dev nD) : S3200000x64.Idx → EReal := V c main_v24
abbrev arrSR (c : Dev nD) : S3200000x64.Idx → EReal := V c main_v19

abbrev blkSV (c : Dev nD) (t : Fin cfg1.N) : S32000x64.Idx → EReal := iblk1 V c 0 t
abbrev blkSR (c : Dev nD) (t : Fin cfg1.N) : S32000x64.Idx → EReal := iblk1 V c 1 t

theorem idx1_in : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

theorem idx1_out : ∀ t : Fin cfg1.N, win1_2.index t (0 : Fin 3) = t.val / 50 ∧ win1_2.index t (1 : Fin 3) = 0 ∧ win1_2.index t (2 : Fin 3) = 0
    ∧ win1_3.index t (0 : Fin 3) = t.val / 50 ∧ win1_3.index t (1 : Fin 3) = 0 ∧ win1_3.index t (2 : Fin 3) = 0 :=
  (by decide +kernel : ∀ t : Fin grid1.N, _)

theorem row1_lt (t : Fin cfg1.N) (r : Fin 32000) : 32000 * t.val + r.val < 3200000 := by
  have := t.isLt; have : cfg1.N = 100 := N_1; have := r.isLt; omega

theorem blk1_0 (c : Dev nD) (t : Fin cfg1.N) (r : Fin 32000) (a : Fin 64) :
    blkSV V c t (ix2 r a) = arrSV V c (ix2 ⟨32000 * t.val + r.val, row1_lt t r⟩ a) := by
  show V c main_v24 (((cfg1.win 0).blk t).view.emb (ix2 r a)) = V c main_v24 _
  congr 1
  funext b; apply Fin.ext
  obtain ⟨e0, e1, -⟩ := idx1_in t
  match b with
  | ⟨0, _⟩ => show win1_0.index t (0 : Fin 2) * 32000 + 1 * r.val = 32000 * t.val + r.val; omega
  | ⟨1, _⟩ => show win1_0.index t (1 : Fin 2) * 64 + 1 * a.val = a.val; omega

theorem blk1_1 (c : Dev nD) (t : Fin cfg1.N) (r : Fin 32000) (a : Fin 64) :
    blkSR V c t (ix2 r a) = arrSR V c (ix2 ⟨32000 * t.val + r.val, row1_lt t r⟩ a) := by
  show V c main_v19 (((cfg1.win 1).blk t).view.emb (ix2 r a)) = V c main_v19 _
  congr 1
  funext b; apply Fin.ext
  obtain ⟨-, -, e0, e1⟩ := idx1_in t
  match b with
  | ⟨0, _⟩ => show win1_1.index t (0 : Fin 2) * 32000 + 1 * r.val = 32000 * t.val + r.val; omega
  | ⟨1, _⟩ => show win1_1.index t (1 : Fin 2) * 64 + 1 * a.val = a.val; omega

end Cert.KernelIdeal.Val

end
-- ==== Proof.KI.R1Val.lean ====
import proofs.«403249_j11562051960853_3_alg».proof.Proof.KI.R1Pieces
import proofs.«403249_j11562051960853_3_alg».proof.Proof.KI.Payloads
import proofs.«403249_j11562051960853_3_alg».proof.Proof.KI.R1Blocks
import Idealize.ShloMosaic.Lib.Pipeline.Value
import Idealize.ShloMosaic.Lib.ValueIdx

set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b)) (c : Dev nD)

theorem edge_lt (p i r : ℕ) (hp : p < 2) (hi : i < 50) (hr : r < 32000) : 32000 * (50 * p + i) + r < 3200000 := by omega

def f0 (n : ℕ) (h : n < cfg1.N) : S64x64.Idx → EReal := (outsAt1 V c n h).2.2.1
def f1 (n : ℕ) (h : n < cfg1.N) : S1x64.Idx → EReal := (outsAt1 V c n h).2.2.2
def M0 (n : ℕ) (j : Fin 64 × Fin 64) : EReal := if h : n < cfg1.N then ∑ r : Fin 32000, blkSV V c ⟨n, h⟩ (ix2 r j.1) * blkSR V c ⟨n, h⟩ (ix2 r j.2) else 0
def M1 (n : ℕ) (k : Fin 64) : EReal := if h : n < cfg1.N then ∑ r : Fin 32000, blkSV V c ⟨n, h⟩ (ix2 r k) else 0

-- The first point of a run of fifty starts both accumulators from zero.
theorem acc_reset (n : ℕ) (h : n < cfg1.N) (h0 : n % 50 = 0) :
    (∀ j : Fin 64 × Fin 64, f0 V c n h (ix2 j.1 j.2) = M0 V c n j) ∧ ∀ k : Fin 64, f1 V c n h (ix2 (0 : Fin 1) k) = M1 V c n k := by
  unfold f0 f1 M0 M1
  rw [outsAt1_A V c ⟨n, h⟩ h0 (by dsimp only; omega)]
  unfold caseA1 readBack1
  dsimp only
  rw [sout1_A_0_eq, sout1_A_1_eq]
  exact ⟨fun j => by rw [dif_pos h, Pay.k1_pay4_apply, Pay.k1_pay1_apply, zero_add],
    fun k => by rw [dif_pos h, Pay.k1_pay5_apply, Pay.k1_pay2_apply, zero_add]⟩

-- Every other point adds its block's products and column sums to what the point before left.
theorem acc_step (n : ℕ) (h : n + 1 < cfg1.N) (h0 : ¬(n + 1) % 50 = 0) :
    (∀ j : Fin 64 × Fin 64, f0 V c (n + 1) h (ix2 j.1 j.2) = f0 V c n (Nat.lt_of_succ_lt h) (ix2 j.1 j.2) + M0 V c (n + 1) j)
      ∧ ∀ k : Fin 64, f1 V c (n + 1) h (ix2 (0 : Fin 1) k) = f1 V c n (Nat.lt_of_succ_lt h) (ix2 (0 : Fin 1) k) + M1 V c (n + 1) k := by
  unfold f0 f1 M0 M1
  by_cases h1 : (n + 1) % 50 = 49
  · rw [outsAt1_C V c ⟨n + 1, h⟩ h0 h1]
    unfold caseC1 readBack1
    dsimp only
    rw [sout1_C_0_eq, sout1_C_1_eq]
    exact ⟨fun j => by rw [dif_pos h, Pay.k1_pay4_apply]; rfl, fun k => by rw [dif_pos h, Pay.k1_pay5_apply]; rfl⟩
  · rw [outsAt1_B V c ⟨n + 1, h⟩ h0 h1]
    unfold caseB1 readBack1
    dsimp only
    rw [sout1_B_0_eq, sout1_B_1_eq]
    exact ⟨fun j => by rw [dif_pos h, Pay.k1_pay4_apply]; rfl, fun k => by rw [dif_pos h, Pay.k1_pay5_apply]; rfl⟩

theorem M0_eq (p : Fin 2) (s : Fin 50) (a b : Fin 64) :
    M0 V c (50 * p.val + s.val) (a, b)
      = ∑ r : Fin 32000, arrSV V c (ix2 ⟨32000 * (50 * p.val + s.val) + r.val, edge_lt _ _ _ p.isLt s.isLt r.isLt⟩ a)
          * arrSR V c (ix2 ⟨32000 * (50 * p.val + s.val) + r.val, edge_lt _ _ _ p.isLt s.isLt r.isLt⟩ b) := by
  have hN : 50 * p.val + s.val < cfg1.N := by rw [show cfg1.N = 100 from N_1]; have := p.isLt; have := s.isLt; omega
  unfold M0; rw [dif_pos hN]
  exact Finset.sum_congr rfl fun r _ => congrArg₂ (· * ·) (blk1_0 V c ⟨_, hN⟩ r a) (blk1_1 V c ⟨_, hN⟩ r b)

theorem M1_eq (p : Fin 2) (s : Fin 50) (k : Fin 64) :
    M1 V c (50 * p.val + s.val) k
      = ∑ r : Fin 32000, arrSV V c (ix2 ⟨32000 * (50 * p.val + s.val) + r.val, edge_lt _ _ _ p.isLt s.isLt r.isLt⟩ k) := by
  have hN : 50 * p.val + s.val < cfg1.N := by rw [show cfg1.N = 100 from N_1]; have := p.isLt; have := s.isLt; omega
  unfold M1; rw [dif_pos hN]
  exact Finset.sum_congr rfl fun r _ => blk1_0 V c ⟨_, hN⟩ r k

def G2 : S2x64x64.Idx → EReal := fun j =>
  ∑ i : Fin 50, ∑ r : Fin 32000, arrSV V c (ix2 ⟨32000 * (50 * (j 0).val + i.val) + r.val, edge_lt _ _ _ (j 0).isLt i.isLt r.isLt⟩ (j 1))
    * arrSR V c (ix2 ⟨32000 * (50 * (j 0).val + i.val) + r.val, edge_lt _ _ _ (j 0).isLt i.isLt r.isLt⟩ (j 2))
def G3 : S2x1x64.Idx → EReal := fun j =>
  ∑ i : Fin 50, ∑ r : Fin 32000, arrSV V c (ix2 ⟨32000 * (50 * (j 0).val + i.val) + r.val, edge_lt _ _ _ (j 0).isLt i.isLt r.isLt⟩ (j 2))

-- The last point of a run copies both accumulators, reshaped, to the output blocks.
theorem out_last (t : Fin cfg1.N) (h1 : t.val % 50 = 49) :
    (outsAt1 V c t.val t.isLt).1 = k1_pay6 (F := Ideal) (f0 V c t.val t.isLt)
      ∧ (outsAt1 V c t.val t.isLt).2.1 = k1_pay7 (F := Ideal) (f1 V c t.val t.isLt) := by
  unfold f0 f1
  rw [outsAt1_C V c t (by omega) h1]
  unfold caseC1 readBack1
  dsimp only
  rw [out1_C_2_eq, out1_C_3_eq, sout1_C_0_eq, sout1_C_1_eq]
  exact ⟨rfl, rfl⟩

theorem blockval2 (t : Fin cfg1.N) (h1 : t.val % 50 = 49) (y : S1x64x64.Idx) (I : S2x64x64.Idx)
    (e0 : (I 0).val = t.val / 50) (e1 : (I 1).val = (y 1).val) (e2 : (I 2).val = (y 2).val) :
    k1_pay6 (F := Ideal) (f0 V c t.val t.isLt) y = G2 V c I := by
  obtain ⟨y0, a, b, rfl⟩ : ∃ (y0 : Fin 1) (a b : Fin 64), y = ix3 y0 a b := ⟨y 0, y 1, y 2, eq_ix3 y⟩
  obtain rfl : y0 = 0 := Subsingleton.elim _ _
  obtain ⟨p, a', b', rfl⟩ : ∃ (p : Fin 2) (a' b' : Fin 64), I = ix3 p a' b' := ⟨I 0, I 1, I 2, eq_ix3 I⟩
  obtain rfl : a' = a := Fin.ext e1
  obtain rfl : b' = b := Fin.ext e2
  obtain ⟨n, hn⟩ := t
  obtain rfl : n = 50 * p.val + 49 := by have ep : p.val = n / 50 := e0; have : n % 50 = 49 := h1; omega
  rw [Pay.k1_pay6_apply]
  exact (run_sum (fun n h (j : Fin 64 × Fin 64) => f0 V c n h (ix2 j.1 j.2)) (M0 V c) (fun n h j h0 => (acc_reset V c n h h0).1 j)
    (fun n h j h0 => (acc_step V c n h h0).1 j) p.val 49 (by omega) hn (a', b')).trans
    ((Finset.sum_range _).trans (Finset.sum_congr rfl fun s _ => M0_eq V c p s a' b'))

theorem blockval3 (t : Fin cfg1.N) (h1 : t.val % 50 = 49) (y : S1x1x64.Idx) (I : S2x1x64.Idx)
    (e0 : (I 0).val = t.val / 50) (e2 : (I 2).val = (y 2).val) :
    k1_pay7 (F := Ideal) (f1 V c t.val t.isLt) y = G3 V c I := by
  obtain ⟨y0, y1, k, rfl⟩ : ∃ (y0 y1 : Fin 1) (k : Fin 64), y = ix3 y0 y1 k := ⟨y 0, y 1, y 2, eq_ix3 y⟩
  obtain rfl : y0 = 0 := Subsingleton.elim _ _
  obtain rfl : y1 = 0 := Subsingleton.elim _ _
  obtain ⟨p, u, k', rfl⟩ : ∃ (p : Fin 2) (u : Fin 1) (k' : Fin 64), I = ix3 p u k' := ⟨I 0, I 1, I 2, eq_ix3 I⟩
  obtain rfl : k' = k := Fin.ext e2
  obtain ⟨n, hn⟩ := t
  obtain rfl : n = 50 * p.val + 49 := by have ep : p.val = n / 50 := e0; have : n % 50 = 49 := h1; omega
  rw [Pay.k1_pay7_apply]
  exact (run_sum (fun n h (k : Fin 64) => f1 V c n h (ix2 (0 : Fin 1) k)) (M1 V c) (fun n h k h0 => (acc_reset V c n h h0).2 k)
    (fun n h k h0 => (acc_step V c n h h0).2 k) p.val 49 (by omega) hn k').trans
    ((Finset.sum_range _).trans (Finset.sum_congr rfl fun s _ => M1_eq V c p s k'))

theorem flushed2 (t : Fin cfg1.N) (hf : (cfg1.win 2).flush t = true) :
    (dat1 V c).flushed 2 t = ((cfg1.win 2).blk t).view.read (Elt Ideal) (G2 V c) := by
  have h49 : t.val % 50 = 49 := (flush1_2 t).mp hf
  obtain ⟨i0, i1, i2, -⟩ := idx1_out t
  show (cfg1.win 2).cut (grid1.coords t) ((dat1 V c).after 2 t) = _
  rw [after1_2, (out_last V c t h49).1]
  funext y
  rw [View.read_apply]
  exact blockval2 V c t h49 y _
    (by show win1_2.index t (0 : Fin 3) * 1 + 1 * (y 0).val = t.val / 50; have : (y 0).val < 1 := (y 0).isLt; omega)
    (by show win1_2.index t (1 : Fin 3) * 64 + 1 * (y 1).val = (y 1).val; omega)
    (by show win1_2.index t (2 : Fin 3) * 64 + 1 * (y 2).val = (y 2).val; omega)

theorem flushed3 (t : Fin cfg1.N) (hf : (cfg1.win 3).flush t = true) :
    (dat1 V c).flushed 3 t = ((cfg1.win 3).blk t).view.read (Elt Ideal) (G3 V c) := by
  have h49 : t.val % 50 = 49 := (flush1_3 t).mp hf
  obtain ⟨-, -, -, i0, i1, i2⟩ := idx1_out t
  show (cfg1.win 3).cut (grid1.coords t) ((dat1 V c).after 3 t) = _
  rw [after1_3, (out_last V c t h49).2]
  funext y
  rw [View.read_apply]
  exact blockval3 V c t h49 y _
    (by show win1_3.index t (0 : Fin 3) * 1 + 1 * (y 0).val = t.val / 50; have : (y 0).val < 1 := (y 0).isLt; omega)
    (by show win1_3.index t (2 : Fin 3) * 64 + 1 * (y 2).val = (y 2).val; omega)

theorem cover1_2 (i : S2x64x64.Idx) : ∃ t : Fin cfg1.N, (cfg1.win 2).flush t = true ∧ i ∈ ((cfg1.win 2).blk t).view.set := by
  have hp : (i 0).val < 2 := (i 0).isLt
  have h1 : (i 1).val < 64 := (i 1).isLt
  have h2 : (i 2).val < 64 := (i 2).isLt
  have hN : cfg1.N = 100 := N_1
  obtain ⟨t, ht⟩ : ∃ t : Fin cfg1.N, t.val = 50 * (i 0).val + 49 := ⟨⟨_, by omega⟩, rfl⟩
  obtain ⟨i0, i1, i2, -⟩ := idx1_out t
  refine ⟨t, (flush1_2 t).mpr (by omega), ?_⟩
  show i ∈ ((View.whole main_v25_0).slice (win1_2.rect t)).set
  rw [View.set_slice_whole, Rect.mem_set_unit]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 64 ≤ (i 1).val ∧ (i 1).val < win1_2.index t (1 : Fin 3) * 64 + 64; omega
  | ⟨2, _⟩ => show win1_2.index t (2 : Fin 3) * 64 ≤ (i 2).val ∧ (i 2).val < win1_2.index t (2 : Fin 3) * 64 + 64; omega

theorem cover1_3 (i : S2x1x64.Idx) : ∃ t : Fin cfg1.N, (cfg1.win 3).flush t = true ∧ i ∈ ((cfg1.win 3).blk t).view.set := by
  have hp : (i 0).val < 2 := (i 0).isLt
  have h1 : (i 1).val < 1 := (i 1).isLt
  have h2 : (i 2).val < 64 := (i 2).isLt
  have hN : cfg1.N = 100 := N_1
  obtain ⟨t, ht⟩ : ∃ t : Fin cfg1.N, t.val = 50 * (i 0).val + 49 := ⟨⟨_, by omega⟩, rfl⟩
  obtain ⟨-, -, -, i0, i1, i2⟩ := idx1_out t
  refine ⟨t, (flush1_3 t).mpr (by omega), ?_⟩
  show i ∈ ((View.whole main_v25_1).slice (win1_3.rect t)).set
  rw [View.set_slice_whole, Rect.mem_set_unit]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1 ≤ (i 1).val ∧ (i 1).val < win1_3.index t (1 : Fin 3) * 1 + 1; omega
  | ⟨2, _⟩ => show win1_3.index t (2 : Fin 3) * 64 ≤ (i 2).val ∧ (i 2).val < win1_3.index t (2 : Fin 3) * 64 + 64; omega
theorem arr1_2 (p : Fin 2) (a b : Fin 64) :
    @id (S2x64x64.Idx → EReal) ((dat1 V c).arrAt 2 cfg1.N) (ix3 p a b)
      = ∑ i : Fin 50, ∑ r : Fin 32000, (@id (S3200000x64.Idx → EReal) (V c main_v24)) (ix2 ⟨32000 * (50 * p.val + i.val) + r.val, by have := p.isLt; have := i.isLt; have := r.isLt; omega⟩ a)
          * (@id (S3200000x64.Idx → EReal) (V c main_v19)) (ix2 ⟨32000 * (50 * p.val + i.val) + r.val, by have := p.isLt; have := i.isLt; have := r.isLt; omega⟩ b) :=
  congrFun ((dat1 V c).arrAt_eq_of_cover 2 (G2 V c) (flushed2 V c) cover1_2) _

theorem arr1_3 (p : Fin 2) (k : Fin 64) :
    @id (S2x1x64.Idx → EReal) ((dat1 V c).arrAt 3 cfg1.N) (ix3 p (0 : Fin 1) k)
      = ∑ i : Fin 50, ∑ r : Fin 32000, (@id (S3200000x64.Idx → EReal) (V c main_v24)) (ix2 ⟨32000 * (50 * p.val + i.val) + r.val, by have := p.isLt; have := i.isLt; have := r.isLt; omega⟩ k) :=
  congrFun ((dat1 V c).arrAt_eq_of_cover 3 (G3 V c) (flushed3 V c) cover1_3) _

end Cert.KernelIdeal.Val

end
-- ==== Proof.KI.Values.lean ====
import proofs.«403249_j11562051960853_3_alg».proof.Proof.KI.Run
import proofs.«403249_j11562051960853_3_alg».proof.Proof.Results
import proofs.«403249_j11562051960853_3_alg».proof.Proof.SpecA
import proofs.«403249_j11562051960853_3_alg».proof.Proof.KI.HostVal1
import proofs.«403249_j11562051960853_3_alg».proof.Proof.KI.HostVal2
import proofs.«403249_j11562051960853_3_alg».proof.Proof.KI.R0ValA
import proofs.«403249_j11562051960853_3_alg».proof.Proof.KI.R0ValB
import proofs.«403249_j11562051960853_3_alg».proof.Proof.KI.R0ValC
import proofs.«403249_j11562051960853_3_alg».proof.Proof.KI.R1Val
import Idealize.ShloMosaic.Lib.ValueIdx

set_option maxRecDepth 16384

noncomputable section

open scoped BigOperators

namespace Cert.KernelIdeal.Val

open Cert.KernelIdeal.Gen Cert.KernelIdeal.Hand
open Idealize.ShloMosaic Idealize.ShloMosaic.TcCoe Idealize.ShloMosaic.ValueIdx Idealize.SL.Sem

abbrev atType.{u} {α : Sort u} (x : α) : α := x

variable (m : (ℓ : Loc nD τ sig) → Buf (Elt Ideal) ℓ) (ρ : Dev nD → PrngReg)

abbrev A0 (c : Dev nD) : Cert.Results.S100000x128.Idx → EReal := m ((c.tc : Thread nD τ).loc main_arg0)
abbrev A1 (c : Dev nD) : Cert.Shared.S64x128.Idx → EReal := m ((c.tc : Thread nD τ).loc main_arg1)
abbrev A2 (c : Dev nD) : Cert.Shared.S64.Idx → EReal := m ((c.tc : Thread nD τ).loc main_arg2)
abbrev A3 (c : Dev nD) : Cert.Results.S3200000.Idx → EReal := m ((c.tc : Thread nD τ).loc main_arg3)
abbrev A4 (c : Dev nD) : Cert.Results.S3200000.Idx → BitVec 32 := m ((c.tc : Thread nD τ).loc main_arg4)
abbrev A5 (c : Dev nD) : Cert.Results.S3200000.Idx → BitVec 32 := m ((c.tc : Thread nD τ).loc main_arg5)

abbrev SA (c : Dev nD) : Fin 100000 → Fin 64 → EReal := Cert.Results.Sa (A0 m c) (A1 m c) (A2 m c)

section Core
variable (c : Dev nD)

/-- Nothing before region 0's exit writes r: it still holds the launch's contents. -/
theorem W2_arg (r : Ref sig .tc) (h : ∀ w, Pipeline.arrRef spec0 w ≠ r) (h0 : r ∉ hostOps0_W) :
    W2 m ρ c (Proc.devRef .tc r) = m ((c.tc : Thread nD τ).loc r) :=
  (W2_of_ne m ρ c r h).trans ((W1_of m ρ c r h0).trans rfl)

def Sb1 : Fin 100000 → Fin 64 → EReal :=
  Cert.Spec.S (fun n d => (V1 m ρ c main_arg0 : S100000x128.Idx → EReal) (ix2 n d)) (fun k d => (V1 m ρ c main_arg1 : S64x128.Idx → EReal) (ix2 k d)) (fun k => (V1 m ρ c main_v0 : S1x64.Idx → EReal) (ix2 (0 : Fin 1) k))

/-- Region 0 is entered with the features and weights as launched and the biases as one row: its assignments are the launch's. -/
theorem Sb1_eq : Sb1 m ρ c = SA m c := by
  have e := congr (congr (congrArg (Cert.Spec.S (N := 100000) (D := 128) (K := 64))
      (funext fun (n : Fin 100000) => funext fun (d : Fin 128) => congrFun (W1_of m ρ c main_arg0 (by decide)) (ix2 n d)))
      (funext fun (k : Fin 64) => funext fun (d : Fin 128) => congrFun (W1_of m ρ c main_arg1 (by decide)) (ix2 k d)))
    (funext fun (k : Fin 64) => HostVal.v0_apply (W0 m ρ c) k)
  exact e

theorem W2_v1_0 : W2 m ρ c (Proc.devRef .tc main_v1_0) = Cert.Results.assign (A0 m c) (A1 m c) (A2 m c) :=
  (W2_arr m ρ c 3).trans ((arr0_3 (V1 m ρ) c).trans (funext fun i => congrFun (congrFun (Sb1_eq m ρ c) (i 0)) (i 1)))

theorem W2_v1_1 : W2 m ρ c (Proc.devRef .tc main_v1_1) = Cert.Results.assign (A0 m c) (A1 m c) (A2 m c) :=
  (W2_arr m ρ c 4).trans ((arr0_4 (V1 m ρ) c).trans (funext fun i => congrFun (congrFun (Sb1_eq m ρ c) (i 0)) (i 1)))

/-- The cluster sizes: the two halves of five blocks of rows add up to the sum over all nodes. -/
theorem W4_v3 (k : Fin 64) : HostVal.size3 (W4 m ρ c) (ix1 k) = Cert.Spec.cs (SA m c) k := by
  have h := fun p => arr0_5 (V1 m ρ) c p k
  try simp only [id_eq] at h
  exact (congrFun (W4_of_ne m ρ c main_v3 (by decide)) (ix1 k)).trans ((HostVal.v3_apply (W2 m ρ c) k).trans ((zero_add _).trans
    ((Finset.sum_congr (M := EReal) rfl fun p _ => (congrFun (W2_arr m ρ c 5) (ix3 p (0 : Fin 1) k)).trans ((h p).trans
      (Finset.sum_congr rfl fun i _ => Finset.sum_congr rfl fun r _ => congrFun (congrFun (Sb1_eq m ρ c) _) k))).trans
    (Cert.Spec.sum_blocks' 2 5 10000 fun n => SA m c n k))))

theorem W4_v4 (k : Fin 64) (d : Fin 128) : HostVal.pool4 (W4 m ρ c) (ix2 k d) = Cert.Spec.pool (SA m c) (Cert.Results.X (A0 m c)) k d := by
  have h := fun p => arr0_6 (V1 m ρ) c p k d
  try simp only [id_eq] at h
  exact (congrFun (W4_of_ne m ρ c main_v4 (by decide)) (ix2 k d)).trans ((HostVal.v4_apply (W2 m ρ c) k d).trans ((zero_add _).trans
    ((Finset.sum_congr (M := EReal) rfl fun p _ => (congrFun (W2_arr m ρ c 6) (ix3 p k d)).trans ((h p).trans
      (Finset.sum_congr rfl fun i _ => Finset.sum_congr rfl fun r _ => congrArg₂ (fun x y : EReal => x * y)
        (congrFun (congrFun (Sb1_eq m ρ c) _) k) (congrFun (W1_of m ρ c main_arg0 (by decide)) _)))).trans
    (Cert.Spec.sum_blocks' 2 5 10000 fun n => SA m c n k * Cert.Results.X (A0 m c) n d))))

theorem W4_v5 : HostVal.mass5 (W4 m ρ c) ix0 = Cert.Spec.mass (Cert.Results.vals (A3 m c)) := by
  have h : HostVal.mass5 (W3 m ρ c) ix0 = 0 + ∑ e : Fin 3200000, (@atType (S3200000.Idx → EReal) (W2 m ρ c (Proc.devRef .tc main_arg3))) (ix1 e) :=
    HostVal.v5_apply (W2 m ρ c)
  exact (congrFun (W4_of_ne m ρ c main_v5 (by decide)) ix0).trans (h.trans ((zero_add _).trans
    (Finset.sum_congr rfl fun e _ => (congrFun (W2_arg m ρ c main_arg3 (by decide) (by decide)) (ix1 e) : _ = A3 m c (ix1 e)))))

variable (h4 : ∀ (c : Dev nD) (e : Cert.Results.S3200000.Idx), 0 ≤ ((A4 m c) e).toInt ∧ ((A4 m c) e).toInt < 100000)
  (h5 : ∀ (c : Dev nD) (e : Cert.Results.S3200000.Idx), 0 ≤ ((A5 m c) e).toInt ∧ ((A5 m c) e).toInt < 100000)

include h5 in
theorem W3_v24 (e : Fin 3200000) (k : Fin 64) :
    (@atType (S3200000x64.Idx → EReal) (W3 m ρ c (Proc.devRef .tc main_v24))) (ix2 e k) = Cert.Results.vals (A3 m c) e * SA m c (Cert.Results.colN (A5 m c) e) k := by
  have e5 := W2_arg m ρ c main_arg5 (by decide) (by decide)
  refine (HostVal.v24_apply (W2 m ρ c) e k (by rw [e5]; exact h5 c (ix1 e))).trans ?_
  rw [e5, W2_arg m ρ c main_arg3 (by decide) (by decide), W2_v1_1]
  rfl

include h4 in
theorem W3_v19 (e : Fin 3200000) (k : Fin 64) :
    (@atType (S3200000x64.Idx → EReal) (W3 m ρ c (Proc.devRef .tc main_v19))) (ix2 e k) = SA m c (Cert.Results.rowN (A4 m c) e) k := by
  have e4 := W2_arg m ρ c main_arg4 (by decide) (by decide)
  refine (HostVal.v19_apply (W2 m ρ c) e k (by rw [e4]; exact h4 c (ix1 e))).trans ?_
  rw [e4, W2_v1_1]
  rfl

include h5 in
/-- The degree row: the two halves of fifty blocks of edges add up to the sum over all edges. -/
theorem W4_vv (k : Fin 64) : HostVal.v27 (W4 m ρ c) k = Cert.Spec.vv (SA m c) (Cert.Results.vals (A3 m c)) (Cert.Results.colN (A5 m c)) k := by
  have h := fun p => arr1_3 (V3 m ρ) c p k
  try simp only [id_eq] at h
  exact (zero_add _).trans ((Finset.sum_congr (M := EReal) rfl fun p _ => (congrFun (W4_arr m ρ c 3) (ix3 p (0 : Fin 1) k)).trans ((h p).trans
    (Finset.sum_congr rfl fun i _ => Finset.sum_congr rfl fun r _ => W3_v24 m ρ c h5 _ k))).trans
    (Cert.Spec.sum_blocks' 2 50 32000 fun e => Cert.Results.vals (A3 m c) e * SA m c (Cert.Results.colN (A5 m c) e) k))

include h4 h5 in
theorem W4_gp (a b : Fin 64) : HostVal.g26 (W4 m ρ c) (ix2 a b)
    = Cert.Spec.gp (SA m c) (Cert.Results.vals (A3 m c)) (Cert.Results.rowN (A4 m c)) (Cert.Results.colN (A5 m c)) a b := by
  have h := fun p => arr1_2 (V3 m ρ) c p a b
  try simp only [id_eq] at h
  exact (zero_add _).trans ((Finset.sum_congr (M := EReal) rfl fun p _ => (congrFun (W4_arr m ρ c 2) (ix3 p a b)).trans ((h p).trans
    (Finset.sum_congr rfl fun i _ => Finset.sum_congr rfl fun r _ => congrArg₂ (· * ·) (W3_v24 m ρ c h5 _ a) (W3_v19 m ρ c h4 _ b)))).trans
    (Cert.Spec.sum_blocks' 2 50 32000 fun e => (Cert.Results.vals (A3 m c) e * SA m c (Cert.Results.colN (A5 m c) e) a) * SA m c (Cert.Results.rowN (A4 m c) e) b))

theorem W10_v45 : W10 m ρ c (Proc.devRef .tc main_v45) = Cert.Results.pooledE (A0 m c) (A1 m c) (A2 m c) :=
  (HostVal.out45 (W4 m ρ c)).trans (congrArg Cert.Shared.seluT (funext fun i => congrArg₂ Ideal.div
    ((congrArg (HostVal.pool4 (W4 m ρ c)) (eq_ix2 i)).trans (W4_v4 m ρ c (i 0) (i 1))) (W4_v3 m ρ c (i 0))))

theorem W10_v41 : W10 m ρ c (Proc.devRef .tc main_v41) = Cert.Results.collapse (A0 m c) (A1 m c) (A2 m c) :=
  (HostVal.out41 (W4 m ρ c)).trans (congrArg Cert.Shared.collapseT (funext fun i =>
    (congrArg (HostVal.size3 (W4 m ρ c)) (eq_ix1 i)).trans (W4_v3 m ρ c (i 0))))

theorem W10_v1_0 : W10 m ρ c (Proc.devRef .tc main_v1_0) = Cert.Results.assign (A0 m c) (A1 m c) (A2 m c) :=
  (W10_of_tail m ρ c main_v1_0 (by decide) (by decide) (by decide) (by decide) (by decide) (by decide)).trans ((W4_of_ne m ρ c main_v1_0 (by decide)).trans
    ((W3_of m ρ c main_v1_0 (by decide)).trans (W2_v1_0 m ρ c)))

include h4 h5 in
theorem W10_v35 : W10 m ρ c (Proc.devRef .tc main_v35)
    = Cert.Results.spectralE (A0 m c) (A1 m c) (A2 m c) (A3 m c) (A4 m c) (A5 m c) := by
  refine (HostVal.out35 (W4 m ρ c)).trans (funext fun _ => ?_)
  rw [HostVal.traceT_apply, zero_add, zero_add, funext fun a => funext (W4_gp m ρ c h4 h5 a), funext (W4_vv m ρ c h5), W4_v5]
  rfl

end Core

theorem run_values
    (h4 : ∀ (c : Dev nD) (e : Cert.Results.S3200000.Idx), 0 ≤ ((A4 m c) e).toInt ∧ ((A4 m c) e).toInt < 100000)
    (h5 : ∀ (c : Dev nD) (e : Cert.Results.S3200000.Idx), 0 ≤ ((A5 m c) e).toInt ∧ ((A5 m c) e).toInt < 100000) :
    θ_run (defs (F := Ideal)) (onTc (τ := τ) (main (F := Ideal))) ⟨m, fun _ => 0, ρ⟩ (fun r => ∀ c : Dev nD,
      r.2.mem ((c.tc : Thread nD τ).loc main_v45) = Cert.Results.pooledE (A0 m c) (A1 m c) (A2 m c)
      ∧ r.2.mem ((c.tc : Thread nD τ).loc main_v1_0) = Cert.Results.assign (A0 m c) (A1 m c) (A2 m c)
      ∧ r.2.mem ((c.tc : Thread nD τ).loc main_v35) = Cert.Results.spectralE (A0 m c) (A1 m c) (A2 m c) (A3 m c) (A4 m c) (A5 m c)
      ∧ r.2.mem ((c.tc : Thread nD τ).loc main_v41) = Cert.Results.collapse (A0 m c) (A1 m c) (A2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  OrdCont.mono (θ_run (defs (F := Ideal)) (onTc (τ := τ) (main (F := Ideal))) ⟨m, fun _ => 0, ρ⟩) (fun r h c =>
    ⟨(h c _ (mem_uc main_v45 (by decide))).trans (W10_v45 m ρ c),
     (h c _ (mem_uc main_v1_0 (by decide))).trans (W10_v1_0 m ρ c),
     (h c _ (mem_uc main_v35 (by decide))).trans (W10_v35 m ρ c h4 h5),
     (h c _ (mem_uc main_v41 (by decide))).trans (W10_v41 m ρ c),
     (h c _ (mem_uc main_arg0 (by decide))).trans (W10_main_arg0 m ρ c),
     (h c _ (mem_uc main_arg1 (by decide))).trans (W10_main_arg1 m ρ c),
     (h c _ (mem_uc main_arg2 (by decide))).trans (W10_main_arg2 m ρ c),
     (h c _ (mem_uc main_arg3 (by decide))).trans (W10_main_arg3 m ρ c),
     (h c _ (mem_uc main_arg4 (by decide))).trans (W10_main_arg4 m ρ c),
     (h c _ (mem_uc main_arg5 (by decide))).trans (W10_main_arg5 m ρ c)⟩) (run_all m ρ)

end Cert.KernelIdeal.Val

end
-- ==== Proof.Ref.Vals.lean ====
import proofs.«403249_j11562051960853_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.SL.Sem

variable {F : FTy → Type} [FloatOps F]

section Stages

variable (a0 : FVec F S100000x128 .f32) (a1 : FVec F S64x128 .f32) (a2 : FVec F S64 .f32)
  (s : FVec F S100000x64 .f32) (a3 : FVec F S3200000 .f32) (a4 a5 : IVec S3200000 32)

def zero : FVec F S_ .f32 := constant S_ .f32 0x00000000#32

def negInf : FVec F S_ .f32 := constant S_ .f32 0xFF800000#32

-- A value per row, repeated along the row.
def alongRows (v : FVec F S100000 .f32) : FVec F S100000x64 .f32 :=
  broadcastInDim S100000x64 ![0, 1] bcast_S100000x1_S100000x64_0_1 (broadcastInDim S100000x1 ![0] bcast_S100000_S100000x1_0 v)

-- A value per column, repeated down the column.
def downCols (v : FVec F S64 .f32) : FVec F S100000x64 .f32 :=
  broadcastInDim S100000x64 ![0, 1] bcast_S1x64_S100000x64_0_1 (broadcastInDim S1x64 ![1] bcast_S64_S1x64_1 v)

def transposed (m : FVec F S100000x64 .f32) : FVec F S64x100000 .f32 :=
  transpose S64x100000 [1, 0] m transposes_S100000x64_S64x100000_1_0

def asCol {α : Type} (v : S3200000.Idx → α) : S3200000x1.Idx → α :=
  broadcastInDim S3200000x1 ![0] bcast_S3200000_S3200000x1_0 v

-- x Wᵀ + b
def logits : FVec F S100000x64 .f32 :=
  addf (Host.dotGeneral dot_S100000x128_S128x64_S100000x64_1_0_0_1_n_n none a0
    (transpose S128x64 [1, 0] a1 transposes_S64x128_S128x64_1_0)) (downCols a2)

def rowMax : FVec F S100000 .f32 :=
  maximumf (broadcastInDim S100000 ![] bcast_S_S100000 negInf)
    (Host.reduce FloatOps.maximumf (logits a0 a1 a2) negInf reducesTo_S100000x64_S100000_d1 h_S_)

def expo : FVec F S100000x64 .f32 := Host.exp (subf (logits a0 a1 a2) (alongRows (rowMax a0 a1 a2)))

-- The row-wise softmax of the logits.
def softmax : FVec F S100000x64 .f32 :=
  Host.divf (expo a0 a1 a2) (alongRows (Host.reduceAdd (expo a0 a1 a2) zero reducesTo_S100000x64_S100000_d1 h_S_))

def colSums : FVec F S64 .f32 := Host.reduceAdd s zero reducesTo_S100000x64_S64_d0 h_S_

def perCol : FVec F S100000x64 .f32 := Host.divf s (downCols (colSums s))

-- tᵀ x
def pooled (t : FVec F S100000x64 .f32) : FVec F S64x128 .f32 :=
  Host.dotGeneral dot_S64x100000_S100000x128_S64x128_1_0_0_1_n_n none (transposed t) a0

def fill (c : FVec F S_ .f32) : FVec F S64x128 .f32 := broadcastInDim S64x128 ![] bcast_S_S64x128 c

-- λ x where x > 0, else λ α (exp x - 1)
def selu (x : FVec F S64x128 .f32) : FVec F S64x128 .f32 :=
  mulf (fill (constant S_ .f32 0x3F867D5F#32))
    (select (cmpf .ogt x (fill zero)) x
      (mulf (fill (constant S_ .f32 0x3FD62D7D#32)) (Host.expm1 (select (cmpf .ogt x (fill zero)) (fill zero) x))))

-- (‖cs‖ / N · √K - 1) / 10
def collapse (cs : FVec F S64 .f32) : FVec F S_ .f32 :=
  mulf (constant S_ .f32 0x3DCCCCCD#32)
    (subf (mulf (Host.divf (Host.sqrt (Host.reduceAdd (mulf cs cs) zero reducesTo_S64_S_d0 h_S_)) (constant S_ .f32 0x47C35000#32))
      (Host.sqrt (constant S_ .f32 0x42800000#32))) (constant S_ .f32 0x3F800000#32))

-- The degrees, as a column: each edge's weight added at its target node.
def degCol : FVec F S100000x1 .f32 :=
  broadcastInDim S100000x1 ![0] bcast_S100000_S100000x1_0
    (Host.scatterAdd scatter_S100000_S3200000x1_S3200000_n_0_0_1 (broadcastInDim S100000 ![] bcast_S_S100000 zero) (asCol a5) a3)

def mass : FVec F S_ .f32 := Host.reduceAdd (degCol a3 a5) zero reducesTo_S100000x1_S_d0_1 h_S_

def twice (m : FVec F S_ .f32) : FVec F S_ .f32 := mulf (constant S_ .f32 0x40000000#32) m

-- The target indices, the negative ones moved up by the number of nodes.
def wrapped : IVec S3200000 32 :=
  select (cmpi .slt a5 (broadcastInDim S3200000 ![] bcast_S_S3200000 (constantI S_ 32 0#32)))
    (addi a5 (broadcastInDim S3200000 ![] bcast_S_S3200000 (constantI S_ 32 100000#32))) a5

-- A s: each edge's weighted row of s at its target, added at its source node.
def adjS : FVec F S100000x64 .f32 :=
  Host.scatterAdd scatter_S100000x64_S3200000x1_S3200000x64_1_0_0_1 (broadcastInDim S100000x64 ![] bcast_S_S100000x64 zero) (asCol a4)
    (mulf (broadcastInDim S3200000x64 ![0, 1] bcast_S3200000x1_S3200000x64_0_1 (asCol a3))
      (Host.gather gather_S100000x64_S3200000x1_S3200000x64_1_0_n_n_0_1_164 s (asCol (wrapped a5))))

-- sᵀ A s - (sᵀ d)(dᵀ s) / (2 m)
def modularity : FVec F S64x64 .f32 :=
  subf (Host.dotGeneral dot_S64x100000_S100000x64_S64x64_1_0_0_1_n_n none (transposed (adjS s a3 a4 a5)) s)
    (Host.divf
      (Host.dotGeneral dot_S64x1_S1x64_S64x64_1_0_0_1_n_n none
        (Host.dotGeneral dot_S64x100000_S100000x1_S64x1_1_0_0_1_n_n none (transposed s) (degCol a3 a5))
        (Host.dotGeneral dot_S1x100000_S100000x64_S1x64_1_0_0_1_n_n none
          (transpose S1x100000 [1, 0] (degCol a3 a5) transposes_S100000x1_S1x100000_1_0) s))
      (broadcastInDim S64x64 ![] bcast_S_S64x64 (twice (mass a3 a5))))

def diagMask : IVec S64x64 1 :=
  cmpi .eq (addi (iotaInDim S64x64 32 0) (broadcastInDim S64x64 ![] bcast_S_S64x64 (constantI S_ 32 0#32))) (iotaInDim S64x64 32 1)

def trace (g : FVec F S64x64 .f32) : FVec F S_ .f32 :=
  Host.reduceAdd (select diagMask g (broadcastInDim S64x64 ![] bcast_S_S64x64 zero)) zero reducesTo_S64x64_S_d0_1 h_S_

-- Minus the trace of the modularity matrix over 2 m.
def spectral : FVec F S_ .f32 := Host.divf (Host.negf (trace (modularity s a3 a4 a5))) (twice (mass a3 a5))

end Stages

def res_v61 (a0 : FVec F S100000x128 .f32) (a1 : FVec F S64x128 .f32) (a2 : FVec F S64 .f32) (a3 : FVec F S3200000 .f32)
    (a4 a5 : IVec S3200000 32) : FVec F S64x128 .f32 := selu (pooled a0 (perCol (softmax a0 a1 a2)))
def res_v15 (a0 : FVec F S100000x128 .f32) (a1 : FVec F S64x128 .f32) (a2 : FVec F S64 .f32) (a3 : FVec F S3200000 .f32)
    (a4 a5 : IVec S3200000 32) : FVec F S100000x64 .f32 := softmax a0 a1 a2
def res_v52 (a0 : FVec F S100000x128 .f32) (a1 : FVec F S64x128 .f32) (a2 : FVec F S64 .f32) (a3 : FVec F S3200000 .f32)
    (a4 a5 : IVec S3200000 32) : FVec F S_ .f32 := spectral (softmax a0 a1 a2) a3 a4 a5
def res_v58 (a0 : FVec F S100000x128 .f32) (a1 : FVec F S64x128 .f32) (a2 : FVec F S64 .f32) (a3 : FVec F S3200000 .f32)
    (a4 a5 : IVec S3200000 32) : FVec F S_ .f32 := collapse (colSums (softmax a0 a1 a2))

end Cert.ReferenceIdeal.RefRun

end
-- ==== Proof.Ref.Run.lean ====
import proofs.«403249_j11562051960853_3_alg».proof.Proof.Ref.Vals

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev ops_part0 : List (HloOp τ sig (Elt F)) :=
  [ unary main_arg1 main_v0 (transpose S128x64 [1, 0] · transposes_S64x128_S128x64_1_0),
    binary main_arg0 main_v0 main_v1 (fun l r => Host.dotGeneral dot_S100000x128_S128x64_S100000x64_1_0_0_1_n_n none l r),
    unary main_arg2 main_v2 (broadcastInDim S1x64 ![1] bcast_S64_S1x64_1),
    unary main_v2 main_v3 (broadcastInDim S100000x64 ![0, 1] bcast_S1x64_S100000x64_0_1),
    binary main_v1 main_v3 main_v4 addf,
    nullary main_cst (constant S_ .f32 0xFF800000#32),
    binary main_v4 main_cst main_v5 (fun x v => Host.reduce FloatOps.maximumf x v reducesTo_S100000x64_S100000_d1 h_S_),
    nullary main_cst_0 (constant S_ .f32 0xFF800000#32),
    unary main_cst_0 main_v6 (broadcastInDim S100000 ![] bcast_S_S100000),
    binary main_v6 main_v5 main_v7 maximumf,
    unary main_v7 main_v8 (broadcastInDim S100000x1 ![0] bcast_S100000_S100000x1_0),
    unary main_v8 main_v9 (broadcastInDim S100000x64 ![0, 1] bcast_S100000x1_S100000x64_0_1),
    binary main_v4 main_v9 main_v10 subf,
    unary main_v10 main_v11 Host.exp,
    nullary main_cst_1 (constant S_ .f32 0x00000000#32),
    binary main_v11 main_cst_1 main_v12 (fun x v => Host.reduceAdd x v reducesTo_S100000x64_S100000_d1 h_S_),
    unary main_v12 main_v13 (broadcastInDim S100000x1 ![0] bcast_S100000_S100000x1_0),
    unary main_v13 main_v14 (broadcastInDim S100000x64 ![0, 1] bcast_S100000x1_S100000x64_0_1),
    binary main_v11 main_v14 main_v15 Host.divf,
    nullary main_cst_2 (constant S_ .f32 0x00000000#32),
    binary main_v15 main_cst_2 main_v16 (fun x v => Host.reduceAdd x v reducesTo_S100000x64_S64_d0 h_S_),
    unary main_v16 main_v17 (broadcastInDim S1x64 ![1] bcast_S64_S1x64_1),
    unary main_v17 main_v18 (broadcastInDim S100000x64 ![0, 1] bcast_S1x64_S100000x64_0_1),
    binary main_v15 main_v18 main_v19 Host.divf,
    nullary main_cst_3 (constant S_ .f32 0x00000000#32),
    unary main_cst_3 main_v20 (broadcastInDim S100000 ![] bcast_S_S100000),
    unary main_arg5 main_v21 (broadcastInDim S3200000x1 ![0] bcast_S3200000_S3200000x1_0),
    ternary main_v20 main_v21 main_arg3 main_v22 (fun x i u => Host.scatterAdd scatter_S100000_S3200000x1_S3200000_n_0_0_1 x i u),
    unary main_v22 main_v23 (broadcastInDim S100000x1 ![0] bcast_S100000_S100000x1_0),
    nullary main_cst_4 (constant S_ .f32 0x00000000#32),
    binary main_v23 main_cst_4 main_v24 (fun x v => Host.reduceAdd x v reducesTo_S100000x1_S_d0_1 h_S_),
    unary main_arg3 main_v25 (broadcastInDim S3200000x1 ![0] bcast_S3200000_S3200000x1_0),
    nullary main_c (constantI S_ 32 0#32),
    unary main_c main_v26 (broadcastInDim S3200000 ![] bcast_S_S3200000),
    binary main_arg5 main_v26 main_v27 (cmpi .slt),
    nullary main_c_5 (constantI S_ 32 100000#32),
    unary main_c_5 main_v28 (broadcastInDim S3200000 ![] bcast_S_S3200000),
    binary main_arg5 main_v28 main_v29 addi,
    ternary main_v27 main_v29 main_arg5 main_v30 select,
    unary main_v30 main_v31 (broadcastInDim S3200000x1 ![0] bcast_S3200000_S3200000x1_0),
    binary main_v15 main_v31 main_v32 (fun x i => Host.gather gather_S100000x64_S3200000x1_S3200000x64_1_0_n_n_0_1_164 x i),
    unary main_v25 main_v33 (broadcastInDim S3200000x64 ![0, 1] bcast_S3200000x1_S3200000x64_0_1),
    binary main_v33 main_v32 main_v34 mulf,
    nullary main_cst_6 (constant S_ .f32 0x00000000#32),
    unary main_cst_6 main_v35 (broadcastInDim S100000x64 ![] bcast_S_S100000x64),
    unary main_arg4 main_v36 (broadcastInDim S3200000x1 ![0] bcast_S3200000_S3200000x1_0),
    ternary main_v35 main_v36 main_v34 main_v37 (fun x i u => Host.scatterAdd scatter_S100000x64_S3200000x1_S3200000x64_1_0_0_1 x i u),
    unary main_v37 main_v38 (transpose S64x100000 [1, 0] · transposes_S100000x64_S64x100000_1_0),
    binary main_v38 main_v15 main_v39 (fun l r => Host.dotGeneral dot_S64x100000_S100000x64_S64x64_1_0_0_1_n_n none l r),
    unary main_v15 main_v40 (transpose S64x100000 [1, 0] · transposes_S100000x64_S64x100000_1_0),
    binary main_v40 main_v23 main_v41 (fun l r => Host.dotGeneral dot_S64x100000_S100000x1_S64x1_1_0_0_1_n_n none l r),
    unary main_v23 main_v42 (transpose S1x100000 [1, 0] · transposes_S100000x1_S1x100000_1_0),
    binary main_v42 main_v15 main_v43 (fun l r => Host.dotGeneral dot_S1x100000_S100000x64_S1x64_1_0_0_1_n_n none l r),
    binary main_v41 main_v43 main_v44 (fun l r => Host.dotGeneral dot_S64x1_S1x64_S64x64_1_0_0_1_n_n none l r),
    nullary main_cst_7 (constant S_ .f32 0x40000000#32),
    binary main_cst_7 main_v24 main_v45 mulf,
    unary main_v45 main_v46 (broadcastInDim S64x64 ![] bcast_S_S64x64),
    binary main_v44 main_v46 main_v47 Host.divf,
    binary main_v39 main_v47 main_v48 subf,
    TRef.nullary main_call0.v0 (iotaInDim S64x64 32 0),
    TRef.nullary main_call0.v1 (iotaInDim S64x64 32 1),
    TRef.nullary main_call0.c (constantI S_ 32 0#32),
    TRef.unary main_call0.c main_call0.v2 (broadcastInDim S64x64 ![] bcast_S_S64x64),
    TRef.binary main_call0.v0 main_call0.v2 main_call0.v3 addi,
    TRef.binary main_call0.v3 main_call0.v1 main_call0.v4 (cmpi .eq),
    TRef.nullary main_call0.cst (constant S_ .f32 0x00000000#32),
    TRef.unary main_call0.cst main_call0.v5 (broadcastInDim S64x64 ![] bcast_S_S64x64),
    TRef.ternary main_call0.v4 (.of main_v48) main_call0.v5 main_call0.call0.v0 select,
    TRef.nullary main_call0.cst_0 (constant S_ .f32 0x00000000#32),
    TRef.binary main_call0.call0.v0 main_call0.cst_0 main_call0.v7 (fun x v => Host.reduceAdd x v reducesTo_S64x64_S_d0_1 h_S_) ]

abbrev ops_part1 : List (HloOp τ sig (Elt F)) :=
  [ unary main_v49 main_v50 Host.negf,
    nullary main_cst_8 (constant S_ .f32 0x40000000#32),
    binary main_cst_8 main_v24 main_v51 mulf,
    binary main_v50 main_v51 main_v52 Host.divf,
    TRef.binary (.of main_v16) (.of main_v16) main_call1.v0 mulf,
    TRef.nullary main_call1.cst (constant S_ .f32 0x00000000#32),
    TRef.binary main_call1.v0 main_call1.cst main_call1.v1 (fun x v => Host.reduceAdd x v reducesTo_S64_S_d0 h_S_),
    TRef.unary main_call1.v1 main_call1.v2 Host.sqrt,
    nullary main_cst_9 (constant S_ .f32 0x47C35000#32),
    binary main_v53 main_cst_9 main_v54 Host.divf,
    nullary main_cst_10 (constant S_ .f32 0x42800000#32),
    unary main_cst_10 main_v55 Host.sqrt,
    binary main_v54 main_v55 main_v56 mulf,
    nullary main_cst_11 (constant S_ .f32 0x3F800000#32),
    binary main_v56 main_cst_11 main_v57 subf,
    nullary main_cst_12 (constant S_ .f32 0x3DCCCCCD#32),
    binary main_cst_12 main_v57 main_v58 mulf,
    unary main_v19 main_v59 (transpose S64x100000 [1, 0] · transposes_S100000x64_S64x100000_1_0),
    binary main_v59 main_arg0 main_v60 (fun l r => Host.dotGeneral dot_S64x100000_S100000x128_S64x128_1_0_0_1_n_n none l r),
    TRef.nullary main_call2.cst (constant S_ .f32 0x3FD62D7D#32),
    TRef.nullary main_call2.call0.cst (constant S_ .f32 0x00000000#32),
    TRef.unary main_call2.call0.cst main_call2.call0.v0 (broadcastInDim S64x128 ![] bcast_S_S64x128),
    TRef.binary (.of main_v60) main_call2.call0.v0 main_call2.call0.v1 (cmpf .ogt),
    TRef.nullary main_call2.call0.cst_0 (constant S_ .f32 0x00000000#32),
    TRef.unary main_call2.call0.cst_0 main_call2.call0.v2 (broadcastInDim S64x128 ![] bcast_S_S64x128),
    TRef.binary (.of main_v60) main_call2.call0.v2 main_call2.call0.v3 (cmpf .ogt),
    TRef.nullary main_call2.call0.cst_1 (constant S_ .f32 0x00000000#32),
    TRef.unary main_call2.call0.cst_1 main_call2.call0.call0.v0 id,
    TRef.unary main_call2.call0.call0.v0 main_call2.call0.call0.v1 (broadcastInDim S64x128 ![] bcast_S_S64x128),
    TRef.ternary main_call2.call0.v3 main_call2.call0.call0.v1 (.of main_v60) main_call2.call0.call0.v2 select,
    TRef.unary main_call2.call0.call0.v2 main_call2.call0.v5 Host.expm1,
    TRef.unary main_call2.cst main_call2.call0.v6 id,
    TRef.unary main_call2.call0.v6 main_call2.call0.v7 (broadcastInDim S64x128 ![] bcast_S_S64x128),
    TRef.binary main_call2.call0.v7 main_call2.call0.v5 main_call2.call0.v8 mulf,
    TRef.ternary main_call2.call0.v1 (.of main_v60) main_call2.call0.v8 main_call2.call0.call1.v0 select,
    TRef.nullary main_call2.cst_0 (constant S_ .f32 0x3F867D5F#32),
    TRef.unary main_call2.cst_0 main_call2.v1 (broadcastInDim S64x128 ![] bcast_S_S64x128),
    TRef.binary main_call2.v1 main_call2.call0.call1.v0 main_call2.v2 mulf ]

abbrev ops : List (HloOp τ sig (Elt F)) := ops_part0 ++ ops_part1

set_option maxHeartbeats 4000000 in
theorem main_part0_eq (c : Dev nD) : main_part0 (F := F) c = seq ops_part0 := by
  simp only [main_part0, fn_trace.body, fn_where.body, seq, bind_assoc, pure_bind]
  rfl

set_option maxHeartbeats 4000000 in
theorem main_part1_eq (c : Dev nD) : main_part1 (F := F) c = seq ops_part1 := by
  simp only [main_part1, fn_norm.body, fn_selu.body, fn_elu.body, fn_where_0.body, fn_where_1.body, seq, bind_assoc, pure_bind]
  rfl

theorem main_eq (c : Dev nD) : main (F := F) c = seq ops := by
  simp only [main, ops, seq_append, main_part0_eq, main_part1_eq]

-- What holds of every operation of both halves holds of every operation of the line.
theorem forall_ops {p : HloOp τ sig (Elt F) → Prop} (h0 : ops_part0.Forall p) (h1 : ops_part1.Forall p) : ∀ op ∈ ops, p op :=
  fun op h => (List.mem_append.1 h).elim (List.forall_iff_forall_mem.1 h0 op) (List.forall_iff_forall_mem.1 h1 op)

theorem ops_sub : (ops : List (HloOp τ sig (Elt F))).Forall fun op => op.bufs ⊆ tcRefs τ sig :=
  List.forall_iff_forall_mem.2 <| forall_ops
    ⟨unary_bufs_sub .., binary_bufs_sub .., unary_bufs_sub .., unary_bufs_sub .., binary_bufs_sub .., nullary_bufs_sub ..,
    binary_bufs_sub .., nullary_bufs_sub .., unary_bufs_sub .., binary_bufs_sub .., unary_bufs_sub .., unary_bufs_sub ..,
    binary_bufs_sub .., unary_bufs_sub .., nullary_bufs_sub .., binary_bufs_sub .., unary_bufs_sub .., unary_bufs_sub ..,
    binary_bufs_sub .., nullary_bufs_sub .., binary_bufs_sub .., unary_bufs_sub .., unary_bufs_sub .., binary_bufs_sub ..,
    nullary_bufs_sub .., unary_bufs_sub .., unary_bufs_sub .., ternary_bufs_sub .., unary_bufs_sub .., nullary_bufs_sub ..,
    binary_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    binary_bufs_sub .., nullary_bufs_sub .., unary_bufs_sub .., unary_bufs_sub .., ternary_bufs_sub .., unary_bufs_sub ..,
    binary_bufs_sub .., unary_bufs_sub .., binary_bufs_sub .., unary_bufs_sub .., binary_bufs_sub .., binary_bufs_sub ..,
    nullary_bufs_sub .., binary_bufs_sub .., unary_bufs_sub .., binary_bufs_sub .., binary_bufs_sub ..,
    nullary_bufs_sub .., nullary_bufs_sub .., nullary_bufs_sub .., unary_bufs_sub .., binary_bufs_sub .., binary_bufs_sub ..,
    nullary_bufs_sub .., unary_bufs_sub .., ternary_bufs_sub .., nullary_bufs_sub .., binary_bufs_sub ..⟩
    ⟨unary_bufs_sub .., nullary_bufs_sub .., binary_bufs_sub .., binary_bufs_sub ..,
    binary_bufs_sub .., nullary_bufs_sub .., binary_bufs_sub .., unary_bufs_sub ..,
    nullary_bufs_sub .., binary_bufs_sub .., nullary_bufs_sub .., unary_bufs_sub .., binary_bufs_sub .., nullary_bufs_sub ..,
    binary_bufs_sub .., nullary_bufs_sub .., binary_bufs_sub .., unary_bufs_sub .., binary_bufs_sub ..,
    nullary_bufs_sub .., nullary_bufs_sub .., unary_bufs_sub .., binary_bufs_sub .., nullary_bufs_sub .., unary_bufs_sub ..,
    binary_bufs_sub .., nullary_bufs_sub .., unary_bufs_sub .., unary_bufs_sub .., ternary_bufs_sub .., unary_bufs_sub ..,
    unary_bufs_sub .., unary_bufs_sub .., binary_bufs_sub .., ternary_bufs_sub .., nullary_bufs_sub .., unary_bufs_sub ..,
    binary_bufs_sub ..⟩

theorem ops_fresh : ∀ op ∈ (ops : List (HloOp τ sig (Elt F))), op.fresh = ∅ :=
  forall_ops (by repeat' first | exact rfl | refine ⟨rfl, ?_⟩) (by repeat' first | exact rfl | refine ⟨rfl, ?_⟩)

theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

section Fold

variable (V : Valuation τ sig (Elt F))

theorem out_v61 : after ops V (Proc.devRef .tc main_v61)
    = res_v61 (V (Proc.devRef .tc main_arg0)) (V (Proc.devRef .tc main_arg1)) (V (Proc.devRef .tc main_arg2))
        (V (Proc.devRef .tc main_arg3)) (V (Proc.devRef .tc main_arg4)) (V (Proc.devRef .tc main_arg5)) := by
  rw [ops, after_app]; simp only [ops_part0, ops_part1]; after_results_simp
  (try simp only [TRef.ofBuf, TRef.toBuf, cast_eq])
  rfl

theorem out_v15 : after ops V (Proc.devRef .tc main_v15)
    = res_v15 (V (Proc.devRef .tc main_arg0)) (V (Proc.devRef .tc main_arg1)) (V (Proc.devRef .tc main_arg2))
        (V (Proc.devRef .tc main_arg3)) (V (Proc.devRef .tc main_arg4)) (V (Proc.devRef .tc main_arg5)) := by
  rw [ops, after_app]; simp only [ops_part0, ops_part1]; after_results_simp
  rfl

theorem out_v52 : after ops V (Proc.devRef .tc main_v52)
    = res_v52 (V (Proc.devRef .tc main_arg0)) (V (Proc.devRef .tc main_arg1)) (V (Proc.devRef .tc main_arg2))
        (V (Proc.devRef .tc main_arg3)) (V (Proc.devRef .tc main_arg4)) (V (Proc.devRef .tc main_arg5)) := by
  rw [ops, after_app]; simp only [ops_part0, ops_part1]; after_results_simp
  (try simp only [TRef.ofBuf, TRef.toBuf, cast_eq])
  rfl

theorem out_v58 : after ops V (Proc.devRef .tc main_v58)
    = res_v58 (V (Proc.devRef .tc main_arg0)) (V (Proc.devRef .tc main_arg1)) (V (Proc.devRef .tc main_arg2))
        (V (Proc.devRef .tc main_arg3)) (V (Proc.devRef .tc main_arg4)) (V (Proc.devRef .tc main_arg5)) := by
  rw [ops, after_app]; simp only [ops_part0, ops_part1]; after_results_simp
  (try simp only [TRef.ofBuf, TRef.toBuf, cast_eq])
  rfl

theorem out_arg0 : after ops V (Proc.devRef .tc main_arg0) = V (Proc.devRef .tc main_arg0) := by
  rw [ops, after_app]; simp only [ops_part0, ops_part1]; after_results_simp
theorem out_arg1 : after ops V (Proc.devRef .tc main_arg1) = V (Proc.devRef .tc main_arg1) := by
  rw [ops, after_app]; simp only [ops_part0, ops_part1]; after_results_simp
theorem out_arg2 : after ops V (Proc.devRef .tc main_arg2) = V (Proc.devRef .tc main_arg2) := by
  rw [ops, after_app]; simp only [ops_part0, ops_part1]; after_results_simp
theorem out_arg3 : after ops V (Proc.devRef .tc main_arg3) = V (Proc.devRef .tc main_arg3) := by
  rw [ops, after_app]; simp only [ops_part0, ops_part1]; after_results_simp
theorem out_arg4 : after ops V (Proc.devRef .tc main_arg4) = V (Proc.devRef .tc main_arg4) := by
  rw [ops, after_app]; simp only [ops_part0, ops_part1]; after_results_simp
theorem out_arg5 : after ops V (Proc.devRef .tc main_arg5) = V (Proc.devRef .tc main_arg5) := by
  rw [ops, after_app]; simp only [ops_part0, ops_part1]; after_results_simp

end Fold

theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      (r.2.mem ((c.tc : Thread nD τ).loc main_v61)
          = res_v61 (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
        ∧ r.2.mem ((c.tc : Thread nD τ).loc main_v15)
          = res_v15 (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
        ∧ r.2.mem ((c.tc : Thread nD τ).loc main_v52)
          = res_v52 (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
        ∧ r.2.mem ((c.tc : Thread nD τ).loc main_v58)
          = res_v58 (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5)))
      ∧ (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5))) :=
  (θ_run defs _ _).mono (fun _ h c =>
      ⟨⟨(h c main_v61).trans (out_v61 _), (h c main_v15).trans (out_v15 _), (h c main_v52).trans (out_v52 _),
          (h c main_v58).trans (out_v58 _)⟩,
        ⟨(h c main_arg0).trans (out_arg0 _), (h c main_arg1).trans (out_arg1 _), (h c main_arg2).trans (out_arg2 _),
          (h c main_arg3).trans (out_arg3 _), (h c main_arg4).trans (out_arg4 _), (h c main_arg5).trans (out_arg5 _)⟩⟩)
    (run_seq (by decide) (by decide) defs main (fun _ => ops) main_eq (fun _ => ops_sub) m ρ (fun _ => ops_fresh))

end Cert.ReferenceIdeal.RefRun

end
-- ==== Proof.Ref.ValA.lean ====
import proofs.«403249_j11562051960853_3_alg».proof.Proof.Ref.Vals
import proofs.«403249_j11562051960853_3_alg».proof.Proof.Results
import Idealize.ShloMosaic.PureOps.Ideal.Laws
import Idealize.ShloMosaic.PureOps.Reduce
import Idealize.ShloMosaic.Lib.IdealHost
import Idealize.ShloMosaic.Lib.ValueIdx
import Idealize.ShloMosaic.Lib.Pipeline.Value
import Idealize.ShloMosaic.Lib.StableHlo.Predicate

noncomputable section

open scoped BigOperators

namespace Cert.ReferenceIdeal.RefVal

open Cert.ReferenceIdeal Cert.ReferenceIdeal.Gen Cert.ReferenceIdeal.RefRun
open Idealize.ShloMosaic Idealize.ShloMosaic.ValueIdx

section Layout
variable {α : Type} {m n : Nat}

theorem ixP_eq (p : Fin n) : StableHlo.Predicate.ixP p = ix2 p (0 : Fin 1) :=
  funext fun a => by match a with | ⟨0, _⟩ => rfl | ⟨1, _⟩ => rfl

theorem ij_eq (p : Fin m) (q : Fin n) : StableHlo.Predicate.ij p q = ix2 p q :=
  funext fun a => by match a with | ⟨0, _⟩ => rfl | ⟨1, _⟩ => rfl

theorem ofFin_eq (p : Fin n) : (Shape.Idx.ofFin p : (⟨1, ![n]⟩ : Shape).Idx) = ix1 p :=
  funext fun a => by match a with | ⟨0, _⟩ => rfl

theorem transpose2_apply (h : (⟨2, ![m, n]⟩ : Shape).Transposes [1, 0] ⟨2, ![n, m]⟩)
    (x : (⟨2, ![m, n]⟩ : Shape).Idx → α) (a : Fin n) (b : Fin m) :
    transpose ⟨2, ![n, m]⟩ [1, 0] x h (ix2 a b) = x (ix2 b a) :=
  transpose_apply [1, 0] x h (ix2 a b) (ix2 b a) fun c => by match c with | ⟨0, _⟩ => rfl | ⟨1, _⟩ => rfl

theorem bcast_col_apply (h : (⟨1, ![n]⟩ : Shape).BroadcastsInDim ⟨2, ![n, 1]⟩ ![0])
    (v : (⟨1, ![n]⟩ : Shape).Idx → α) (p : Fin n) :
    broadcastInDim ⟨2, ![n, 1]⟩ ![0] h v (ix2 p (0 : Fin 1)) = v (ix1 p) := by
  rw [← ixP_eq, ← ofFin_eq]
  exact StableHlo.Predicate.bcast_col1 h v p

theorem bcastRow_apply (h₁ : (⟨1, ![n]⟩ : Shape).BroadcastsInDim ⟨2, ![1, n]⟩ ![1])
    (h₂ : (⟨2, ![1, n]⟩ : Shape).BroadcastsInDim ⟨2, ![m, n]⟩ ![0, 1]) (v : (⟨1, ![n]⟩ : Shape).Idx → α)
    (p : Fin m) (q : Fin n) :
    broadcastInDim ⟨2, ![m, n]⟩ ![0, 1] h₂ (broadcastInDim ⟨2, ![1, n]⟩ ![1] h₁ v) (ix2 p q) = v (ix1 q) := by
  rw [← ij_eq, ← ofFin_eq]
  exact StableHlo.Predicate.bcast_cols h₁ h₂ v p q

theorem bcastCol_apply (h₁ : (⟨1, ![m]⟩ : Shape).BroadcastsInDim ⟨2, ![m, 1]⟩ ![0])
    (h₂ : (⟨2, ![m, 1]⟩ : Shape).BroadcastsInDim ⟨2, ![m, n]⟩ ![0, 1]) (v : (⟨1, ![m]⟩ : Shape).Idx → α)
    (p : Fin m) (q : Fin n) :
    broadcastInDim ⟨2, ![m, n]⟩ ![0, 1] h₂ (broadcastInDim ⟨2, ![m, 1]⟩ ![0] h₁ v) (ix2 p q) = v (ix1 p) := by
  rw [← ij_eq, ← ofFin_eq]
  exact StableHlo.Predicate.bcast_rows h₁ h₂ v p q

end Layout

section Dot
variable {m k n : Nat} {φ₁ φ₂ : FTy}

abbrev dims2 (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

variable (w : DotDims.WF ⟨2, ![m, k]⟩ ⟨2, ![k, n]⟩ ⟨2, ![m, n]⟩ [1] [0] [0] [1] [] []) (a : Fin m) (b : Fin n) (c : Fin k)

theorem dims2_lhsIdx : (dims2 w).lhsIdx (ix2 a b) ((contrEquiv1 (dims2 w) k rfl rfl).symm c) = ix2 a c := by
  have c2 := contrEquiv1_symm_val (dims2 w) k rfl rfl c
  funext ax; apply Fin.ext
  match ax with
  | ⟨0, _⟩ => simp [DotDims.lhsIdx]; rfl
  | ⟨1, _⟩ => simp [DotDims.lhsIdx]; exact c2

theorem dims2_rhsIdx : (dims2 w).rhsIdx (ix2 a b) ((contrEquiv1 (dims2 w) k rfl rfl).symm c) = ix2 c b := by
  have c2 := contrEquiv1_symm_val (dims2 w) k rfl rfl c
  funext ax; apply Fin.ext
  match ax with
  | ⟨0, _⟩ => simp [DotDims.rhsIdx]; exact c2
  | ⟨1, _⟩ => simp [DotDims.rhsIdx]; rfl

-- A plain product of two rectangles at (a, b): the sum over the contracted coordinate.
theorem dot_apply (d : DotDims ⟨2, ![m, k]⟩ ⟨2, ![k, n]⟩ ⟨2, ![m, n]⟩) (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂) :
    Host.dotGeneral d prec A B (ix2 a b) = ∑ c : Fin k, A (ix2 a c) * B (ix2 c b) := by
  obtain ⟨_, _, _, _, _, _, w⟩ := d
  cases hlc; cases hrc; cases hln; cases hrn; cases hlb; cases hrb
  show FloatOps.dotGeneral _ prec _ A B (ix2 a b) = _
  rw [Ideal.dotGeneral_apply, ← Equiv.sum_comp (contrEquiv1 (dims2 w) k rfl rfl).symm]
  exact Finset.sum_congr rfl fun c _ => by rw [dims2_lhsIdx, dims2_rhsIdx]

end Dot

section Reduce
variable {m n : Nat}

theorem first_eq_ix0 (hu : 0 < (⟨0, ![]⟩ : Shape).numel) : Shape.Idx.first hu = ix0 := funext fun a => a.elim0

theorem lift_d1 (h : (⟨2, ![m, n]⟩ : Shape).Reduces [1] ⟨1, ![m]⟩) (p : Fin m) (q : Fin n) : h.lift (ix1 p) q = ix2 p q := by
  funext c; apply Fin.ext
  match c with
  | ⟨0, _⟩ => rfl
  | ⟨1, _⟩ => rfl

theorem lift_d0 (h : (⟨2, ![m, n]⟩ : Shape).Reduces [0] ⟨1, ![n]⟩) (p : Fin m) (q : Fin n) : h.lift (ix1 q) p = ix2 p q := by
  funext c; apply Fin.ext
  match c with
  | ⟨0, _⟩ => rfl
  | ⟨1, _⟩ => rfl

variable (x : FVec Ideal ⟨2, ![m, n]⟩ .f32) (init : FVec Ideal ⟨0, ![]⟩ .f32) (hu : 0 < (⟨0, ![]⟩ : Shape).numel)

theorem rowMax_apply (h' : (⟨2, ![m, n]⟩ : Shape).ReducesTo [1] ⟨1, ![m]⟩) (p : Fin m) :
    Host.reduce FloatOps.maximumf x init h' hu (ix1 p)
      = (Finset.univ : Finset (Fin n)).fold max (init ix0) (fun q => x (ix2 p q)) := by
  have h : (⟨2, ![m, n]⟩ : Shape).Reduces [1] ⟨1, ![m]⟩ := ⟨h'.1, Nat.one_pos, h'.2⟩
  rw [Host.reduce_eq_fold_single FloatOps.maximumf x init h' h hu (ix1 p), first_eq_ix0,
    show (x ∘ h.lift (ix1 p)) = fun q : Fin n => x (ix2 p q) from funext fun q => congrArg x (lift_d1 h p q)]
  rfl

theorem rowSum_apply (h' : (⟨2, ![m, n]⟩ : Shape).ReducesTo [1] ⟨1, ![m]⟩) (p : Fin m) :
    Host.reduceAdd x init h' hu (ix1 p) = init ix0 + ∑ q : Fin n, x (ix2 p q) := by
  have h : (⟨2, ![m, n]⟩ : Shape).Reduces [1] ⟨1, ![m]⟩ := ⟨h'.1, Nat.one_pos, h'.2⟩
  show Ideal.hostReduceAdd h' x (init (Shape.Idx.first hu)) (ix1 p) = _
  rw [Ideal.hostReduceAdd_single h' h x _ (ix1 p), first_eq_ix0]
  exact congrArg (init ix0 + ·) (Finset.sum_congr rfl fun q _ => congrArg x (lift_d1 h p q))

theorem colSum_apply (h' : (⟨2, ![m, n]⟩ : Shape).ReducesTo [0] ⟨1, ![n]⟩) (q : Fin n) :
    Host.reduceAdd x init h' hu (ix1 q) = init ix0 + ∑ p : Fin m, x (ix2 p q) := by
  have h : (⟨2, ![m, n]⟩ : Shape).Reduces [0] ⟨1, ![n]⟩ := ⟨h'.1, Nat.one_pos, h'.2⟩
  show Ideal.hostReduceAdd h' x (init (Shape.Idx.first hu)) (ix1 q) = _
  rw [Ideal.hostReduceAdd_single h' h x _ (ix1 q), first_eq_ix0]
  exact congrArg (init ix0 + ·) (Finset.sum_congr rfl fun p _ => congrArg x (lift_d0 h p q))

theorem ofBits_neg_inf_f32 : Ideal.ofBits .f32 0xFF800000#32 = ⊥ := by simp [Ideal.ofBits, Ideal.ieee]

end Reduce

section Run
variable (a0 : FVec Ideal S100000x128 .f32) (a1 : FVec Ideal S64x128 .f32) (a2 : FVec Ideal S64 .f32)
  (a3 : FVec Ideal S3200000 .f32) (a4 a5 : IVec S3200000 32) (s : FVec Ideal S100000x64 .f32) (n : Fin 100000) (k : Fin 64)

theorem zero_apply (i : S_.Idx) : zero (F := Ideal) i = 0 := Ideal.ofBits_zero_f32

theorem alongRows_apply (v : FVec Ideal S100000 .f32) : alongRows v (ix2 n k) = v (ix1 n) := bcastCol_apply _ _ v n k

theorem downCols_apply (v : FVec Ideal S64 .f32) : downCols v (ix2 n k) = v (ix1 k) := bcastRow_apply _ _ v n k

theorem transposed_apply : transposed s (ix2 k n) = s (ix2 n k) := transpose2_apply _ s k n

theorem logits_at : logits a0 a1 a2 (ix2 n k) = Cert.Spec.logit (Cert.Results.X a0) (Cert.Results.Wt a1) (Cert.Results.Bs a2) n k := by
  rw [logits, addf_apply, downCols_apply, dot_apply _ _ _ rfl rfl rfl rfl rfl rfl]
  unfold Cert.Spec.logit Cert.Results.X Cert.Results.Wt Cert.Results.Bs
  exact congrArg (· + a2 (ix1 k)) (Finset.sum_congr rfl fun d _ => by rw [transpose2_apply])

-- Folding the maximum from the bottom element, and once more against it.
theorem rowMax_at : rowMax a0 a1 a2 (ix1 n) = Cert.Spec.rmax (Cert.Results.X a0) (Cert.Results.Wt a1) (Cert.Results.Bs a2) n := by
  rw [rowMax, negInf, maximumf_apply, broadcastInDim_scalar_apply, rowMax_apply, constant_apply, ofBits_neg_inf_f32,
    max_eq_right bot_le]
  unfold Cert.Spec.rmax
  exact congrArg (fun f => (Finset.univ : Finset (Fin 64)).fold max ⊥ f) (funext fun k => logits_at a0 a1 a2 n k)

theorem expo_at : expo a0 a1 a2 (ix2 n k) = Cert.Spec.ex (Cert.Results.X a0) (Cert.Results.Wt a1) (Cert.Results.Bs a2) n k := by
  rw [expo]
  show Ideal.exp (subf (logits a0 a1 a2) _ (ix2 n k)) = _
  rw [subf_apply, alongRows_apply, logits_at, rowMax_at]
  rfl

theorem softmax_at : softmax a0 a1 a2 (ix2 n k) = Cert.Results.Sa a0 a1 a2 n k := by
  rw [softmax, hostDivf_apply, alongRows_apply, rowSum_apply, zero_apply, zero_add, expo_at]
  exact congrArg (Ideal.div _) (Finset.sum_congr rfl fun q _ => expo_at a0 a1 a2 n q)

theorem res_v15_eq : res_v15 a0 a1 a2 a3 a4 a5 = Cert.Results.assign a0 a1 a2 := by
  funext i
  obtain ⟨n, k, rfl⟩ : ∃ (n : Fin 100000) (k : Fin 64), i = ix2 n k := ⟨i 0, i 1, eq_ix2 i⟩
  exact softmax_at a0 a1 a2 n k

theorem colSums_at : colSums (softmax a0 a1 a2) (ix1 k) = Cert.Spec.cs (Cert.Results.Sa a0 a1 a2) k := by
  rw [colSums, colSum_apply, zero_apply, zero_add]
  exact Finset.sum_congr rfl fun n _ => softmax_at a0 a1 a2 n k

theorem colSums_eq : colSums (softmax a0 a1 a2) = Cert.Results.csArr a0 a1 a2 := by
  funext i
  obtain ⟨k, rfl⟩ : ∃ k : Fin 64, i = ix1 k := ⟨i 0, eq_ix1 i⟩
  exact colSums_at a0 a1 a2 k

-- The quotient by the column sum is taken entry by entry, before the sum over the nodes.
theorem res_v61_eq : res_v61 a0 a1 a2 a3 a4 a5 = Cert.Results.pooledN a0 a1 a2 := by
  refine congrArg Cert.Shared.seluT (funext fun i => ?_)
  obtain ⟨k, d, rfl⟩ : ∃ (k : Fin 64) (d : Fin 128), i = ix2 k d := ⟨i 0, i 1, eq_ix2 i⟩
  rw [pooled, dot_apply _ _ _ rfl rfl rfl rfl rfl rfl]
  refine Finset.sum_congr rfl fun n _ => ?_
  rw [transposed_apply, perCol, hostDivf_apply, downCols_apply, colSums_at, softmax_at]
  rfl

theorem res_v58_eq : res_v58 a0 a1 a2 a3 a4 a5 = Cert.Results.collapse a0 a1 a2 := by
  unfold res_v58 Cert.Results.collapse
  rw [colSums_eq]
  rfl

end Run

end Cert.ReferenceIdeal.RefVal

end
-- ==== Proof.LibScatterSum.lean ====
import Idealize.ShloMosaic.PureOps.Ideal
import Idealize.ShloMosaic.Lib.ValueIdx
import Mathlib.Algebra.BigOperators.Group.Finset.Basic

noncomputable section

open scoped BigOperators

namespace Idealize.ShloMosaic.ScatterSum

open Idealize.ShloMosaic Idealize.ShloMosaic.ValueIdx

theorem getElem_of_eq_singleton {α : Type*} {l : List α} {a : α} (h : l = [a]) (k : Nat) (hk : k < l.length) :
    l[k] = a := by
  subst h
  exact List.getElem_singleton hk

-- Inside the operand, start plus window is the landing coordinate on every axis; outside, the update is dropped.
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split_ifs with h
  · rw [Option.some.injEq, funext_iff]
    refine forall_congr' fun a => ?_
    have := (h a).1
    rw [Fin.ext_iff]
    show (d.start j idx a + (d.window j a : Int)).toNat = (i a).val ↔ _
    omega
  · exact ⟨fun hn => absurd hn (by simp), fun hf => absurd (fun a => by have := hf a; have := (i a).isLt; omega) h⟩

-- Scatter indices [N, 1] with the index vector on axis 1: update index j reads its one start index at [n, 0].
theorem siIdx_one {s u : Shape} {N : Nat} (d : ScatterDims s (⟨2, ![N, 1]⟩ : Shape) u) (hiv : d.indexVectorDim = 1)
    (a : Fin u.rank) (ha : d.uScatter = [a]) (j : u.Idx) (c : Fin d.scatterDimsToOperandDims.length) (n : Fin N)
    (hn : (j a).val = n.val) : d.siIdx j c = ix2 n (0 : Fin 1) := by
  funext b
  refine Fin.ext ?_
  match b with
  | ⟨0, hb⟩ =>
    have h01 : ¬ (⟨0, hb⟩ : Fin 2).val = d.indexVectorDim := by rw [hiv]; exact Nat.zero_ne_one
    show (d.siIdx j c ⟨0, hb⟩).val = n.val
    rw [← hn, ScatterDims.siIdx, dif_neg h01]
    exact congrArg (fun e => (j e).val) (getElem_of_eq_singleton ha _ _)
  | ⟨1, hb⟩ => exact Nat.lt_one_iff.1 (d.siIdx j c ⟨1, hb⟩).isLt

section Rows
variable {P C N w : Nat} (d : ScatterDims (⟨2, ![P, C]⟩ : Shape) (⟨2, ![N, 1]⟩ : Shape) (⟨2, ![N, C]⟩ : Shape))
  (huw : d.updateWindowDims = [1]) (hiw : d.insertedWindowDims = [0]) (hsd : d.scatterDimsToOperandDims = [0])
  (hiv : d.indexVectorDim = 1)
include huw hiw hsd hiv

-- Axis 0 carries the start index and no window; axis 1 carries the channel and no start.
theorem resultIdx_rows (idx : IVec (⟨2, ![N, 1]⟩ : Shape) w) (n : Fin N) (ch : Fin C) (p : Fin P) (ch' : Fin C) :
    d.resultIdx? (ix2 n ch) idx = some (ix2 p ch') ↔ ((idx (ix2 n (0 : Fin 1))).toInt = (p.val : Int) ∧ ch = ch') := by
  have huS : d.uScatter = [0] := by
    show Shape.kept _ d.updateWindowDims = [0]
    rw [huw]; rfl
  have hK : d.sKept = [1] := by
    show Shape.kept _ d.insertedWindowDims = [1]
    rw [hiw]; rfl
  have h10 : ¬ (1 : Fin 2) = 0 := by decide
  have h0 : (0 : Fin 2) ∈ d.scatterDimsToOperandDims := by rw [hsd]; exact List.mem_singleton_self _
  have h1 : (1 : Fin 2) ∈ d.sKept := by rw [hK]; exact List.mem_singleton_self _
  have hs0 : d.start (ix2 n ch) idx 0 = (idx (ix2 n (0 : Fin 1))).toInt := by
    rw [ScatterDims.start, dif_pos h0, siIdx_one d hiv 0 huS (ix2 n ch) _ n rfl]
  have hs1 : d.start (ix2 n ch) idx 1 = 0 := dif_neg (by rw [hsd]; exact fun h => h10 (List.mem_singleton.1 h))
  have hw0 : d.window (ix2 n ch) 0 = 0 := dif_neg (by rw [hK]; exact fun h => h10 (List.mem_singleton.1 h).symm)
  have hw1 : d.window (ix2 n ch) 1 = ch.val := by
    rw [ScatterDims.window, dif_pos h1]
    exact congrArg (fun e => ((ix2 n ch : (⟨2, ![N, C]⟩ : Shape).Idx) e).val) (getElem_of_eq_singleton huw _ _)
  rw [resultIdx?_eq_some_iff, Fin.forall_fin_two]
  show d.start _ idx 0 + (d.window _ 0 : Int) = (p.val : Int)
    ∧ d.start _ idx 1 + (d.window _ 1 : Int) = (ch'.val : Int) ↔ _
  rw [hs0, hw0, hs1, hw1, Fin.ext_iff]
  omega

theorem scatterAdd_rows_apply (x : (⟨2, ![P, C]⟩ : Shape).Idx → EReal) (idx : IVec (⟨2, ![N, 1]⟩ : Shape) w)
    (upd : (⟨2, ![N, C]⟩ : Shape).Idx → EReal) (p : Fin P) (ch : Fin C) :
    Ideal.hostScatterAdd d x idx upd (ix2 p ch)
      = x (ix2 p ch)
        + ∑ n ∈ Finset.univ.filter (fun n : Fin N => (idx (ix2 n (0 : Fin 1))).toInt = (p.val : Int)),
            upd (ix2 n ch) := by
  unfold Ideal.hostScatterAdd
  congr 1
  rw [Finset.sum_filter, Finset.sum_filter, sum_idx2]
  refine Finset.sum_congr rfl fun n _ => ?_
  by_cases hA : (idx (ix2 n (0 : Fin 1))).toInt = (p.val : Int) <;>
    simp only [resultIdx_rows d huw hiw hsd hiv, hA, true_and, false_and, if_false, if_true, Finset.sum_const_zero,
      Finset.sum_ite_eq', Finset.mem_univ]

end Rows

def idxEquiv1 {n : Nat} : (⟨1, ![n]⟩ : Shape).Idx ≃ Fin n where
  toFun i := i 0
  invFun a := ix1 a
  left_inv i := (eq_ix1 i).symm
  right_inv _ := rfl

section Flat
variable {P N w : Nat} (d : ScatterDims (⟨1, ![P]⟩ : Shape) (⟨2, ![N, 1]⟩ : Shape) (⟨1, ![N]⟩ : Shape))
  (huw : d.updateWindowDims = []) (hiw : d.insertedWindowDims = [0]) (hsd : d.scatterDimsToOperandDims = [0])
  (hiv : d.indexVectorDim = 1)
include huw hiw hsd hiv

theorem resultIdx_flat (idx : IVec (⟨2, ![N, 1]⟩ : Shape) w) (n : Fin N) (p : Fin P) :
    d.resultIdx? (ix1 n) idx = some (ix1 p) ↔ (idx (ix2 n (0 : Fin 1))).toInt = (p.val : Int) := by
  have huS : d.uScatter = [0] := by
    show Shape.kept _ d.updateWindowDims = [0]
    rw [huw]; rfl
  have hK : d.sKept = [] := by
    show Shape.kept _ d.insertedWindowDims = []
    rw [hiw]; rfl
  have h0 : (0 : Fin 1) ∈ d.scatterDimsToOperandDims := by rw [hsd]; exact List.mem_singleton_self _
  have hs0 : d.start (ix1 n) idx 0 = (idx (ix2 n (0 : Fin 1))).toInt := by
    rw [ScatterDims.start, dif_pos h0, siIdx_one d hiv 0 huS (ix1 n) _ n rfl]
  have hw0 : d.window (ix1 n) 0 = 0 := dif_neg (by rw [hK]; exact List.not_mem_nil)
  rw [resultIdx?_eq_some_iff, Fin.forall_fin_one]
  show d.start _ idx 0 + (d.window _ 0 : Int) = (p.val : Int) ↔ _
  rw [hs0, hw0]
  omega

theorem scatterAdd_flat_apply (x : (⟨1, ![P]⟩ : Shape).Idx → EReal) (idx : IVec (⟨2, ![N, 1]⟩ : Shape) w)
    (upd : (⟨1, ![N]⟩ : Shape).Idx → EReal) (p : Fin P) :
    Ideal.hostScatterAdd d x idx upd (ix1 p)
      = x (ix1 p)
        + ∑ n ∈ Finset.univ.filter (fun n : Fin N => (idx (ix2 n (0 : Fin 1))).toInt = (p.val : Int)),
            upd (ix1 n) := by
  unfold Ideal.hostScatterAdd
  congr 1
  rw [Finset.sum_filter, Finset.sum_filter]
  refine Fintype.sum_equiv idxEquiv1 _ _ fun j => ?_
  rw [eq_ix1 j]
  exact if_congr (resultIdx_flat d huw hiw hsd hiv idx (j 0) p) rfl rfl

end Flat

end Idealize.ShloMosaic.ScatterSum

end
-- ==== Proof.Ref.ValB.lean ====
import proofs.«403249_j11562051960853_3_alg».proof.Proof.Ref.ValA
import proofs.«403249_j11562051960853_3_alg».proof.Proof.LibScatterSum

noncomputable section

open scoped BigOperators

namespace Cert.ReferenceIdeal.RefVal

open Cert.ReferenceIdeal Cert.ReferenceIdeal.Gen Cert.ReferenceIdeal.RefRun
open Idealize.ShloMosaic Idealize.ShloMosaic.ValueIdx Idealize.ShloMosaic.ScatterSum
open Cert.Shared (node node_val)

section Gather
variable {α : Type} {P C N w : Nat}
variable (d : GatherDims (⟨2, ![P, C]⟩ : Shape) (⟨2, ![N, 1]⟩ : Shape) (⟨2, ![N, C]⟩ : Shape))

theorem gather_siIdx (hoff : d.offsetDims = [1]) (hiv : d.indexVectorDim = 1) (n : Fin N) (c : Fin C)
    (k : Fin d.startIndexMap.length) : d.siIdx (ix2 n c) k = ix2 n (0 : Fin 1) := by
  have hbd : d.batchDims = [0] := by
    show Shape.kept _ d.offsetDims = [0]
    rw [hoff]; rfl
  funext b
  refine Fin.ext ?_
  match b with
  | ⟨0, hb⟩ =>
    unfold GatherDims.siIdx
    rw [dif_neg (show ¬ (⟨0, hb⟩ : Fin (⟨2, ![N, 1]⟩ : Shape).rank).val = d.indexVectorDim by rw [hiv]; exact Nat.zero_ne_one)]
    unfold GatherDims.siCoord
    exact congrArg (fun e => ((ix2 n c : (⟨2, ![N, C]⟩ : Shape).Idx) e).val) (getElem_of_eq_singleton hbd _ _)
  | ⟨1, hb⟩ =>
    have h1 : (d.siIdx (ix2 n c) k ⟨1, hb⟩).val < 1 := (d.siIdx (ix2 n c) k ⟨1, hb⟩).isLt
    show (d.siIdx (ix2 n c) k ⟨1, hb⟩).val = 0
    omega

-- The gather at (n, c) reads the table at (p, c), p the row's start index when that is a row number.
theorem gather_rows_apply (hoff : d.offsetDims = [1]) (hcoll : d.collapsedSliceDims = [0]) (hob : d.operandBatchingDims = [])
    (hsim : d.startIndexMap = [0]) (hiv : d.indexVectorDim = 1) (x : (⟨2, ![P, C]⟩ : Shape).Idx → α)
    (idx : IVec (⟨2, ![N, 1]⟩ : Shape) w) (n : Fin N) (c : Fin C) (p : Fin P)
    (hp : (idx (ix2 n (0 : Fin 1))).toInt = (p.val : Int)) :
    Host.gather d x idx (ix2 n c) = x (ix2 p c) := by
  have h10 : ¬ (1 : Fin 2) = 0 := fun h => absurd (congrArg Fin.val h) Nat.one_ne_zero
  have hb0 : (0 : Fin 2) ∉ d.operandBatchingDims := by rw [hob]; exact List.not_mem_nil
  have hb1 : (1 : Fin 2) ∉ d.operandBatchingDims := by rw [hob]; exact List.not_mem_nil
  have hk0 : (0 : Fin 2) ∉ d.sKept := by
    rw [GatherDims.mem_sKept, hcoll]; exact fun h => h.1 (List.mem_singleton.2 rfl)
  have hk1 : (1 : Fin 2) ∈ d.sKept := by
    rw [GatherDims.mem_sKept, hcoll]; exact ⟨fun h => h10 (List.mem_singleton.1 h), hb1⟩
  have hm0 : (0 : Fin 2) ∈ d.startIndexMap := by rw [hsim]; exact List.mem_singleton.2 rfl
  have hm1 : (1 : Fin 2) ∉ d.startIndexMap := by rw [hsim]; exact fun h => h10 (List.mem_singleton.1 h)
  have hsl : d.sliceSizes 0 = 1 := d.slice_collapsed 0 (by rw [hcoll]; exact List.mem_singleton.2 rfl)
  have hsk : d.sKept = [1] := by
    show Shape.kept _ (d.collapsedSliceDims ++ d.operandBatchingDims) = [1]
    rw [hcoll, hob]; rfl
  unfold Host.gather
  refine congrArg x (funext fun a => Fin.ext ?_)
  match a with
  | ⟨0, _⟩ =>
    show d.start (ix2 n c) idx 0 + d.batchCoord (ix2 n c) 0 + d.offCoord (ix2 n c) 0 = p.val
    rw [d.batchCoord_eq_zero _ _ hb0, d.offCoord_eq_zero _ _ hk0]
    unfold GatherDims.start
    rw [dif_pos hm0, gather_siIdx d hoff hiv, hp, hsl]
    have hpl : p.val < P := p.isLt
    show min ((p.val : Int)).toNat (P - 1) + 0 + 0 = p.val
    rw [Int.toNat_natCast]
    omega
  | ⟨1, _⟩ =>
    show d.start (ix2 n c) idx 1 + d.batchCoord (ix2 n c) 1 + d.offCoord (ix2 n c) 1 = c.val
    rw [d.batchCoord_eq_zero _ _ hb1]
    unfold GatherDims.start
    rw [dif_neg hm1]
    unfold GatherDims.offCoord
    rw [dif_pos hk1]
    have e : ((ix2 n c : (⟨2, ![N, C]⟩ : Shape).Idx)
        (d.offsetDims[d.sKept.idxOf (1 : Fin 2)]'(by rw [d.offset_length]; exact List.idxOf_lt_length_iff.2 hk1))).val = c.val :=
      congrArg (fun e => ((ix2 n c : (⟨2, ![N, C]⟩ : Shape).Idx) e).val) (getElem_of_eq_singleton hoff _ _)
    omega

end Gather

section HostOps

theorem host_scatter_flat_apply {P N w : Nat}
    (d : ScatterDims (⟨1, ![P]⟩ : Shape) (⟨2, ![N, 1]⟩ : Shape) (⟨1, ![N]⟩ : Shape))
    (huw : d.updateWindowDims = []) (hiw : d.insertedWindowDims = [0]) (hsd : d.scatterDimsToOperandDims = [0])
    (hiv : d.indexVectorDim = 1) (x : FVec Ideal ⟨1, ![P]⟩ .f32) (idx : IVec (⟨2, ![N, 1]⟩ : Shape) w)
    (upd : FVec Ideal ⟨1, ![N]⟩ .f32) (p : Fin P) :
    Host.scatterAdd d x idx upd (ix1 p)
      = x (ix1 p)
        + ∑ n ∈ Finset.univ.filter (fun n : Fin N => (idx (ix2 n (0 : Fin 1))).toInt = (p.val : Int)), upd (ix1 n) :=
  scatterAdd_flat_apply d huw hiw hsd hiv x idx upd p

theorem host_scatter_rows_apply {P C N w : Nat}
    (d : ScatterDims (⟨2, ![P, C]⟩ : Shape) (⟨2, ![N, 1]⟩ : Shape) (⟨2, ![N, C]⟩ : Shape))
    (huw : d.updateWindowDims = [1]) (hiw : d.insertedWindowDims = [0]) (hsd : d.scatterDimsToOperandDims = [0])
    (hiv : d.indexVectorDim = 1) (x : FVec Ideal ⟨2, ![P, C]⟩ .f32) (idx : IVec (⟨2, ![N, 1]⟩ : Shape) w)
    (upd : FVec Ideal ⟨2, ![N, C]⟩ .f32) (p : Fin P) (ch : Fin C) :
    Host.scatterAdd d x idx upd (ix2 p ch)
      = x (ix2 p ch)
        + ∑ n ∈ Finset.univ.filter (fun n : Fin N => (idx (ix2 n (0 : Fin 1))).toInt = (p.val : Int)), upd (ix2 n ch) :=
  scatterAdd_rows_apply d huw hiw hsd hiv x idx upd p ch

theorem host_total_col_apply {n : Nat} (h : (⟨2, ![n, 1]⟩ : Shape).ReducesTo [0, 1] ⟨0, ![]⟩) {u : Shape} (hu : 0 < u.numel)
    (x : FVec Ideal ⟨2, ![n, 1]⟩ .f32) (init : u.Idx → Ideal .f32) (j : (⟨0, ![]⟩ : Shape).Idx) :
    Host.reduceAdd x init h hu j = init (Shape.Idx.first hu) + ∑ p : Fin n, x (ix2 p (0 : Fin 1)) := by
  rw [hostReduceAdd_apply, Ideal.hostReduceAdd_total h (fun b => b.elim0), sum_idx2]
  exact congrArg (init (Shape.Idx.first hu) + ·) (Finset.sum_congr rfl fun p _ => Fin.sum_univ_one _)

theorem host_total_table_apply {n m : Nat} (h : (⟨2, ![n, m]⟩ : Shape).ReducesTo [0, 1] ⟨0, ![]⟩) {u : Shape}
    (hu : 0 < u.numel) (x : FVec Ideal ⟨2, ![n, m]⟩ .f32) (init : u.Idx → Ideal .f32) (j : (⟨0, ![]⟩ : Shape).Idx) :
    Host.reduceAdd x init h hu j = init (Shape.Idx.first hu) + ∑ a : Fin n, ∑ b : Fin m, x (ix2 a b) := by
  rw [hostReduceAdd_apply, Ideal.hostReduceAdd_total h (fun b => b.elim0), sum_idx2]

theorem hostNegf_apply {s : Shape} {φ : FTy} (a : FVec Ideal s φ) (i : s.Idx) : Host.negf a i = -(a i) := rfl

end HostOps

theorem toInt_eq_iff_node (w : BitVec 32) (h : 0 ≤ w.toInt ∧ w.toInt < 100000) (p : Fin 100000) :
    w.toInt = (p.val : Int) ↔ node w = p := by
  have hv := node_val w h.1 h.2
  constructor
  · intro e; exact Fin.ext (by omega)
  · intro e; rw [← e]; exact hv.symm

theorem ofBits_two_f32 : Ideal.ofBits .f32 0x40000000#32 = 2 := by
  rw [show (2 : EReal) = ((2 : ℝ) : EReal) by norm_cast]
  simp [Ideal.ofBits, Ideal.ieee, -EReal.coe_mul]; norm_num

section Chain
variable (s : FVec Ideal S100000x64 .f32) (a3 : FVec Ideal S3200000 .f32) (a4 a5 : IVec S3200000 32)
  (h4 : ∀ e, 0 ≤ (a4 e).toInt ∧ (a4 e).toInt < 100000) (h5 : ∀ e, 0 ≤ (a5 e).toInt ∧ (a5 e).toInt < 100000)

abbrev Sm : Fin 100000 → Fin 64 → EReal := fun n k => s (ix2 n k)
abbrev vl : Fin 3200000 → EReal := Cert.Results.vals a3
abbrev rN : Fin 3200000 → Fin 100000 := Cert.Results.rowN a4
abbrev cN : Fin 3200000 → Fin 100000 := Cert.Results.colN a5

theorem asCol_apply {α : Type} (v : S3200000.Idx → α) (e : Fin 3200000) : asCol v (ix2 e (0 : Fin 1)) = v (ix1 e) :=
  bcast_col_apply _ v e

theorem zeros_apply {T : Shape} (h : S_.BroadcastsInDim T ![]) (i : T.Idx) : broadcastInDim T ![] h (zero (F := Ideal)) i = 0 := by
  rw [broadcastInDim_scalar_apply, zero_apply]

theorem twice_at (m : FVec Ideal S_ .f32) (j : S_.Idx) : twice m j = 2 * m j := by
  rw [twice, mulf_apply, constant_apply, ofBits_two_f32]

theorem diag_mask (a b : Fin 64) : diagMask (ix2 a b) = 1#1 ↔ a = b := by
  show IntOp.cmpi .eq (IntOp.addi (iotaInDim S64x64 32 0 (ix2 a b))
      (broadcastInDim S64x64 ![] _ (constantI S_ 32 0#32) (ix2 a b))) (iotaInDim S64x64 32 1 (ix2 a b)) = 1#1 ↔ a = b
  rw [StableHlo.Predicate.cmpi_eq_iff, broadcastInDim_scalar_apply, iotaInDim_apply, iotaInDim_apply]
  show BitVec.ofNat 32 a.val + 0#32 = BitVec.ofNat 32 b.val ↔ a = b
  rw [BitVec.add_zero]
  constructor
  · intro h
    have ht := congrArg BitVec.toNat h
    simp only [BitVec.toNat_ofNat] at ht
    have ha := a.isLt
    have hb := b.isLt
    exact Fin.ext (by omega)
  · intro h; rw [h]

-- The masked table summed over all pairs is the sum of the diagonal.
theorem trace_at (g : FVec Ideal S64x64 .f32) (j : S_.Idx) : trace g j = Cert.Spec.tr (fun a b => g (ix2 a b)) := by
  rw [trace, host_total_table_apply, zero_apply, zero_add, Cert.Spec.tr]
  refine Finset.sum_congr rfl fun a _ => Finset.sum_congr rfl fun b _ => ?_
  rw [select_apply]
  by_cases hab : a = b
  · rw [if_pos hab, (diag_mask a b).2 hab, select_one]
  · rw [if_neg hab, eq_zero_of_ne_one (fun h => hab ((diag_mask a b).1 h)), select_zero, zeros_apply]

include h5

theorem degCol_at (p : Fin 100000) : degCol a3 a5 (ix2 p (0 : Fin 1)) = Cert.Spec.deg (vl a3) (cN a5) p := by
  rw [degCol, bcast_col_apply, host_scatter_flat_apply _ rfl rfl rfl rfl, zeros_apply, zero_add, Cert.Spec.deg]
  refine Finset.sum_congr (Finset.filter_congr fun e _ => ?_) (fun e _ => rfl)
  rw [asCol_apply]
  exact toInt_eq_iff_node _ (h5 _) p

theorem degRow_at (p : Fin 100000) :
    transpose S1x100000 [1, 0] (degCol a3 a5) transposes_S100000x1_S1x100000_1_0 (ix2 (0 : Fin 1) p)
      = Cert.Spec.deg (vl a3) (cN a5) p := by
  rw [transpose2_apply, degCol_at a3 a5 h5]

theorem mass_at (j : S_.Idx) : mass a3 a5 j = Cert.Spec.massN (vl a3) (cN a5) := by
  rw [mass, host_total_col_apply, zero_apply, zero_add, Cert.Spec.massN]
  exact Finset.sum_congr rfl fun p _ => degCol_at a3 a5 h5 p

-- An index that is not negative is left as it is.
theorem wrapped_at (i : S3200000.Idx) : wrapped a5 i = a5 i := by
  have hc : ∀ z : IVec S3200000 32, z i = 0#32 → cmpi .slt a5 z i = 0#1 := by
    intro z hz
    show BitVec.ofBool ((a5 i).slt (z i)) = 0#1
    rw [hz]
    have hf : (a5 i).slt 0#32 = false := by
      unfold BitVec.slt
      exact decide_eq_false (not_lt.mpr (h5 i).1)
    rw [hf]; rfl
  rw [wrapped, select_apply, hc _ (broadcastInDim_scalar_apply _ _ _), select_zero]

include h4

theorem adjS_at (p : Fin 100000) (a : Fin 64) :
    adjS s a3 a4 a5 (ix2 p a) = Cert.Spec.AS (Sm s) (vl a3) (rN a4) (cN a5) p a := by
  rw [adjS, host_scatter_rows_apply _ rfl rfl rfl rfl, zeros_apply, zero_add, Cert.Spec.AS]
  refine Finset.sum_congr (Finset.filter_congr fun e _ => ?_) (fun e _ => ?_)
  · rw [asCol_apply]
    exact toInt_eq_iff_node _ (h4 _) p
  · rw [mulf_apply]
    exact congrArg₂ (· * ·) (bcastCol_apply _ _ a3 e a) (gather_rows_apply _ rfl rfl rfl rfl rfl s _ e a _
      (by rw [asCol_apply, wrapped_at a5 h5]; exact (node_val _ (h5 _).1 (h5 _).2).symm))

theorem modularity_at (a b : Fin 64) :
    modularity s a3 a4 a5 (ix2 a b)
      = Cert.Spec.gpN (Sm s) (vl a3) (rN a4) (cN a5) a b
        - Ideal.div (Cert.Spec.nl (Sm s) (vl a3) (cN a5) a * Cert.Spec.nr (Sm s) (vl a3) (cN a5) b)
            (2 * Cert.Spec.massN (vl a3) (cN a5)) := by
  rw [modularity, subf_apply, hostDivf_apply, broadcastInDim_scalar_apply, twice_at, mass_at a3 a5 h5,
    dot_apply _ _ _ rfl rfl rfl rfl rfl rfl, dot_apply _ _ _ rfl rfl rfl rfl rfl rfl, Fin.sum_univ_one,
    dot_apply _ _ _ rfl rfl rfl rfl rfl rfl, dot_apply _ _ _ rfl rfl rfl rfl rfl rfl, Cert.Spec.gpN, Cert.Spec.nl, Cert.Spec.nr]
  simp only [transposed_apply, adjS_at s a3 a4 a5 h4 h5, degCol_at a3 a5 h5, degRow_at a3 a5 h5, Sm]

theorem spectral_eq : spectral s a3 a4 a5 = fun _ => Cert.Spec.spectralN (Sm s) (vl a3) (rN a4) (cN a5) := by
  funext j
  rw [spectral, hostDivf_apply, hostNegf_apply, trace_at, twice_at, mass_at a3 a5 h5,
    funext₂ (modularity_at s a3 a4 a5 h4 h5), Cert.Spec.spectralN]

end Chain

theorem res_v52_eq (a0 : FVec Ideal S100000x128 .f32) (a1 : FVec Ideal S64x128 .f32) (a2 : FVec Ideal S64 .f32)
    (a3 : FVec Ideal S3200000 .f32) (a4 a5 : IVec S3200000 32)
    (h4 : ∀ e, 0 ≤ (a4 e).toInt ∧ (a4 e).toInt < 100000) (h5 : ∀ e, 0 ≤ (a5 e).toInt ∧ (a5 e).toInt < 100000) :
    res_v52 a0 a1 a2 a3 a4 a5 = Cert.Results.spectralN a0 a1 a2 a3 a4 a5 := by
  have hS : Sm (softmax (F := Ideal) a0 a1 a2) = Cert.Results.Sa a0 a1 a2 :=
    funext fun n => funext fun k => softmax_at a0 a1 a2 n k
  show spectral _ a3 a4 a5 = fun _ => Cert.Spec.spectralN (Cert.Results.Sa a0 a1 a2) (Cert.Results.vals a3)
    (Cert.Results.rowN a4) (Cert.Results.colN a5)
  rw [spectral_eq _ a3 a4 a5 h4 h5, hS]

end Cert.ReferenceIdeal.RefVal

end
-- ==== Proof.PreFacts.lean ====
import proofs.«403249_j11562051960853_3_alg».proof.Pre_finite_inputs
import proofs.«403249_j11562051960853_3_alg».proof.Proof.Gen.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.PreFacts

open Idealize.ShloMosaic Cert.Pre_finite_inputs

-- The word is +∞, and max x (−x) < +∞ fails at both infinities.
theorem real_of_abs_lt (x : EReal) (h : Ideal.cmp .olt (max x (-x)) (Ideal.ofBits .f32 0x7F800000#32) = 1#1) :
    ∃ r : ℝ, x = (r : EReal) := by
  have ht : Ideal.ofBits .f32 0x7F800000#32 = (⊤ : EReal) := by simp [Ideal.ofBits, Ideal.ieee]
  simp only [ht, Ideal.cmp, StableHlo.Predicate.ofBool_eq_one_iff, decide_eq_true_eq, max_lt_iff] at h
  exact ⟨x.toReal, (EReal.coe_toReal h.1.ne fun hb => h.2.ne (hb ▸ EReal.neg_bot)).symm⟩

theorem range_of_cmp (w : BitVec 32) (h0 : IntOp.cmpi .sge w (0#32) = 1#1) (h1 : IntOp.cmpi .slt w (100000#32) = 1#1) :
    0 ≤ w.toInt ∧ w.toInt < 100000 := by
  unfold IntOp.cmpi at h0 h1
  rw [StableHlo.Predicate.ofBool_eq_one_iff] at h0 h1
  simp only [BitVec.slt, BitVec.sle, decide_eq_true_eq] at h0 h1
  exact ⟨h0, h1⟩

variable [hF : Cert.Pre_finite_inputs.Facts]

-- The predicate is a conjunction of eight reductions by "and"; each being 1 gives its mask at every index.
theorem of_pre (a0 : FVec Ideal Cert.Pre_finite_inputs.S100000x128 .f32) (a1 : FVec Ideal Cert.Pre_finite_inputs.S64x128 .f32)
    (a2 : FVec Ideal Cert.Pre_finite_inputs.S64 .f32) (a3 : FVec Ideal Cert.Pre_finite_inputs.S3200000 .f32)
    (a4 a5 : IVec Cert.Pre_finite_inputs.S3200000 32)
    (h : Cert.Pre_finite_inputs.fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal))
      ∧ (∀ e, 0 ≤ (a4 e).toInt ∧ (a4 e).toInt < 100000) ∧ (∀ e, 0 ≤ (a5 e).toInt ∧ (a5 e).toInt < 100000) := by
  have e := congrFun h ValueIdx.ix0
  dsimp only [Cert.Pre_finite_inputs.fn, Cert.Pre_finite_inputs.fn_part1, Cert.Pre_finite_inputs.fn_part2] at e
  simp only [andi, IntOp.andi_eq_one] at e
  obtain ⟨⟨⟨⟨⟨⟨⟨h0, h1⟩, h2⟩, h3⟩, h40⟩, h41⟩, h50⟩, h51⟩ := e
  exact ⟨fun i => real_of_abs_lt _ (Host.reduce_andi_all _ _ _ _ _ h0 i),
    fun i => real_of_abs_lt _ (Host.reduce_andi_all _ _ _ _ _ h1 i),
    fun i => real_of_abs_lt _ (Host.reduce_andi_all _ _ _ _ _ h2 i),
    fun i => real_of_abs_lt _ (Host.reduce_andi_all _ _ _ _ _ h3 i),
    fun i => range_of_cmp _ (Host.reduce_andi_all _ _ _ _ _ h40 i) (Host.reduce_andi_all _ _ _ _ _ h41 i),
    fun i => range_of_cmp _ (Host.reduce_andi_all _ _ _ _ _ h50 i) (Host.reduce_andi_all _ _ _ _ _ h51 i)⟩

end Cert.PreFacts

end
-- ==== Proof.SpecB.lean ====
import proofs.«403249_j11562051960853_3_alg».proof.Proof.SpecA
import Mathlib.Algebra.BigOperators.WithTop

noncomputable section

open scoped BigOperators

namespace Cert.Spec

open Idealize.ShloMosaic

private theorem tr_diag {K : ℕ} (G : Fin K → Fin K → EReal) : tr G = ∑ a, G a a :=
  Finset.sum_congr rfl fun a _ => by rw [Finset.sum_ite_eq, if_pos (Finset.mem_univ a)]

-- Summing over nodes the edges landing on each node, times a factor of the node, is one sum over all edges.
private theorem sum_fiber_mul {N E : ℕ} (g : Fin E → Fin N) (u : Fin E → ℝ) (t : Fin N → ℝ) :
    ∑ p, (∑ e ∈ Finset.univ.filter (fun e => g e = p), (u e : EReal)) * (t p : EReal)
      = ((∑ e, u e * t (g e) : ℝ) : EReal) := by
  rw [← Finset.sum_fiberwise Finset.univ g fun e => u e * t (g e), coe_sum]
  refine Finset.sum_congr rfl fun p _ => ?_
  rw [← coe_sum, ← EReal.coe_mul, Finset.sum_mul]
  exact congrArg _ (Finset.sum_congr rfl fun e he => by rw [(Finset.mem_filter.mp he).2])

-- A square over zero is ⊤ unless the square is zero, then ⊥: both sides are ⊥ when some w a ≠ 0, and ⊤ otherwise.
private theorem sum_sub_div {K : ℕ} [NeZero K] (g w : Fin K → ℝ) (c : ℝ) :
    (∑ a, (g a : EReal)) - Ideal.div (∑ a, (w a : EReal) * (w a : EReal)) (c : EReal)
      = ∑ a, ((g a : EReal) - Ideal.div ((w a : EReal) * (w a : EReal)) (c : EReal)) := by
  by_cases hc : c = 0
  · subst hc
    have hd : ∀ x : ℝ, Ideal.div (x : EReal) ((0 : ℝ) : EReal) = if 0 < x then ⊤ else ⊥ := fun x => by
      rw [Ideal.div, if_pos EReal.coe_zero]; simp only [EReal.coe_pos]
    simp only [← EReal.coe_mul, ← coe_sum, hd]
    by_cases hw : ∀ a, w a = 0
    · simp only [hw, mul_zero, Finset.sum_const_zero, lt_irrefl, if_false, EReal.coe_sub_bot]
      exact (top_le_iff.1 (Finset.single_le_sum (f := fun _ : Fin K => (⊤ : EReal)) (fun _ _ => le_top)
        (Finset.mem_univ 0))).symm
    · obtain ⟨a0, ha0⟩ := not_forall.mp hw
      have h0 := mul_self_pos.mpr ha0
      rw [if_pos (Finset.sum_pos' (fun a _ => mul_self_nonneg (w a)) ⟨a0, Finset.mem_univ _, h0⟩), EReal.sub_top]
      exact (WithBot.sum_eq_bot_iff.2 ⟨a0, Finset.mem_univ _, by rw [if_pos h0, EReal.sub_top]; rfl⟩).symm
  · simp only [Ideal.div_coe hc, ← EReal.coe_mul, ← coe_sum, ← EReal.coe_sub]
    rw [Finset.sum_sub_distrib, Finset.sum_mul]

-- On real data the node tables are the edge tables regrouped, and the normalizer may be subtracted before the trace.
theorem spectral_eq' {N K E : ℕ} [NeZero K] (S : Fin N → Fin K → EReal) (val : Fin E → EReal) (ri ci : Fin E → Fin N)
    (hS : ∀ n k, ∃ r : ℝ, S n k = (r : EReal)) (hv : ∀ e, ∃ r : ℝ, val e = (r : EReal)) :
    spectralE S val ri ci = spectralN S val ri ci := by
  choose s hs using hS
  choose v hv using hv
  have hg : ∀ a b, gp S val ri ci a b = ((∑ e, v e * s (ci e) a * s (ri e) b : ℝ) : EReal) := fun a b => by
    simp only [gp, hs, hv, ← EReal.coe_mul, ← coe_sum]
  have hw : ∀ k, vv S val ci k = ((∑ e, v e * s (ci e) k : ℝ) : EReal) := fun k => by
    simp only [vv, hs, hv, ← EReal.coe_mul, ← coe_sum]
  have hgN : ∀ a b, gpN S val ri ci a b = gp S val ri ci a b := fun a b => by
    simp only [hg, gpN, AS, hs, hv, ← EReal.coe_mul]
    exact sum_fiber_mul ri _ _
  have hr : ∀ b, nr S val ci b = vv S val ci b := fun b => by
    simp only [hw, nr, deg, hs, hv]
    exact sum_fiber_mul ci v _
  have hl : ∀ a, nl S val ci a = vv S val ci a := fun a => (Finset.sum_congr rfl fun _ _ => mul_comm _ _).trans (hr a)
  have hm : 2 * mass val = ((2 * ∑ e, v e : ℝ) : EReal) := by
    simp only [mass, hv, ← coe_sum]
    exact (EReal.coe_mul 2 _).symm
  have hN : massN val ci = mass val := Finset.sum_fiberwise Finset.univ ci val
  unfold spectralE spectralN
  simp only [hN, tr_diag, hgN, hl, hr, hg, hw, hm]
  exact congrArg (fun x => Ideal.div (-x) _) (sum_sub_div _ _ _)

end Cert.Spec

end
-- ==== Proof.ResultsEq.lean ====
import proofs.«403249_j11562051960853_3_alg».proof.Proof.Results
import proofs.«403249_j11562051960853_3_alg».proof.Proof.SpecA
import proofs.«403249_j11562051960853_3_alg».proof.Proof.SpecB

noncomputable section

open scoped BigOperators

namespace Cert.Results

open Idealize.ShloMosaic Idealize.ShloMosaic.ValueIdx Cert.Shared

variable (a0 : S100000x128.Idx → EReal) (a1 : S64x128.Idx → EReal) (a2 : S64.Idx → EReal) (a3 : S3200000.Idx → EReal)
  (a4 a5 : S3200000.Idx → BitVec 32)
  (h0 : ∀ i, ∃ r : ℝ, a0 i = (r : EReal)) (h1 : ∀ i, ∃ r : ℝ, a1 i = (r : EReal)) (h2 : ∀ i, ∃ r : ℝ, a2 i = (r : EReal))
include h0 h1 h2

theorem Sa_pos : ∀ n k, ∃ r : ℝ, 0 < r ∧ Sa a0 a1 a2 n k = (r : EReal) :=
  Cert.Spec.S_pos' (X a0) (Wt a1) (Bs a2) (fun n d => h0 (ix2 n d)) (fun k d => h1 (ix2 k d)) (fun k => h2 (ix1 k))

theorem pooled_eq : pooledE a0 a1 a2 = pooledN a0 a1 a2 :=
  congrArg seluT (funext fun i =>
    Cert.Spec.pool_div' (Sa a0 a1 a2) (X a0) (Sa_pos a0 a1 a2 h0 h1 h2) (fun n d => h0 (ix2 n d)) (i 0) (i 1))

theorem spectral_eq (h3 : ∀ i, ∃ r : ℝ, a3 i = (r : EReal)) :
    spectralE a0 a1 a2 a3 a4 a5 = spectralN a0 a1 a2 a3 a4 a5 :=
  funext fun _ => Cert.Spec.spectral_eq' (Sa a0 a1 a2) (vals a3) (rowN a4) (colN a5)
    (fun n k => (Sa_pos a0 a1 a2 h0 h1 h2 n k).imp fun _ h => h.2) (fun e => h3 (ix1 e))

end Cert.Results

end
-- ==== Proof.lean ====
import proofs.«403249_j11562051960853_3_alg».proof.Defs
import proofs.«403249_j11562051960853_3_alg».proof.Proof.Gen.Kernel
import proofs.«403249_j11562051960853_3_alg».proof.Proof.Gen.KernelIdeal
import proofs.«403249_j11562051960853_3_alg».proof.Proof.Gen.ReferenceIdeal
import proofs.«403249_j11562051960853_3_alg».proof.Proof.Gen.Pre_finite_inputs
import proofs.«403249_j11562051960853_3_alg».proof.Proof.K.Run
import proofs.«403249_j11562051960853_3_alg».proof.Proof.KI.Values
import proofs.«403249_j11562051960853_3_alg».proof.Proof.Ref.Run
import proofs.«403249_j11562051960853_3_alg».proof.Proof.Ref.ValA
import proofs.«403249_j11562051960853_3_alg».proof.Proof.Ref.ValB
import proofs.«403249_j11562051960853_3_alg».proof.Proof.PreFacts
import proofs.«403249_j11562051960853_3_alg».proof.Proof.ResultsEq

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

-- The reference has no kernel: its frame is its run with the results dropped.
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run (F := Ideal) m ρ)

theorem preserves : Cert.preserves_Kernel_KernelIdeal := trivial

-- Both runs end at the same four functions of the arguments, summed by edge on one side and by node on the other.
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hp := fun c => Cert.PreFacts.of_pre (hF := Cert.Pre_finite_inputs.Gen.facts) _ _ _ _ _ _ (hpre c)
  refine ⟨_, _, _, _, Cert.KernelIdeal.Val.run_values m ρ (fun c e => (hp c).2.2.2.2.1 e) (fun c e => (hp c).2.2.2.2.2 e), ?_⟩
  refine (θ_run Cert.ReferenceIdeal.defs _ _).mono (fun r h c => ?_) (Cert.ReferenceIdeal.RefRun.run (F := Ideal) m' ρ')
  obtain ⟨⟨h61, h15, h52, h58⟩, hargs⟩ := h c
  obtain ⟨e0, e1, e2, e3, e4, e5⟩ := hagree c
  obtain ⟨r0, r1, r2, r3, g4, g5⟩ := hp c
  refine ⟨?_, ?_, ?_, ?_, hargs⟩
  · rw [h61, e0, e1, e2, e3, e4, e5, Cert.ReferenceIdeal.RefVal.res_v61_eq]
    exact (Cert.Results.pooled_eq _ _ _ r0 r1 r2).symm
  · rw [h15, e0, e1, e2, e3, e4, e5, Cert.ReferenceIdeal.RefVal.res_v15_eq]
  · rw [h52, e0, e1, e2, e3, e4, e5, Cert.ReferenceIdeal.RefVal.res_v52_eq _ _ _ _ _ _ g4 g5]
    exact (Cert.Results.spectral_eq _ _ _ _ _ _ r0 r1 r2 r3).symm
  · rw [h58, e0, e1, e2, e3, e4, e5, Cert.ReferenceIdeal.RefVal.res_v58_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
